-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v593) = v0 c
          ∧ r.2.mem ((c.tc : Thread Cert.ReferenceIdeal.nD Cert.ReferenceIdeal.τ).loc Cert.ReferenceIdeal.main_v601) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1024 : Shape := ⟨3, ![1, 8192, 1024]⟩
abbrev S2048 : Shape := ⟨1, ![2048]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1x8192x1024 .f32) (main_arg1 : FVec F S1x8192x1024 .f32) (main_arg2 : FVec F S2048 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S1x8192x1024 : Shape := ⟨3, ![1, 8192, 1024]⟩
abbrev S2048 : Shape := ⟨1, ![2048]⟩
abbrev S8192x1024 : Shape := ⟨2, ![8192, 1024]⟩
abbrev S1024 : Shape := ⟨1, ![1024]⟩
abbrev S8x128 : Shape := ⟨2, ![8, 128]⟩
abbrev S128 : Shape := ⟨1, ![128]⟩
abbrev S_ : Shape := ⟨0, ![]⟩
abbrev S1x128 : Shape := ⟨2, ![1, 128]⟩
abbrev S8x128x1 : Shape := ⟨3, ![8, 128, 1]⟩
abbrev S8x128x4 : Shape := ⟨3, ![8, 128, 4]⟩
abbrev S8192x128 : Shape := ⟨2, ![8192, 128]⟩
abbrev S1x128x4 : Shape := ⟨3, ![1, 128, 4]⟩
abbrev S512x16x128 : Shape := ⟨3, ![512, 16, 128]⟩
abbrev S512x1x128 : Shape := ⟨3, ![512, 1, 128]⟩
abbrev S510x1x128 : Shape := ⟨3, ![510, 1, 128]⟩
abbrev S2x1x128 : Shape := ⟨3, ![2, 1, 128]⟩
abbrev S508x1x128 : Shape := ⟨3, ![508, 1, 128]⟩
abbrev S4x1x128 : Shape := ⟨3, ![4, 1, 128]⟩
abbrev S506x1x128 : Shape := ⟨3, ![506, 1, 128]⟩
abbrev S6x1x128 : Shape := ⟨3, ![6, 1, 128]⟩
abbrev S504x1x128 : Shape := ⟨3, ![504, 1, 128]⟩
abbrev S8x1x128 : Shape := ⟨3, ![8, 1, 128]⟩
abbrev S502x1x128 : Shape := ⟨3, ![502, 1, 128]⟩
abbrev S10x1x128 : Shape := ⟨3, ![10, 1, 128]⟩
abbrev S500x1x128 : Shape := ⟨3, ![500, 1, 128]⟩
abbrev S12x1x128 : Shape := ⟨3, ![12, 1, 128]⟩
abbrev S498x1x128 : Shape := ⟨3, ![498, 1, 128]⟩
abbrev S14x1x128 : Shape := ⟨3, ![14, 1, 128]⟩
abbrev S496x1x128 : Shape := ⟨3, ![496, 1, 128]⟩
abbrev S16x1x128 : Shape := ⟨3, ![16, 1, 128]⟩
abbrev S494x1x128 : Shape := ⟨3, ![494, 1, 128]⟩
abbrev S18x1x128 : Shape := ⟨3, ![18, 1, 128]⟩
abbrev S492x1x128 : Shape := ⟨3, ![492, 1, 128]⟩
abbrev S20x1x128 : Shape := ⟨3, ![20, 1, 128]⟩
abbrev S490x1x128 : Shape := ⟨3, ![490, 1, 128]⟩
abbrev S22x1x128 : Shape := ⟨3, ![22, 1, 128]⟩
abbrev S488x1x128 : Shape := ⟨3, ![488, 1, 128]⟩
abbrev S24x1x128 : Shape := ⟨3, ![24, 1, 128]⟩
abbrev S486x1x128 : Shape := ⟨3, ![486, 1, 128]⟩
abbrev S26x1x128 : Shape := ⟨3, ![26, 1, 128]⟩
abbrev S484x1x128 : Shape := ⟨3, ![484, 1, 128]⟩
abbrev S28x1x128 : Shape := ⟨3, ![28, 1, 128]⟩
abbrev S482x1x128 : Shape := ⟨3, ![482, 1, 128]⟩
abbrev S30x1x128 : Shape := ⟨3, ![30, 1, 128]⟩
abbrev S128x4 : Shape := ⟨2, ![128, 4]⟩
abbrev S8192x4 : Shape := ⟨2, ![8192, 4]⟩
abbrev S512x16x4 : Shape := ⟨3, ![512, 16, 4]⟩
abbrev S512x1x2 : Shape := ⟨3, ![512, 1, 2]⟩
abbrev S512x16x2 : Shape := ⟨3, ![512, 16, 2]⟩
abbrev S512x16x1 : Shape := ⟨3, ![512, 16, 1]⟩

abbrev nBuf : Space → Nat
  | .hbm => 38
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S2048, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8x128, .f32⟩
  | .hbm, ⟨7, _⟩ => ⟨S1024, .f32⟩
  | .hbm, ⟨8, _⟩ => ⟨S8x128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S8x128, .f32⟩
  | .hbm, ⟨19, _⟩ => ⟨S8x128, .f32⟩
  | .hbm, ⟨20, _⟩ => ⟨S1x128, .f32⟩
  | .hbm, ⟨21, _⟩ => ⟨S8x128, .f32⟩
  | .hbm, ⟨22, _⟩ => ⟨S8x128, .f32⟩
  | .hbm, ⟨23, _⟩ => ⟨S1x128, .f32⟩
  | .hbm, ⟨24, _⟩ => ⟨S8x128, .f32⟩
  | .hbm, ⟨25, _⟩ => ⟨S8x128, .f32⟩
  | .hbm, ⟨26, _⟩ => ⟨S1x128, .f32⟩
  | .hbm, ⟨27, _⟩ => ⟨S8x128, .f32⟩
  | .hbm, ⟨28, _⟩ => ⟨S8x128, .f32⟩
  | .hbm, ⟨29, _⟩ => ⟨S8x128x1, .f32⟩
  | .hbm, ⟨30, _⟩ => ⟨S8x128x1, .f32⟩
  | .hbm, ⟨31, _⟩ => ⟨S8x128x1, .f32⟩
  | .hbm, ⟨32, _⟩ => ⟨S8x128x1, .f32⟩
  | .hbm, ⟨33, _⟩ => ⟨S8x128x4, .f32⟩
  | .hbm, ⟨34, _⟩ => ⟨S8192x1024, .f32⟩
  | .hbm, ⟨35, _⟩ => ⟨S8192x1024, .f32⟩
  | .hbm, ⟨36, _⟩ => ⟨S1x8192x1024, .f32⟩
  | .hbm, ⟨37, _⟩ => ⟨S1x8192x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128x4, .f32⟩
  | .local _ .vmem, ⟨5, _⟩ => ⟨S1x128x4, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x1024_S8192x1024 : S1x8192x1024.ShapeCasts S8192x1024
  slices_S2048_S1024_0 : S2048.Slices ![0] S1024
  shapeCasts_S1024_S8x128 : S1024.ShapeCasts S8x128
  slices_S2048_S1024_1024 : S2048.Slices ![1024] S1024
  bcast_S_S128 : S_.BroadcastsInDim S128 (![] : Fin 0 → Fin S128.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x1_S8x128x1_S8x128x4_d2 : Shape.Concatenates [S8x128x1, S8x128x1, S8x128x1, S8x128x1] S8x128x4 2
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S512x16x128 : S8192x128.ShapeCasts S512x16x128
  slices_S512x16x128_o0_0_0_S512x1x128 : S512x16x128.Slices ![0, 0, 0] S512x1x128
  slices_S512x16x128_o0_1_0_S512x1x128 : S512x16x128.Slices ![0, 1, 0] S512x1x128
  slices_S512x1x128_o2_0_0_S510x1x128 : S512x1x128.Slices ![2, 0, 0] S510x1x128
  slices_S512x1x128_o0_0_0_S2x1x128 : S512x1x128.Slices ![0, 0, 0] S2x1x128
  concatenates_S510x1x128_S2x1x128_S512x1x128_d0 : Shape.Concatenates [S510x1x128, S2x1x128] S512x1x128 0
  slices_S512x16x128_o0_2_0_S512x1x128 : S512x16x128.Slices ![0, 2, 0] S512x1x128
  slices_S512x1x128_o4_0_0_S508x1x128 : S512x1x128.Slices ![4, 0, 0] S508x1x128
  slices_S512x1x128_o0_0_0_S4x1x128 : S512x1x128.Slices ![0, 0, 0] S4x1x128
  concatenates_S508x1x128_S4x1x128_S512x1x128_d0 : Shape.Concatenates [S508x1x128, S4x1x128] S512x1x128 0
  slices_S512x16x128_o0_3_0_S512x1x128 : S512x16x128.Slices ![0, 3, 0] S512x1x128
  slices_S512x1x128_o6_0_0_S506x1x128 : S512x1x128.Slices ![6, 0, 0] S506x1x128
  slices_S512x1x128_o0_0_0_S6x1x128 : S512x1x128.Slices ![0, 0, 0] S6x1x128
  concatenates_S506x1x128_S6x1x128_S512x1x128_d0 : Shape.Concatenates [S506x1x128, S6x1x128] S512x1x128 0
  slices_S512x16x128_o0_4_0_S512x1x128 : S512x16x128.Slices ![0, 4, 0] S512x1x128
  slices_S512x1x128_o8_0_0_S504x1x128 : S512x1x128.Slices ![8, 0, 0] S504x1x128
  slices_S512x1x128_o0_0_0_S8x1x128 : S512x1x128.Slices ![0, 0, 0] S8x1x128
  concatenates_S504x1x128_S8x1x128_S512x1x128_d0 : Shape.Concatenates [S504x1x128, S8x1x128] S512x1x128 0
  slices_S512x16x128_o0_5_0_S512x1x128 : S512x16x128.Slices ![0, 5, 0] S512x1x128
  slices_S512x1x128_o10_0_0_S502x1x128 : S512x1x128.Slices ![10, 0, 0] S502x1x128
  slices_S512x1x128_o0_0_0_S10x1x128 : S512x1x128.Slices ![0, 0, 0] S10x1x128
  concatenates_S502x1x128_S10x1x128_S512x1x128_d0 : Shape.Concatenates [S502x1x128, S10x1x128] S512x1x128 0
  slices_S512x16x128_o0_6_0_S512x1x128 : S512x16x128.Slices ![0, 6, 0] S512x1x128
  slices_S512x1x128_o12_0_0_S500x1x128 : S512x1x128.Slices ![12, 0, 0] S500x1x128
  slices_S512x1x128_o0_0_0_S12x1x128 : S512x1x128.Slices ![0, 0, 0] S12x1x128
  concatenates_S500x1x128_S12x1x128_S512x1x128_d0 : Shape.Concatenates [S500x1x128, S12x1x128] S512x1x128 0
  slices_S512x16x128_o0_7_0_S512x1x128 : S512x16x128.Slices ![0, 7, 0] S512x1x128
  slices_S512x1x128_o14_0_0_S498x1x128 : S512x1x128.Slices ![14, 0, 0] S498x1x128
  slices_S512x1x128_o0_0_0_S14x1x128 : S512x1x128.Slices ![0, 0, 0] S14x1x128
  concatenates_S498x1x128_S14x1x128_S512x1x128_d0 : Shape.Concatenates [S498x1x128, S14x1x128] S512x1x128 0
  slices_S512x16x128_o0_8_0_S512x1x128 : S512x16x128.Slices ![0, 8, 0] S512x1x128
  slices_S512x1x128_o16_0_0_S496x1x128 : S512x1x128.Slices ![16, 0, 0] S496x1x128
  slices_S512x1x128_o0_0_0_S16x1x128 : S512x1x128.Slices ![0, 0, 0] S16x1x128
  concatenates_S496x1x128_S16x1x128_S512x1x128_d0 : Shape.Concatenates [S496x1x128, S16x1x128] S512x1x128 0
  slices_S512x16x128_o0_9_0_S512x1x128 : S512x16x128.Slices ![0, 9, 0] S512x1x128
  slices_S512x1x128_o18_0_0_S494x1x128 : S512x1x128.Slices ![18, 0, 0] S494x1x128
  slices_S512x1x128_o0_0_0_S18x1x128 : S512x1x128.Slices ![0, 0, 0] S18x1x128
  concatenates_S494x1x128_S18x1x128_S512x1x128_d0 : Shape.Concatenates [S494x1x128, S18x1x128] S512x1x128 0
  slices_S512x16x128_o0_10_0_S512x1x128 : S512x16x128.Slices ![0, 10, 0] S512x1x128
  slices_S512x1x128_o20_0_0_S492x1x128 : S512x1x128.Slices ![20, 0, 0] S492x1x128
  slices_S512x1x128_o0_0_0_S20x1x128 : S512x1x128.Slices ![0, 0, 0] S20x1x128
  concatenates_S492x1x128_S20x1x128_S512x1x128_d0 : Shape.Concatenates [S492x1x128, S20x1x128] S512x1x128 0
  slices_S512x16x128_o0_11_0_S512x1x128 : S512x16x128.Slices ![0, 11, 0] S512x1x128
  slices_S512x1x128_o22_0_0_S490x1x128 : S512x1x128.Slices ![22, 0, 0] S490x1x128
  slices_S512x1x128_o0_0_0_S22x1x128 : S512x1x128.Slices ![0, 0, 0] S22x1x128
  concatenates_S490x1x128_S22x1x128_S512x1x128_d0 : Shape.Concatenates [S490x1x128, S22x1x128] S512x1x128 0
  slices_S512x16x128_o0_12_0_S512x1x128 : S512x16x128.Slices ![0, 12, 0] S512x1x128
  slices_S512x1x128_o24_0_0_S488x1x128 : S512x1x128.Slices ![24, 0, 0] S488x1x128
  slices_S512x1x128_o0_0_0_S24x1x128 : S512x1x128.Slices ![0, 0, 0] S24x1x128
  concatenates_S488x1x128_S24x1x128_S512x1x128_d0 : Shape.Concatenates [S488x1x128, S24x1x128] S512x1x128 0
  slices_S512x16x128_o0_13_0_S512x1x128 : S512x16x128.Slices ![0, 13, 0] S512x1x128
  slices_S512x1x128_o26_0_0_S486x1x128 : S512x1x128.Slices ![26, 0, 0] S486x1x128
  slices_S512x1x128_o0_0_0_S26x1x128 : S512x1x128.Slices ![0, 0, 0] S26x1x128
  concatenates_S486x1x128_S26x1x128_S512x1x128_d0 : Shape.Concatenates [S486x1x128, S26x1x128] S512x1x128 0
  slices_S512x16x128_o0_14_0_S512x1x128 : S512x16x128.Slices ![0, 14, 0] S512x1x128
  slices_S512x1x128_o28_0_0_S484x1x128 : S512x1x128.Slices ![28, 0, 0] S484x1x128
  slices_S512x1x128_o0_0_0_S28x1x128 : S512x1x128.Slices ![0, 0, 0] S28x1x128
  concatenates_S484x1x128_S28x1x128_S512x1x128_d0 : Shape.Concatenates [S484x1x128, S28x1x128] S512x1x128 0
  slices_S512x16x128_o0_15_0_S512x1x128 : S512x16x128.Slices ![0, 15, 0] S512x1x128
  slices_S512x1x128_o30_0_0_S482x1x128 : S512x1x128.Slices ![30, 0, 0] S482x1x128
  slices_S512x1x128_o0_0_0_S30x1x128 : S512x1x128.Slices ![0, 0, 0] S30x1x128
  concatenates_S482x1x128_S30x1x128_S512x1x128_d0 : Shape.Concatenates [S482x1x128, S30x1x128] S512x1x128 0
  concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1 : Shape.Concatenates [S512x1x128, S512x1x128, S512x1x128, S512x1x128, S512x1x128, S512x1x128, S512x1x128, S512x1x128, S512x1x128, S512x1x128, S512x1x128, S512x1x128, S512x1x128, S512x1x128, S512x1x128, S512x1x128] S512x16x128 1
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  iota_S512x16x128_d2_w32 : S512x16x128.Iotas .tc 32 [2]
  shapeCasts_S512x16x128_S8192x128 : S512x16x128.ShapeCasts S8192x128
  shapeCasts_S8192x4_S512x16x4 : S8192x4.ShapeCasts S512x16x4
  slices_S512x16x4_o0_0_2_S512x1x2 : S512x16x4.Slices ![0, 0, 2] S512x1x2
  slices_S512x16x4_o0_0_0_S512x16x2 : S512x16x4.Slices ![0, 0, 0] S512x16x2
  broadcasts_S512x1x2_S512x16x2 : S512x1x2.Broadcasts S512x16x2
  slices_S512x16x2_o0_0_0_S512x16x1 : S512x16x2.Slices ![0, 0, 0] S512x16x1
  shapeCasts_S512x16x1_S512x16x1 : S512x16x1.ShapeCasts S512x16x1
  broadcasts_S512x16x1_S512x16x128 : S512x16x1.Broadcasts S512x16x128
  slices_S512x16x2_o0_0_1_S512x16x1 : S512x16x2.Slices ![0, 0, 1] S512x16x1
  broadcasts_S512x1x128_S512x16x128 : S512x1x128.Broadcasts S512x16x128
  slices_S512x16x4_o0_1_2_S512x1x2 : S512x16x4.Slices ![0, 1, 2] S512x1x2
  slices_S512x16x4_o0_2_2_S512x1x2 : S512x16x4.Slices ![0, 2, 2] S512x1x2
  slices_S512x16x4_o0_3_2_S512x1x2 : S512x16x4.Slices ![0, 3, 2] S512x1x2
  slices_S512x16x4_o0_4_2_S512x1x2 : S512x16x4.Slices ![0, 4, 2] S512x1x2
  slices_S512x16x4_o0_5_2_S512x1x2 : S512x16x4.Slices ![0, 5, 2] S512x1x2
  slices_S512x16x4_o0_6_2_S512x1x2 : S512x16x4.Slices ![0, 6, 2] S512x1x2
  slices_S512x16x4_o0_7_2_S512x1x2 : S512x16x4.Slices ![0, 7, 2] S512x1x2
  slices_S512x16x4_o0_8_2_S512x1x2 : S512x16x4.Slices ![0, 8, 2] S512x1x2
  slices_S512x16x4_o0_9_2_S512x1x2 : S512x16x4.Slices ![0, 9, 2] S512x1x2
  slices_S512x16x4_o0_10_2_S512x1x2 : S512x16x4.Slices ![0, 10, 2] S512x1x2
  slices_S512x16x4_o0_11_2_S512x1x2 : S512x16x4.Slices ![0, 11, 2] S512x1x2
  slices_S512x16x4_o0_12_2_S512x1x2 : S512x16x4.Slices ![0, 12, 2] S512x1x2
  slices_S512x16x4_o0_13_2_S512x1x2 : S512x16x4.Slices ![0, 13, 2] S512x1x2
  slices_S512x16x4_o0_14_2_S512x1x2 : S512x16x4.Slices ![0, 14, 2] S512x1x2
  slices_S512x16x4_o0_15_2_S512x1x2 : S512x16x4.Slices ![0, 15, 2] S512x1x2
  slices_S512x1x128_o510_0_0_S2x1x128 : S512x1x128.Slices ![510, 0, 0] S2x1x128
  slices_S512x1x128_o0_0_0_S510x1x128 : S512x1x128.Slices ![0, 0, 0] S510x1x128
  concatenates_S2x1x128_S510x1x128_S512x1x128_d0 : Shape.Concatenates [S2x1x128, S510x1x128] S512x1x128 0
  slices_S512x1x128_o508_0_0_S4x1x128 : S512x1x128.Slices ![508, 0, 0] S4x1x128
  slices_S512x1x128_o0_0_0_S508x1x128 : S512x1x128.Slices ![0, 0, 0] S508x1x128
  concatenates_S4x1x128_S508x1x128_S512x1x128_d0 : Shape.Concatenates [S4x1x128, S508x1x128] S512x1x128 0
  slices_S512x1x128_o506_0_0_S6x1x128 : S512x1x128.Slices ![506, 0, 0] S6x1x128
  slices_S512x1x128_o0_0_0_S506x1x128 : S512x1x128.Slices ![0, 0, 0] S506x1x128
  concatenates_S6x1x128_S506x1x128_S512x1x128_d0 : Shape.Concatenates [S6x1x128, S506x1x128] S512x1x128 0
  slices_S512x1x128_o504_0_0_S8x1x128 : S512x1x128.Slices ![504, 0, 0] S8x1x128
  slices_S512x1x128_o0_0_0_S504x1x128 : S512x1x128.Slices ![0, 0, 0] S504x1x128
  concatenates_S8x1x128_S504x1x128_S512x1x128_d0 : Shape.Concatenates [S8x1x128, S504x1x128] S512x1x128 0
  slices_S512x1x128_o502_0_0_S10x1x128 : S512x1x128.Slices ![502, 0, 0] S10x1x128
  slices_S512x1x128_o0_0_0_S502x1x128 : S512x1x128.Slices ![0, 0, 0] S502x1x128
  concatenates_S10x1x128_S502x1x128_S512x1x128_d0 : Shape.Concatenates [S10x1x128, S502x1x128] S512x1x128 0
  slices_S512x1x128_o500_0_0_S12x1x128 : S512x1x128.Slices ![500, 0, 0] S12x1x128
  slices_S512x1x128_o0_0_0_S500x1x128 : S512x1x128.Slices ![0, 0, 0] S500x1x128
  concatenates_S12x1x128_S500x1x128_S512x1x128_d0 : Shape.Concatenates [S12x1x128, S500x1x128] S512x1x128 0
  slices_S512x1x128_o498_0_0_S14x1x128 : S512x1x128.Slices ![498, 0, 0] S14x1x128
  slices_S512x1x128_o0_0_0_S498x1x128 : S512x1x128.Slices ![0, 0, 0] S498x1x128
  concatenates_S14x1x128_S498x1x128_S512x1x128_d0 : Shape.Concatenates [S14x1x128, S498x1x128] S512x1x128 0
  slices_S512x1x128_o496_0_0_S16x1x128 : S512x1x128.Slices ![496, 0, 0] S16x1x128
  slices_S512x1x128_o0_0_0_S496x1x128 : S512x1x128.Slices ![0, 0, 0] S496x1x128
  concatenates_S16x1x128_S496x1x128_S512x1x128_d0 : Shape.Concatenates [S16x1x128, S496x1x128] S512x1x128 0
  slices_S512x1x128_o494_0_0_S18x1x128 : S512x1x128.Slices ![494, 0, 0] S18x1x128
  slices_S512x1x128_o0_0_0_S494x1x128 : S512x1x128.Slices ![0, 0, 0] S494x1x128
  concatenates_S18x1x128_S494x1x128_S512x1x128_d0 : Shape.Concatenates [S18x1x128, S494x1x128] S512x1x128 0
  slices_S512x1x128_o492_0_0_S20x1x128 : S512x1x128.Slices ![492, 0, 0] S20x1x128
  slices_S512x1x128_o0_0_0_S492x1x128 : S512x1x128.Slices ![0, 0, 0] S492x1x128
  concatenates_S20x1x128_S492x1x128_S512x1x128_d0 : Shape.Concatenates [S20x1x128, S492x1x128] S512x1x128 0
  slices_S512x1x128_o490_0_0_S22x1x128 : S512x1x128.Slices ![490, 0, 0] S22x1x128
  slices_S512x1x128_o0_0_0_S490x1x128 : S512x1x128.Slices ![0, 0, 0] S490x1x128
  concatenates_S22x1x128_S490x1x128_S512x1x128_d0 : Shape.Concatenates [S22x1x128, S490x1x128] S512x1x128 0
  slices_S512x1x128_o488_0_0_S24x1x128 : S512x1x128.Slices ![488, 0, 0] S24x1x128
  slices_S512x1x128_o0_0_0_S488x1x128 : S512x1x128.Slices ![0, 0, 0] S488x1x128
  concatenates_S24x1x128_S488x1x128_S512x1x128_d0 : Shape.Concatenates [S24x1x128, S488x1x128] S512x1x128 0
  slices_S512x1x128_o486_0_0_S26x1x128 : S512x1x128.Slices ![486, 0, 0] S26x1x128
  slices_S512x1x128_o0_0_0_S486x1x128 : S512x1x128.Slices ![0, 0, 0] S486x1x128
  concatenates_S26x1x128_S486x1x128_S512x1x128_d0 : Shape.Concatenates [S26x1x128, S486x1x128] S512x1x128 0
  slices_S512x1x128_o484_0_0_S28x1x128 : S512x1x128.Slices ![484, 0, 0] S28x1x128
  slices_S512x1x128_o0_0_0_S484x1x128 : S512x1x128.Slices ![0, 0, 0] S484x1x128
  concatenates_S28x1x128_S484x1x128_S512x1x128_d0 : Shape.Concatenates [S28x1x128, S484x1x128] S512x1x128 0
  slices_S512x1x128_o482_0_0_S30x1x128 : S512x1x128.Slices ![482, 0, 0] S30x1x128
  slices_S512x1x128_o0_0_0_S482x1x128 : S512x1x128.Slices ![0, 0, 0] S482x1x128
  concatenates_S30x1x128_S482x1x128_S512x1x128_d0 : Shape.Concatenates [S30x1x128, S482x1x128] S512x1x128 0
  shapeCasts_S8192x1024_S1x8192x1024 : S8192x1024.ShapeCasts S1x8192x1024
  dot_S8192x128_S128x4_S8192x4_1_0_0_1_n_n_wf : DotDims.WF S8192x128 S128x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x1024.size a
  hwx0_0 : ∀ i : grid0.Coords, EltTy.bits .f32 = 32 ∨ (Rect.block (s := S8192x1024) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x1024.size a
  hwx0_1 : ∀ i : grid0.Coords, EltTy.bits .f32 = 32 ∨ (Rect.block (s := S8192x1024) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4.size a ≤ S8x128x4.size a
  hwx0_2 : ∀ i : grid0.Coords, EltTy.bits .f32 = 32 ∨ (Rect.block (s := S8x128x4) S1x128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x1024.size a
  hwx0_3 : ∀ i : grid0.Coords, EltTy.bits .f32 = 32 ∨ (Rect.block (s := S8192x1024) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S8192x1024.size a
  hwx0_4 : ∀ i : grid0.Coords, EltTy.bits .f32 = 32 ∨ (Rect.block (s := S8192x1024) S8192x128.size (cc0_transform_4 i) (hinb0_4 i)).WholeWords (EltTy.packing .f32)

variable [Facts₀]

def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29_0) S8192x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192x1024 : Shape := ⟨3, ![1, 8192, 1024]⟩
abbrev S2048 : Shape := ⟨1, ![2048]⟩
abbrev S16 : Shape := ⟨1, ![16]⟩
abbrev S512 : Shape := ⟨1, ![512]⟩
abbrev S512x1 : Shape := ⟨2, ![512, 1]⟩
abbrev S1x16 : Shape := ⟨2, ![1, 16]⟩
abbrev S_ : Shape := ⟨0, ![]⟩
abbrev S512x16 : Shape := ⟨2, ![512, 16]⟩
abbrev S8192 : Shape := ⟨1, ![8192]⟩
abbrev S1024 : Shape := ⟨1, ![1024]⟩
abbrev S16x64 : Shape := ⟨2, ![16, 64]⟩
abbrev S8192x1 : Shape := ⟨2, ![8192, 1]⟩
abbrev S1 : Shape := ⟨1, ![1]⟩
abbrev S1x1 : Shape := ⟨2, ![1, 1]⟩
abbrev S1x512x16x16x64 : Shape := ⟨5, ![1, 512, 16, 16, 64]⟩
abbrev S1x512x1x16x64 : Shape := ⟨5, ![1, 512, 1, 16, 64]⟩
abbrev S1x1x1x16x64 : Shape := ⟨5, ![1, 1, 1, 16, 64]⟩
abbrev S1x512x16x16 : Shape := ⟨4, ![1, 512, 16, 16]⟩
abbrev S1x512x1x16 : Shape := ⟨4, ![1, 512, 1, 16]⟩
abbrev S1x512x16x16x1 : Shape := ⟨5, ![1, 512, 16, 16, 1]⟩

abbrev nBuf : Space → Nat
  | .hbm => 838
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S2048, .f32⟩
  | 3 => ⟨S16, .i32⟩
  | 4 => ⟨S512, .i32⟩
  | 5 => ⟨S512x1, .i32⟩
  | 6 => ⟨S1x16, .i32⟩
  | 7 => ⟨S_, .i32⟩
  | 8 => ⟨S1x16, .i32⟩
  | 9 => ⟨S1x16, .i32⟩
  | 10 => ⟨S512x16, .i32⟩
  | 11 => ⟨S512x16, .i32⟩
  | 12 => ⟨S512x16, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S512x16, .i32⟩
  | 20 => ⟨S512x16, .i32⟩
  | 21 => ⟨S_, .i32⟩
  | 22 => ⟨S512x16, .i32⟩
  | 23 => ⟨S512x16, .i1⟩
  | 24 => ⟨S_, .i32⟩
  | 25 => ⟨S512x16, .i32⟩
  | 26 => ⟨S512x16, .i1⟩
  | 27 => ⟨S_, .i32⟩
  | 28 => ⟨S_, .i1⟩
  | 29 => ⟨S512x16, .i1⟩
  | 30 => ⟨S512x16, .i1⟩
  | 31 => ⟨S512x16, .i1⟩
  | 32 => ⟨S512x16, .i32⟩
  | 33 => ⟨S512x16, .i32⟩
  | 34 => ⟨S512x16, .i32⟩
  | 35 => ⟨S_, .i32⟩
  | 36 => ⟨S512x16, .i32⟩
  | 37 => ⟨S512x16, .i32⟩
  | 38 => ⟨S1x16, .i32⟩
  | 39 => ⟨S512x16, .i32⟩
  | 40 => ⟨S512x16, .i32⟩
  | 41 => ⟨S8192, .i32⟩
  | 42 => ⟨S1024, .f32⟩
  | 43 => ⟨S16x64, .f32⟩
  | 44 => ⟨S1024, .f32⟩
  | 45 => ⟨S16x64, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S1, .i32⟩
  | 55 => ⟨S_, .i32⟩
  | 56 => ⟨S8192x1, .i32⟩
  | 57 => ⟨S8192x1, .i1⟩
  | 58 => ⟨S1x1, .i32⟩
  | 59 => ⟨S8192x1, .i32⟩
  | 60 => ⟨S8192x1, .i1⟩
  | 61 => ⟨S8192x1, .i1⟩
  | 62 => ⟨S_, .i1⟩
  | 63 => ⟨S8192, .i1⟩
  | 64 => ⟨S1x8192x1024, .f32⟩
  | 65 => ⟨S1x8192x1024, .i1⟩
  | 66 => ⟨S_, .f32⟩
  | 67 => ⟨S1x8192x1024, .f32⟩
  | 68 => ⟨S1x8192x1024, .f32⟩
  | 69 => ⟨S1x512x16x16x64, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S1, .i32⟩
  | 79 => ⟨S_, .i32⟩
  | 80 => ⟨S8192x1, .i32⟩
  | 81 => ⟨S8192x1, .i1⟩
  | 82 => ⟨S1x1, .i32⟩
  | 83 => ⟨S8192x1, .i32⟩
  | 84 => ⟨S8192x1, .i1⟩
  | 85 => ⟨S8192x1, .i1⟩
  | 86 => ⟨S_, .i1⟩
  | 87 => ⟨S8192, .i1⟩
  | 88 => ⟨S1x8192x1024, .f32⟩
  | 89 => ⟨S1x8192x1024, .i1⟩
  | 90 => ⟨S_, .f32⟩
  | 91 => ⟨S1x8192x1024, .f32⟩
  | 92 => ⟨S1x8192x1024, .f32⟩
  | 93 => ⟨S1x512x16x16x64, .f32⟩
  | 94 => ⟨S1x512x1x16x64, .f32⟩
  | 95 => ⟨S1x1x1x16x64, .f32⟩
  | 96 => ⟨S1x512x16x16x64, .f32⟩
  | 97 => ⟨S1x512x16x16x64, .f32⟩
  | 98 => ⟨S_, .f32⟩
  | 99 => ⟨S1x512x16x16, .f32⟩
  | 100 => ⟨S1x1x1x16x64, .f32⟩
  | 101 => ⟨S1x512x1x16x64, .f32⟩
  | 102 => ⟨S1x512x1x16x64, .f32⟩
  | 103 => ⟨S_, .f32⟩
  | 104 => ⟨S1x512x1x16, .f32⟩
  | 105 => ⟨S1x512x16x16, .f32⟩
  | 106 => ⟨S1x512x16x16, .f32⟩
  | 107 => ⟨S_, .f32⟩
  | 108 => ⟨S1x512x16x16x64, .f32⟩
  | 109 => ⟨S1x512x16x16x64, .f32⟩
  | 110 => ⟨S1x512x16x16x1, .f32⟩
  | 111 => ⟨S_, .f32⟩
  | 112 => ⟨S1x512x16x16x1, .f32⟩
  | 113 => ⟨S1x512x16x16x1, .f32⟩
  | 114 => ⟨S1x512x16x16x64, .f32⟩
  | 115 => ⟨S1x512x16x16x64, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .i1⟩
  | 121 => ⟨S_, .f32⟩
  | 122 => ⟨S1x512x16x16x64, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .f32⟩
  | _ => ⟨S1x8192x1024, .f32⟩

abbrev hbmTy0_1 (i : Nat) : BufTy := match i % 128 with
  | 0 => ⟨S_, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .f32⟩
  | 7 => ⟨S_, .f32⟩
  | 8 => ⟨S1x512x16x16x64, .f32⟩
  | 9 => ⟨S1x512x16x16x64, .f32⟩
  | 10 => ⟨S1x512x16x16x64, .f32⟩
  | 11 => ⟨S1x512x1x16x64, .f32⟩
  | 12 => ⟨S1x1x1x16x64, .f32⟩
  | 13 => ⟨S1x512x16x16x64, .f32⟩
  | 14 => ⟨S1x512x16x16x64, .f32⟩
  | 15 => ⟨S_, .f32⟩
  | 16 => ⟨S1x512x16x16, .f32⟩
  | 17 => ⟨S1x1x1x16x64, .f32⟩
  | 18 => ⟨S1x512x1x16x64, .f32⟩
  | 19 => ⟨S1x512x1x16x64, .f32⟩
  | 20 => ⟨S_, .f32⟩
  | 21 => ⟨S1x512x1x16, .f32⟩
  | 22 => ⟨S1x512x16x16, .f32⟩
  | 23 => ⟨S1x512x16x16, .f32⟩
  | 24 => ⟨S_, .f32⟩
  | 25 => ⟨S1x512x16x16x64, .f32⟩
  | 26 => ⟨S1x512x16x16x64, .f32⟩
  | 27 => ⟨S1x512x16x16x1, .f32⟩
  | 28 => ⟨S_, .f32⟩
  | 29 => ⟨S1x512x16x16x1, .f32⟩
  | 30 => ⟨S1x512x16x16x1, .f32⟩
  | 31 => ⟨S1x512x16x16x64, .f32⟩
  | 32 => ⟨S1x512x16x16x64, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .i1⟩
  | 38 => ⟨S_, .f32⟩
  | 39 => ⟨S1x512x16x16x64, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .f32⟩
  | 45 => ⟨S_, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .f32⟩
  | 52 => ⟨S_, .f32⟩
  | 53 => ⟨S1x512x16x16x64, .f32⟩
  | 54 => ⟨S1x512x16x16x64, .f32⟩
  | 55 => ⟨S1x512x16x16x64, .f32⟩
  | 56 => ⟨S1x512x1x16x64, .f32⟩
  | 57 => ⟨S1x1x1x16x64, .f32⟩
  | 58 => ⟨S1x512x16x16x64, .f32⟩
  | 59 => ⟨S1x512x16x16x64, .f32⟩
  | 60 => ⟨S_, .f32⟩
  | 61 => ⟨S1x512x16x16, .f32⟩
  | 62 => ⟨S1x1x1x16x64, .f32⟩
  | 63 => ⟨S1x512x1x16x64, .f32⟩
  | 64 => ⟨S1x512x1x16x64, .f32⟩
  | 65 => ⟨S_, .f32⟩
  | 66 => ⟨S1x512x1x16, .f32⟩
  | 67 => ⟨S1x512x16x16, .f32⟩
  | 68 => ⟨S1x512x16x16, .f32⟩
  | 69 => ⟨S_, .f32⟩
  | 70 => ⟨S1x512x16x16x64, .f32⟩
  | 71 => ⟨S1x512x16x16x64, .f32⟩
  | 72 => ⟨S1x512x16x16x1, .f32⟩
  | 73 => ⟨S_, .f32⟩
  | 74 => ⟨S1x512x16x16x1, .f32⟩
  | 75 => ⟨S1x512x16x16x1, .f32⟩
  | 76 => ⟨S1x512x16x16x64, .f32⟩
  | 77 => ⟨S1x512x16x16x64, .f32⟩
  | 78 => ⟨S1x512x16x16x64, .f32⟩
  | 79 => ⟨S1x512x16x16x64, .f32⟩
  | 80 => ⟨S_, .f32⟩
  | 81 => ⟨S1x512x16x16x64, .f32⟩
  | 82 => ⟨S1x512x16x16x64, .i1⟩
  | 83 => ⟨S_, .f32⟩
  | 84 => ⟨S1x512x16x16x64, .f32⟩
  | 85 => ⟨S1x512x16x16x64, .f32⟩
  | 86 => ⟨S1x512x16x16x64, .f32⟩
  | 87 => ⟨S_, .f32⟩
  | 88 => ⟨S1x512x16x16x64, .f32⟩
  | 89 => ⟨S1x512x16x16x64, .f32⟩
  | 90 => ⟨S_, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .f32⟩
  | 97 => ⟨S_, .f32⟩
  | 98 => ⟨S1x512x16x16x64, .f32⟩
  | 99 => ⟨S1x512x16x16x64, .f32⟩
  | 100 => ⟨S1x512x16x16x64, .f32⟩
  | 101 => ⟨S1x512x1x16x64, .f32⟩
  | 102 => ⟨S1x1x1x16x64, .f32⟩
  | 103 => ⟨S1x512x16x16x64, .f32⟩
  | 104 => ⟨S1x512x16x16x64, .f32⟩
  | 105 => ⟨S_, .f32⟩
  | 106 => ⟨S1x512x16x16, .f32⟩
  | 107 => ⟨S1x1x1x16x64, .f32⟩
  | 108 => ⟨S1x512x1x16x64, .f32⟩
  | 109 => ⟨S1x512x1x16x64, .f32⟩
  | 110 => ⟨S_, .f32⟩
  | 111 => ⟨S1x512x1x16, .f32⟩
  | 112 => ⟨S1x512x16x16, .f32⟩
  | 113 => ⟨S1x512x16x16, .f32⟩
  | 114 => ⟨S_, .f32⟩
  | 115 => ⟨S1x512x16x16x64, .f32⟩
  | 116 => ⟨S1x512x16x16x64, .f32⟩
  | 117 => ⟨S1x512x16x16x1, .f32⟩
  | 118 => ⟨S_, .f32⟩
  | 119 => ⟨S1x512x16x16x1, .f32⟩
  | 120 => ⟨S1x512x16x16x1, .f32⟩
  | 121 => ⟨S1x512x16x16x64, .f32⟩
  | 122 => ⟨S1x512x16x16x64, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .i1⟩
  | _ => ⟨S1x8192x1024, .f32⟩

abbrev hbmTy0_2 (i : Nat) : BufTy := match i % 128 with
  | 0 => ⟨S_, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .f32⟩
  | 7 => ⟨S_, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .f32⟩
  | 14 => ⟨S_, .f32⟩
  | 15 => ⟨S1x512x16x16x64, .f32⟩
  | 16 => ⟨S1x512x16x16x64, .f32⟩
  | 17 => ⟨S1x512x16x16x64, .f32⟩
  | 18 => ⟨S1x512x1x16x64, .f32⟩
  | 19 => ⟨S1x1x1x16x64, .f32⟩
  | 20 => ⟨S1x512x16x16x64, .f32⟩
  | 21 => ⟨S1x512x16x16x64, .f32⟩
  | 22 => ⟨S_, .f32⟩
  | 23 => ⟨S1x512x16x16, .f32⟩
  | 24 => ⟨S1x1x1x16x64, .f32⟩
  | 25 => ⟨S1x512x1x16x64, .f32⟩
  | 26 => ⟨S1x512x1x16x64, .f32⟩
  | 27 => ⟨S_, .f32⟩
  | 28 => ⟨S1x512x1x16, .f32⟩
  | 29 => ⟨S1x512x16x16, .f32⟩
  | 30 => ⟨S1x512x16x16, .f32⟩
  | 31 => ⟨S_, .f32⟩
  | 32 => ⟨S1x512x16x16x64, .f32⟩
  | 33 => ⟨S1x512x16x16x64, .f32⟩
  | 34 => ⟨S1x512x16x16x1, .f32⟩
  | 35 => ⟨S_, .f32⟩
  | 36 => ⟨S1x512x16x16x1, .f32⟩
  | 37 => ⟨S1x512x16x16x1, .f32⟩
  | 38 => ⟨S1x512x16x16x64, .f32⟩
  | 39 => ⟨S1x512x16x16x64, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .i1⟩
  | 45 => ⟨S_, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .f32⟩
  | 52 => ⟨S_, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .f32⟩
  | 59 => ⟨S_, .f32⟩
  | 60 => ⟨S1x512x16x16x64, .f32⟩
  | 61 => ⟨S1x512x16x16x64, .f32⟩
  | 62 => ⟨S1x512x16x16x64, .f32⟩
  | 63 => ⟨S1x512x1x16x64, .f32⟩
  | 64 => ⟨S1x1x1x16x64, .f32⟩
  | 65 => ⟨S1x512x16x16x64, .f32⟩
  | 66 => ⟨S1x512x16x16x64, .f32⟩
  | 67 => ⟨S_, .f32⟩
  | 68 => ⟨S1x512x16x16, .f32⟩
  | 69 => ⟨S1x1x1x16x64, .f32⟩
  | 70 => ⟨S1x512x1x16x64, .f32⟩
  | 71 => ⟨S1x512x1x16x64, .f32⟩
  | 72 => ⟨S_, .f32⟩
  | 73 => ⟨S1x512x1x16, .f32⟩
  | 74 => ⟨S1x512x16x16, .f32⟩
  | 75 => ⟨S1x512x16x16, .f32⟩
  | 76 => ⟨S_, .f32⟩
  | 77 => ⟨S1x512x16x16x64, .f32⟩
  | 78 => ⟨S1x512x16x16x64, .f32⟩
  | 79 => ⟨S1x512x16x16x1, .f32⟩
  | 80 => ⟨S_, .f32⟩
  | 81 => ⟨S1x512x16x16x1, .f32⟩
  | 82 => ⟨S1x512x16x16x1, .f32⟩
  | 83 => ⟨S1x512x16x16x64, .f32⟩
  | 84 => ⟨S1x512x16x16x64, .f32⟩
  | 85 => ⟨S1x512x16x16x64, .f32⟩
  | 86 => ⟨S1x512x16x16x64, .f32⟩
  | 87 => ⟨S_, .f32⟩
  | 88 => ⟨S1x512x16x16x64, .f32⟩
  | 89 => ⟨S1x512x16x16x64, .i1⟩
  | 90 => ⟨S_, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .f32⟩
  | 97 => ⟨S_, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .f32⟩
  | 104 => ⟨S_, .f32⟩
  | 105 => ⟨S1x512x16x16x64, .f32⟩
  | 106 => ⟨S1x512x16x16x64, .f32⟩
  | 107 => ⟨S1x512x16x16x64, .f32⟩
  | 108 => ⟨S1x512x1x16x64, .f32⟩
  | 109 => ⟨S1x1x1x16x64, .f32⟩
  | 110 => ⟨S1x512x16x16x64, .f32⟩
  | 111 => ⟨S1x512x16x16x64, .f32⟩
  | 112 => ⟨S_, .f32⟩
  | 113 => ⟨S1x512x16x16, .f32⟩
  | 114 => ⟨S1x1x1x16x64, .f32⟩
  | 115 => ⟨S1x512x1x16x64, .f32⟩
  | 116 => ⟨S1x512x1x16x64, .f32⟩
  | 117 => ⟨S_, .f32⟩
  | 118 => ⟨S1x512x1x16, .f32⟩
  | 119 => ⟨S1x512x16x16, .f32⟩
  | 120 => ⟨S1x512x16x16, .f32⟩
  | 121 => ⟨S_, .f32⟩
  | 122 => ⟨S1x512x16x16x64, .f32⟩
  | 123 => ⟨S1x512x16x16x64, .f32⟩
  | 124 => ⟨S1x512x16x16x1, .f32⟩
  | 125 => ⟨S_, .f32⟩
  | 126 => ⟨S1x512x16x16x1, .f32⟩
  | 127 => ⟨S1x512x16x16x1, .f32⟩
  | _ => ⟨S1x8192x1024, .f32⟩

abbrev hbmTy0_3 (i : Nat) : BufTy := match i % 128 with
  | 0 => ⟨S1x512x16x16x64, .f32⟩
  | 1 => ⟨S1x512x16x16x64, .f32⟩
  | 2 => ⟨S1x512x16x16x64, .f32⟩
  | 3 => ⟨S1x512x16x16x64, .f32⟩
  | 4 => ⟨S_, .f32⟩
  | 5 => ⟨S1x512x16x16x64, .f32⟩
  | 6 => ⟨S1x512x16x16x64, .i1⟩
  | 7 => ⟨S_, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .f32⟩
  | 14 => ⟨S_, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .f32⟩
  | 21 => ⟨S_, .f32⟩
  | 22 => ⟨S1x512x16x16x64, .f32⟩
  | 23 => ⟨S1x512x16x16x64, .f32⟩
  | 24 => ⟨S1x512x16x16x64, .f32⟩
  | 25 => ⟨S1x512x1x16x64, .f32⟩
  | 26 => ⟨S1x1x1x16x64, .f32⟩
  | 27 => ⟨S1x512x16x16x64, .f32⟩
  | 28 => ⟨S1x512x16x16x64, .f32⟩
  | 29 => ⟨S_, .f32⟩
  | 30 => ⟨S1x512x16x16, .f32⟩
  | 31 => ⟨S1x1x1x16x64, .f32⟩
  | 32 => ⟨S1x512x1x16x64, .f32⟩
  | 33 => ⟨S1x512x1x16x64, .f32⟩
  | 34 => ⟨S_, .f32⟩
  | 35 => ⟨S1x512x1x16, .f32⟩
  | 36 => ⟨S1x512x16x16, .f32⟩
  | 37 => ⟨S1x512x16x16, .f32⟩
  | 38 => ⟨S_, .f32⟩
  | 39 => ⟨S1x512x16x16x64, .f32⟩
  | 40 => ⟨S1x512x16x16x64, .f32⟩
  | 41 => ⟨S1x512x16x16x1, .f32⟩
  | 42 => ⟨S_, .f32⟩
  | 43 => ⟨S1x512x16x16x1, .f32⟩
  | 44 => ⟨S1x512x16x16x1, .f32⟩
  | 45 => ⟨S1x512x16x16x64, .f32⟩
  | 46 => ⟨S1x512x16x16x64, .f32⟩
  | 47 => ⟨S1x512x16x16x64, .f32⟩
  | 48 => ⟨S1x512x16x16x64, .f32⟩
  | 49 => ⟨S_, .f32⟩
  | 50 => ⟨S1x512x16x16x64, .f32⟩
  | 51 => ⟨S1x512x16x16x64, .i1⟩
  | 52 => ⟨S_, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .f32⟩
  | 59 => ⟨S_, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .f32⟩
  | 66 => ⟨S_, .f32⟩
  | 67 => ⟨S1x512x16x16x64, .f32⟩
  | 68 => ⟨S1x512x16x16x64, .f32⟩
  | 69 => ⟨S1x512x16x16x64, .f32⟩
  | 70 => ⟨S1x512x1x16x64, .f32⟩
  | 71 => ⟨S1x1x1x16x64, .f32⟩
  | 72 => ⟨S1x512x16x16x64, .f32⟩
  | 73 => ⟨S1x512x16x16x64, .f32⟩
  | 74 => ⟨S_, .f32⟩
  | 75 => ⟨S1x512x16x16, .f32⟩
  | 76 => ⟨S1x1x1x16x64, .f32⟩
  | 77 => ⟨S1x512x1x16x64, .f32⟩
  | 78 => ⟨S1x512x1x16x64, .f32⟩
  | 79 => ⟨S_, .f32⟩
  | 80 => ⟨S1x512x1x16, .f32⟩
  | 81 => ⟨S1x512x16x16, .f32⟩
  | 82 => ⟨S1x512x16x16, .f32⟩
  | 83 => ⟨S_, .f32⟩
  | 84 => ⟨S1x512x16x16x64, .f32⟩
  | 85 => ⟨S1x512x16x16x64, .f32⟩
  | 86 => ⟨S1x512x16x16x1, .f32⟩
  | 87 => ⟨S_, .f32⟩
  | 88 => ⟨S1x512x16x16x1, .f32⟩
  | 89 => ⟨S1x512x16x16x1, .f32⟩
  | 90 => ⟨S1x512x16x16x64, .f32⟩
  | 91 => ⟨S1x512x16x16x64, .f32⟩
  | 92 => ⟨S1x512x16x16x64, .f32⟩
  | 93 => ⟨S1x512x16x16x64, .f32⟩
  | 94 => ⟨S_, .f32⟩
  | 95 => ⟨S1x512x16x16x64, .f32⟩
  | 96 => ⟨S1x512x16x16x64, .i1⟩
  | 97 => ⟨S_, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .f32⟩
  | 104 => ⟨S_, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .f32⟩
  | 111 => ⟨S_, .f32⟩
  | 112 => ⟨S1x512x16x16x64, .f32⟩
  | 113 => ⟨S1x512x16x16x64, .f32⟩
  | 114 => ⟨S1x512x16x16x64, .f32⟩
  | 115 => ⟨S1x512x1x16x64, .f32⟩
  | 116 => ⟨S1x1x1x16x64, .f32⟩
  | 117 => ⟨S1x512x16x16x64, .f32⟩
  | 118 => ⟨S1x512x16x16x64, .f32⟩
  | 119 => ⟨S_, .f32⟩
  | 120 => ⟨S1x512x16x16, .f32⟩
  | 121 => ⟨S1x1x1x16x64, .f32⟩
  | 122 => ⟨S1x512x1x16x64, .f32⟩
  | 123 => ⟨S1x512x1x16x64, .f32⟩
  | 124 => ⟨S_, .f32⟩
  | 125 => ⟨S1x512x1x16, .f32⟩
  | 126 => ⟨S1x512x16x16, .f32⟩
  | 127 => ⟨S1x512x16x16, .f32⟩
  | _ => ⟨S1x8192x1024, .f32⟩

abbrev hbmTy0_4 (i : Nat) : BufTy := match i % 128 with
  | 0 => ⟨S_, .f32⟩
  | 1 => ⟨S1x512x16x16x64, .f32⟩
  | 2 => ⟨S1x512x16x16x64, .f32⟩
  | 3 => ⟨S1x512x16x16x1, .f32⟩
  | 4 => ⟨S_, .f32⟩
  | 5 => ⟨S1x512x16x16x1, .f32⟩
  | 6 => ⟨S1x512x16x16x1, .f32⟩
  | 7 => ⟨S1x512x16x16x64, .f32⟩
  | 8 => ⟨S1x512x16x16x64, .f32⟩
  | 9 => ⟨S1x512x16x16x64, .f32⟩
  | 10 => ⟨S1x512x16x16x64, .f32⟩
  | 11 => ⟨S_, .f32⟩
  | 12 => ⟨S1x512x16x16x64, .f32⟩
  | 13 => ⟨S1x512x16x16x64, .i1⟩
  | 14 => ⟨S_, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .f32⟩
  | 21 => ⟨S_, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .f32⟩
  | 28 => ⟨S_, .f32⟩
  | 29 => ⟨S1x512x16x16x64, .f32⟩
  | 30 => ⟨S1x512x16x16x64, .f32⟩
  | 31 => ⟨S1x512x16x16x64, .f32⟩
  | 32 => ⟨S1x512x1x16x64, .f32⟩
  | 33 => ⟨S1x1x1x16x64, .f32⟩
  | 34 => ⟨S1x512x16x16x64, .f32⟩
  | 35 => ⟨S1x512x16x16x64, .f32⟩
  | 36 => ⟨S_, .f32⟩
  | 37 => ⟨S1x512x16x16, .f32⟩
  | 38 => ⟨S1x1x1x16x64, .f32⟩
  | 39 => ⟨S1x512x1x16x64, .f32⟩
  | 40 => ⟨S1x512x1x16x64, .f32⟩
  | 41 => ⟨S_, .f32⟩
  | 42 => ⟨S1x512x1x16, .f32⟩
  | 43 => ⟨S1x512x16x16, .f32⟩
  | 44 => ⟨S1x512x16x16, .f32⟩
  | 45 => ⟨S_, .f32⟩
  | 46 => ⟨S1x512x16x16x64, .f32⟩
  | 47 => ⟨S1x512x16x16x64, .f32⟩
  | 48 => ⟨S1x512x16x16x1, .f32⟩
  | 49 => ⟨S_, .f32⟩
  | 50 => ⟨S1x512x16x16x1, .f32⟩
  | 51 => ⟨S1x512x16x16x1, .f32⟩
  | 52 => ⟨S1x512x16x16x64, .f32⟩
  | 53 => ⟨S1x512x16x16x64, .f32⟩
  | 54 => ⟨S1x512x16x16x64, .f32⟩
  | 55 => ⟨S1x512x16x16x64, .f32⟩
  | 56 => ⟨S_, .f32⟩
  | 57 => ⟨S1x512x16x16x64, .f32⟩
  | 58 => ⟨S1x512x16x16x64, .i1⟩
  | 59 => ⟨S_, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .f32⟩
  | 66 => ⟨S_, .f32⟩
  | 67 => ⟨S1x512x16x16x64, .f32⟩
  | 68 => ⟨S1x512x16x16x64, .f32⟩
  | 69 => ⟨S1x512x16x16x64, .f32⟩
  | 70 => ⟨S_, .f32⟩
  | 71 => ⟨S1x512x16x16x64, .f32⟩
  | 72 => ⟨S1x512x16x16x64, .f32⟩
  | 73 => ⟨S_, .f32⟩
  | 74 => ⟨S1x512x16x16x64, .f32⟩
  | 75 => ⟨S1x512x16x16x64, .f32⟩
  | 76 => ⟨S1x512x16x16x64, .f32⟩
  | 77 => ⟨S1x512x1x16x64, .f32⟩
  | 78 => ⟨S1x1x1x16x64, .f32⟩
  | 79 => ⟨S1x512x16x16x64, .f32⟩
  | 80 => ⟨S1x512x16x16x64, .f32⟩
  | 81 => ⟨S_, .f32⟩
  | 82 => ⟨S1x512x16x16, .f32⟩
  | 83 => ⟨S1x1x1x16x64, .f32⟩
  | 84 => ⟨S1x512x1x16x64, .f32⟩
  | 85 => ⟨S1x512x1x16x64, .f32⟩
  | 86 => ⟨S_, .f32⟩
  | 87 => ⟨S1x512x1x16, .f32⟩
  | 88 => ⟨S1x512x16x16, .f32⟩
  | 89 => ⟨S1x512x16x16, .f32⟩
  | 90 => ⟨S_, .f32⟩
  | 91 => ⟨S1x512x16x16x64, .f32⟩
  | 92 => ⟨S1x512x16x16x64, .f32⟩
  | 93 => ⟨S1x512x16x16x1, .f32⟩
  | 94 => ⟨S_, .f32⟩
  | 95 => ⟨S1x512x16x16x1, .f32⟩
  | 96 => ⟨S1x512x16x16x1, .f32⟩
  | 97 => ⟨S1x512x16x16x64, .f32⟩
  | 98 => ⟨S1x512x16x16x64, .f32⟩
  | 99 => ⟨S1x512x16x16x64, .f32⟩
  | 100 => ⟨S1x512x16x16x64, .f32⟩
  | 101 => ⟨S_, .f32⟩
  | 102 => ⟨S1x512x16x16x64, .f32⟩
  | 103 => ⟨S1x512x16x16x64, .i1⟩
  | 104 => ⟨S_, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .f32⟩
  | 111 => ⟨S_, .f32⟩
  | 112 => ⟨S1x512x16x16x64, .f32⟩
  | 113 => ⟨S1x512x16x16x64, .f32⟩
  | 114 => ⟨S1x512x16x16x64, .f32⟩
  | 115 => ⟨S_, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .f32⟩
  | 121 => ⟨S1x512x16x16x64, .f32⟩
  | 122 => ⟨S1x512x1x16x64, .f32⟩
  | 123 => ⟨S1x1x1x16x64, .f32⟩
  | 124 => ⟨S1x512x16x16x64, .f32⟩
  | 125 => ⟨S1x512x16x16x64, .f32⟩
  | 126 => ⟨S_, .f32⟩
  | 127 => ⟨S1x512x16x16, .f32⟩
  | _ => ⟨S1x8192x1024, .f32⟩

abbrev hbmTy0_5 (i : Nat) : BufTy := match i % 128 with
  | 0 => ⟨S1x1x1x16x64, .f32⟩
  | 1 => ⟨S1x512x1x16x64, .f32⟩
  | 2 => ⟨S1x512x1x16x64, .f32⟩
  | 3 => ⟨S_, .f32⟩
  | 4 => ⟨S1x512x1x16, .f32⟩
  | 5 => ⟨S1x512x16x16, .f32⟩
  | 6 => ⟨S1x512x16x16, .f32⟩
  | 7 => ⟨S_, .f32⟩
  | 8 => ⟨S1x512x16x16x64, .f32⟩
  | 9 => ⟨S1x512x16x16x64, .f32⟩
  | 10 => ⟨S1x512x16x16x1, .f32⟩
  | 11 => ⟨S_, .f32⟩
  | 12 => ⟨S1x512x16x16x1, .f32⟩
  | 13 => ⟨S1x512x16x16x1, .f32⟩
  | 14 => ⟨S1x512x16x16x64, .f32⟩
  | 15 => ⟨S1x512x16x16x64, .f32⟩
  | 16 => ⟨S1x512x16x16x64, .f32⟩
  | 17 => ⟨S1x512x16x16x64, .f32⟩
  | 18 => ⟨S_, .f32⟩
  | 19 => ⟨S1x512x16x16x64, .f32⟩
  | 20 => ⟨S1x512x16x16x64, .i1⟩
  | 21 => ⟨S_, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .f32⟩
  | 28 => ⟨S_, .f32⟩
  | 29 => ⟨S1x512x16x16x64, .f32⟩
  | 30 => ⟨S1x512x16x16x64, .f32⟩
  | 31 => ⟨S1x512x16x16x64, .f32⟩
  | 32 => ⟨S_, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .f32⟩
  | 38 => ⟨S1x512x16x16x64, .f32⟩
  | 39 => ⟨S1x512x1x16x64, .f32⟩
  | 40 => ⟨S1x1x1x16x64, .f32⟩
  | 41 => ⟨S1x512x16x16x64, .f32⟩
  | 42 => ⟨S1x512x16x16x64, .f32⟩
  | 43 => ⟨S_, .f32⟩
  | 44 => ⟨S1x512x16x16, .f32⟩
  | 45 => ⟨S1x1x1x16x64, .f32⟩
  | 46 => ⟨S1x512x1x16x64, .f32⟩
  | 47 => ⟨S1x512x1x16x64, .f32⟩
  | 48 => ⟨S_, .f32⟩
  | 49 => ⟨S1x512x1x16, .f32⟩
  | 50 => ⟨S1x512x16x16, .f32⟩
  | 51 => ⟨S1x512x16x16, .f32⟩
  | 52 => ⟨S_, .f32⟩
  | 53 => ⟨S1x512x16x16x64, .f32⟩
  | 54 => ⟨S1x512x16x16x64, .f32⟩
  | 55 => ⟨S1x512x16x16x1, .f32⟩
  | 56 => ⟨S_, .f32⟩
  | 57 => ⟨S1x512x16x16x1, .f32⟩
  | 58 => ⟨S1x512x16x16x1, .f32⟩
  | 59 => ⟨S1x512x16x16x64, .f32⟩
  | 60 => ⟨S1x512x16x16x64, .f32⟩
  | 61 => ⟨S1x512x16x16x64, .f32⟩
  | 62 => ⟨S1x512x16x16x64, .f32⟩
  | 63 => ⟨S_, .f32⟩
  | 64 => ⟨S1x512x16x16x64, .f32⟩
  | 65 => ⟨S1x512x16x16x64, .i1⟩
  | 66 => ⟨S_, .f32⟩
  | 67 => ⟨S1x512x16x16x64, .f32⟩
  | 68 => ⟨S1x512x16x16x64, .f32⟩
  | 69 => ⟨S1x512x16x16x64, .f32⟩
  | 70 => ⟨S_, .f32⟩
  | 71 => ⟨S1x512x16x16x64, .f32⟩
  | 72 => ⟨S1x512x16x16x64, .f32⟩
  | 73 => ⟨S_, .f32⟩
  | 74 => ⟨S1x512x16x16x64, .f32⟩
  | 75 => ⟨S1x512x16x16x64, .f32⟩
  | 76 => ⟨S1x512x16x16x64, .f32⟩
  | 77 => ⟨S_, .f32⟩
  | 78 => ⟨S1x512x16x16x64, .f32⟩
  | 79 => ⟨S1x512x16x16x64, .f32⟩
  | 80 => ⟨S_, .f32⟩
  | 81 => ⟨S1x512x16x16x64, .f32⟩
  | 82 => ⟨S1x512x16x16x64, .f32⟩
  | 83 => ⟨S1x512x16x16x64, .f32⟩
  | 84 => ⟨S1x512x1x16x64, .f32⟩
  | 85 => ⟨S1x1x1x16x64, .f32⟩
  | 86 => ⟨S1x512x16x16x64, .f32⟩
  | 87 => ⟨S1x512x16x16x64, .f32⟩
  | 88 => ⟨S_, .f32⟩
  | 89 => ⟨S1x512x16x16, .f32⟩
  | 90 => ⟨S1x1x1x16x64, .f32⟩
  | 91 => ⟨S1x512x1x16x64, .f32⟩
  | 92 => ⟨S1x512x1x16x64, .f32⟩
  | 93 => ⟨S_, .f32⟩
  | 94 => ⟨S1x512x1x16, .f32⟩
  | 95 => ⟨S1x512x16x16, .f32⟩
  | 96 => ⟨S1x512x16x16, .f32⟩
  | 97 => ⟨S_, .f32⟩
  | 98 => ⟨S1x512x16x16x64, .f32⟩
  | 99 => ⟨S1x512x16x16x64, .f32⟩
  | 100 => ⟨S1x512x16x16x1, .f32⟩
  | 101 => ⟨S_, .f32⟩
  | 102 => ⟨S1x512x16x16x1, .f32⟩
  | 103 => ⟨S1x512x16x16x1, .f32⟩
  | 104 => ⟨S1x512x16x16x64, .f32⟩
  | 105 => ⟨S1x512x16x16x64, .f32⟩
  | 106 => ⟨S1x512x16x16x64, .f32⟩
  | 107 => ⟨S1x512x16x16x64, .f32⟩
  | 108 => ⟨S_, .f32⟩
  | 109 => ⟨S1x512x16x16x64, .f32⟩
  | 110 => ⟨S1x512x16x16x64, .i1⟩
  | 111 => ⟨S_, .f32⟩
  | 112 => ⟨S1x512x16x16x64, .f32⟩
  | 113 => ⟨S1x512x16x16x64, .f32⟩
  | 114 => ⟨S1x512x16x16x64, .f32⟩
  | 115 => ⟨S_, .f32⟩
  | 116 => ⟨S1x512x16x16x64, .f32⟩
  | 117 => ⟨S1x512x16x16x64, .f32⟩
  | 118 => ⟨S_, .f32⟩
  | 119 => ⟨S1x512x16x16x64, .f32⟩
  | 120 => ⟨S1x512x16x16x64, .f32⟩
  | 121 => ⟨S1x512x16x16x64, .f32⟩
  | 122 => ⟨S_, .f32⟩
  | 123 => ⟨S1x512x16x16x64, .f32⟩
  | 124 => ⟨S1x512x16x16x64, .f32⟩
  | 125 => ⟨S_, .f32⟩
  | 126 => ⟨S1x512x16x16x64, .f32⟩
  | 127 => ⟨S1x512x16x16x64, .f32⟩
  | _ => ⟨S1x8192x1024, .f32⟩

abbrev hbmTy0_6 (i : Nat) : BufTy := match i % 128 with
  | 0 => ⟨S1x512x16x16x64, .f32⟩
  | 1 => ⟨S1x512x1x16x64, .f32⟩
  | 2 => ⟨S1x1x1x16x64, .f32⟩
  | 3 => ⟨S1x512x16x16x64, .f32⟩
  | 4 => ⟨S1x512x16x16x64, .f32⟩
  | 5 => ⟨S_, .f32⟩
  | 6 => ⟨S1x512x16x16, .f32⟩
  | 7 => ⟨S1x1x1x16x64, .f32⟩
  | 8 => ⟨S1x512x1x16x64, .f32⟩
  | 9 => ⟨S1x512x1x16x64, .f32⟩
  | 10 => ⟨S_, .f32⟩
  | 11 => ⟨S1x512x1x16, .f32⟩
  | 12 => ⟨S1x512x16x16, .f32⟩
  | 13 => ⟨S1x512x16x16, .f32⟩
  | 14 => ⟨S_, .f32⟩
  | 15 => ⟨S1x512x16x16x64, .f32⟩
  | 16 => ⟨S1x512x16x16x64, .f32⟩
  | 17 => ⟨S1x512x16x16x1, .f32⟩
  | 18 => ⟨S_, .f32⟩
  | 19 => ⟨S1x512x16x16x1, .f32⟩
  | 20 => ⟨S1x512x16x16x1, .f32⟩
  | 21 => ⟨S1x512x16x16x64, .f32⟩
  | 22 => ⟨S1x512x16x16x64, .f32⟩
  | 23 => ⟨S1x512x16x16x64, .f32⟩
  | 24 => ⟨S1x512x16x16x64, .f32⟩
  | 25 => ⟨S_, .f32⟩
  | 26 => ⟨S1x512x16x16x64, .f32⟩
  | 27 => ⟨S1x512x16x16x64, .i1⟩
  | 28 => ⟨S_, .f32⟩
  | 29 => ⟨S1x512x16x16x64, .f32⟩
  | 30 => ⟨S1x512x16x16x64, .f32⟩
  | 31 => ⟨S1x512x16x16x64, .f32⟩
  | 32 => ⟨S_, .f32⟩
  | 33 => ⟨S1x512x16x16x64, .f32⟩
  | 34 => ⟨S1x512x16x16x64, .f32⟩
  | 35 => ⟨S_, .f32⟩
  | 36 => ⟨S1x512x16x16x64, .f32⟩
  | 37 => ⟨S1x512x16x16x64, .f32⟩
  | 38 => ⟨S1x512x16x16x64, .f32⟩
  | 39 => ⟨S_, .f32⟩
  | 40 => ⟨S1x512x16x16x64, .f32⟩
  | 41 => ⟨S1x512x16x16x64, .f32⟩
  | 42 => ⟨S_, .f32⟩
  | 43 => ⟨S1x512x16x16x64, .f32⟩
  | 44 => ⟨S1x512x16x16x64, .f32⟩
  | 45 => ⟨S1x512x16x16x64, .f32⟩
  | 46 => ⟨S1x8192x1024, .f32⟩
  | 47 => ⟨S1x8192x1024, .f32⟩
  | 48 => ⟨S_, .f32⟩
  | 49 => ⟨S1x8192x1024, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S1x8192x1024, .f32⟩
  | 59 => ⟨S_, .f32⟩
  | 60 => ⟨S1x8192x1024, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S1x8192x1024, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v20 : Ref sig .tc := ⟨.hbm, 68, rfl⟩
abbrev main_v21 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_cst : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst_2 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_3 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_4 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_5 : Ref sig .tc := ⟨.hbm, 118, rfl⟩
abbrev main_v44 : Ref sig .tc := ⟨.hbm, 119, rfl⟩
abbrev main_v45 : Ref sig .tc := ⟨.hbm, 120, rfl⟩
abbrev main_cst_6 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_cst_7 : Ref sig .tc := ⟨.hbm, 125, rfl⟩
abbrev main_v49 : Ref sig .tc := ⟨.hbm, 126, rfl⟩
abbrev main_v50 : Ref sig .tc := ⟨.hbm, 127, rfl⟩
abbrev main_cst_8 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_cst_9 : Ref sig .tc := ⟨.hbm, 132, rfl⟩
abbrev main_v54 : Ref sig .tc := ⟨.hbm, 133, rfl⟩
abbrev main_v55 : Ref sig .tc := ⟨.hbm, 134, rfl⟩
abbrev main_cst_10 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_cst_11 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_12 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_13 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_14 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_15 : Ref sig .tc := ⟨.hbm, 163, rfl⟩
abbrev main_v79 : Ref sig .tc := ⟨.hbm, 164, rfl⟩
abbrev main_v80 : Ref sig .tc := ⟨.hbm, 165, rfl⟩
abbrev main_cst_16 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_cst_17 : Ref sig .tc := ⟨.hbm, 170, rfl⟩
abbrev main_v84 : Ref sig .tc := ⟨.hbm, 171, rfl⟩
abbrev main_v85 : Ref sig .tc := ⟨.hbm, 172, rfl⟩
abbrev main_cst_18 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_19 : Ref sig .tc := ⟨.hbm, 177, rfl⟩
abbrev main_v89 : Ref sig .tc := ⟨.hbm, 178, rfl⟩
abbrev main_v90 : Ref sig .tc := ⟨.hbm, 179, rfl⟩
abbrev main_cst_20 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_21 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_cst_22 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_cst_23 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_24 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_cst_25 : Ref sig .tc := ⟨.hbm, 208, rfl⟩
abbrev main_v114 : Ref sig .tc := ⟨.hbm, 209, rfl⟩
abbrev main_v115 : Ref sig .tc := ⟨.hbm, 210, rfl⟩
abbrev main_cst_26 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_cst_27 : Ref sig .tc := ⟨.hbm, 215, rfl⟩
abbrev main_v119 : Ref sig .tc := ⟨.hbm, 216, rfl⟩
abbrev main_v120 : Ref sig .tc := ⟨.hbm, 217, rfl⟩
abbrev main_cst_28 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_cst_29 : Ref sig .tc := ⟨.hbm, 222, rfl⟩
abbrev main_v124 : Ref sig .tc := ⟨.hbm, 223, rfl⟩
abbrev main_v125 : Ref sig .tc := ⟨.hbm, 224, rfl⟩
abbrev main_cst_30 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_cst_31 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_cst_32 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_cst_33 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_cst_34 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_35 : Ref sig .tc := ⟨.hbm, 253, rfl⟩
abbrev main_v149 : Ref sig .tc := ⟨.hbm, 254, rfl⟩
abbrev main_v150 : Ref sig .tc := ⟨.hbm, 255, rfl⟩
abbrev main_cst_36 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_cst_37 : Ref sig .tc := ⟨.hbm, 260, rfl⟩
abbrev main_v154 : Ref sig .tc := ⟨.hbm, 261, rfl⟩
abbrev main_v155 : Ref sig .tc := ⟨.hbm, 262, rfl⟩
abbrev main_cst_38 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_cst_39 : Ref sig .tc := ⟨.hbm, 267, rfl⟩
abbrev main_v159 : Ref sig .tc := ⟨.hbm, 268, rfl⟩
abbrev main_v160 : Ref sig .tc := ⟨.hbm, 269, rfl⟩
abbrev main_cst_40 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_cst_41 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_cst_42 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_cst_43 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_cst_44 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_45 : Ref sig .tc := ⟨.hbm, 298, rfl⟩
abbrev main_v184 : Ref sig .tc := ⟨.hbm, 299, rfl⟩
abbrev main_v185 : Ref sig .tc := ⟨.hbm, 300, rfl⟩
abbrev main_cst_46 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_cst_47 : Ref sig .tc := ⟨.hbm, 305, rfl⟩
abbrev main_v189 : Ref sig .tc := ⟨.hbm, 306, rfl⟩
abbrev main_v190 : Ref sig .tc := ⟨.hbm, 307, rfl⟩
abbrev main_cst_48 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_cst_49 : Ref sig .tc := ⟨.hbm, 312, rfl⟩
abbrev main_v194 : Ref sig .tc := ⟨.hbm, 313, rfl⟩
abbrev main_v195 : Ref sig .tc := ⟨.hbm, 314, rfl⟩
abbrev main_cst_50 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_51 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_cst_52 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_cst_53 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_cst_54 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_cst_55 : Ref sig .tc := ⟨.hbm, 343, rfl⟩
abbrev main_v219 : Ref sig .tc := ⟨.hbm, 344, rfl⟩
abbrev main_v220 : Ref sig .tc := ⟨.hbm, 345, rfl⟩
abbrev main_cst_56 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_cst_57 : Ref sig .tc := ⟨.hbm, 350, rfl⟩
abbrev main_v224 : Ref sig .tc := ⟨.hbm, 351, rfl⟩
abbrev main_v225 : Ref sig .tc := ⟨.hbm, 352, rfl⟩
abbrev main_cst_58 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_cst_59 : Ref sig .tc := ⟨.hbm, 357, rfl⟩
abbrev main_v229 : Ref sig .tc := ⟨.hbm, 358, rfl⟩
abbrev main_v230 : Ref sig .tc := ⟨.hbm, 359, rfl⟩
abbrev main_cst_60 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_cst_61 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_cst_62 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_cst_63 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_cst_64 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_cst_65 : Ref sig .tc := ⟨.hbm, 388, rfl⟩
abbrev main_v254 : Ref sig .tc := ⟨.hbm, 389, rfl⟩
abbrev main_v255 : Ref sig .tc := ⟨.hbm, 390, rfl⟩
abbrev main_cst_66 : Ref sig .tc := ⟨.hbm, 391, rfl⟩
abbrev main_v256 : Ref sig .tc := ⟨.hbm, 392, rfl⟩
abbrev main_v257 : Ref sig .tc := ⟨.hbm, 393, rfl⟩
abbrev main_v258 : Ref sig .tc := ⟨.hbm, 394, rfl⟩
abbrev main_cst_67 : Ref sig .tc := ⟨.hbm, 395, rfl⟩
abbrev main_v259 : Ref sig .tc := ⟨.hbm, 396, rfl⟩
abbrev main_v260 : Ref sig .tc := ⟨.hbm, 397, rfl⟩
abbrev main_cst_68 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_cst_69 : Ref sig .tc := ⟨.hbm, 402, rfl⟩
abbrev main_v264 : Ref sig .tc := ⟨.hbm, 403, rfl⟩
abbrev main_v265 : Ref sig .tc := ⟨.hbm, 404, rfl⟩
abbrev main_cst_70 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_cst_71 : Ref sig .tc := ⟨.hbm, 413, rfl⟩
abbrev main_v273 : Ref sig .tc := ⟨.hbm, 414, rfl⟩
abbrev main_v274 : Ref sig .tc := ⟨.hbm, 415, rfl⟩
abbrev main_v275 : Ref sig .tc := ⟨.hbm, 416, rfl⟩
abbrev main_v276 : Ref sig .tc := ⟨.hbm, 417, rfl⟩
abbrev main_cst_72 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_cst_73 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_cst_74 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_cst_75 : Ref sig .tc := ⟨.hbm, 433, rfl⟩
abbrev main_v289 : Ref sig .tc := ⟨.hbm, 434, rfl⟩
abbrev main_v290 : Ref sig .tc := ⟨.hbm, 435, rfl⟩
abbrev main_cst_76 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_cst_77 : Ref sig .tc := ⟨.hbm, 440, rfl⟩
abbrev main_v294 : Ref sig .tc := ⟨.hbm, 441, rfl⟩
abbrev main_v295 : Ref sig .tc := ⟨.hbm, 442, rfl⟩
abbrev main_cst_78 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_cst_79 : Ref sig .tc := ⟨.hbm, 447, rfl⟩
abbrev main_v299 : Ref sig .tc := ⟨.hbm, 448, rfl⟩
abbrev main_v300 : Ref sig .tc := ⟨.hbm, 449, rfl⟩
abbrev main_cst_80 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_cst_81 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_cst_82 : Ref sig .tc := ⟨.hbm, 463, rfl⟩
abbrev main_v312 : Ref sig .tc := ⟨.hbm, 464, rfl⟩
abbrev main_v313 : Ref sig .tc := ⟨.hbm, 465, rfl⟩
abbrev main_v314 : Ref sig .tc := ⟨.hbm, 466, rfl⟩
abbrev main_cst_83 : Ref sig .tc := ⟨.hbm, 467, rfl⟩
abbrev main_v315 : Ref sig .tc := ⟨.hbm, 468, rfl⟩
abbrev main_v316 : Ref sig .tc := ⟨.hbm, 469, rfl⟩
abbrev main_v317 : Ref sig .tc := ⟨.hbm, 470, rfl⟩
abbrev main_cst_84 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_cst_85 : Ref sig .tc := ⟨.hbm, 478, rfl⟩
abbrev main_v324 : Ref sig .tc := ⟨.hbm, 479, rfl⟩
abbrev main_v325 : Ref sig .tc := ⟨.hbm, 480, rfl⟩
abbrev main_cst_86 : Ref sig .tc := ⟨.hbm, 481, rfl⟩
abbrev main_v326 : Ref sig .tc := ⟨.hbm, 482, rfl⟩
abbrev main_v327 : Ref sig .tc := ⟨.hbm, 483, rfl⟩
abbrev main_v328 : Ref sig .tc := ⟨.hbm, 484, rfl⟩
abbrev main_cst_87 : Ref sig .tc := ⟨.hbm, 485, rfl⟩
abbrev main_v329 : Ref sig .tc := ⟨.hbm, 486, rfl⟩
abbrev main_v330 : Ref sig .tc := ⟨.hbm, 487, rfl⟩
abbrev main_cst_88 : Ref sig .tc := ⟨.hbm, 488, rfl⟩
abbrev main_v331 : Ref sig .tc := ⟨.hbm, 489, rfl⟩
abbrev main_v332 : Ref sig .tc := ⟨.hbm, 490, rfl⟩
abbrev main_v333 : Ref sig .tc := ⟨.hbm, 491, rfl⟩
abbrev main_cst_89 : Ref sig .tc := ⟨.hbm, 492, rfl⟩
abbrev main_v334 : Ref sig .tc := ⟨.hbm, 493, rfl⟩
abbrev main_v335 : Ref sig .tc := ⟨.hbm, 494, rfl⟩
abbrev main_cst_90 : Ref sig .tc := ⟨.hbm, 495, rfl⟩
abbrev main_v336 : Ref sig .tc := ⟨.hbm, 496, rfl⟩
abbrev main_v337 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_v341 : Ref sig .tc := ⟨.hbm, 501, rfl⟩
abbrev main_v342 : Ref sig .tc := ⟨.hbm, 502, rfl⟩
abbrev main_cst_91 : Ref sig .tc := ⟨.hbm, 503, rfl⟩
abbrev main_v343 : Ref sig .tc := ⟨.hbm, 504, rfl⟩
abbrev main_v344 : Ref sig .tc := ⟨.hbm, 505, rfl⟩
abbrev main_v345 : Ref sig .tc := ⟨.hbm, 506, rfl⟩
abbrev main_v346 : Ref sig .tc := ⟨.hbm, 507, rfl⟩
abbrev main_cst_92 : Ref sig .tc := ⟨.hbm, 508, rfl⟩
abbrev main_v347 : Ref sig .tc := ⟨.hbm, 509, rfl⟩
abbrev main_v348 : Ref sig .tc := ⟨.hbm, 510, rfl⟩
abbrev main_v349 : Ref sig .tc := ⟨.hbm, 511, rfl⟩
abbrev main_cst_93 : Ref sig .tc := ⟨.hbm, 512, rfl⟩
abbrev main_v350 : Ref sig .tc := ⟨.hbm, 513, rfl⟩
abbrev main_v351 : Ref sig .tc := ⟨.hbm, 514, rfl⟩
abbrev main_v352 : Ref sig .tc := ⟨.hbm, 515, rfl⟩
abbrev main_cst_94 : Ref sig .tc := ⟨.hbm, 516, rfl⟩
abbrev main_v353 : Ref sig .tc := ⟨.hbm, 517, rfl⟩
abbrev main_v354 : Ref sig .tc := ⟨.hbm, 518, rfl⟩
abbrev main_v355 : Ref sig .tc := ⟨.hbm, 519, rfl⟩
abbrev main_v356 : Ref sig .tc := ⟨.hbm, 520, rfl⟩
abbrev main_v357 : Ref sig .tc := ⟨.hbm, 521, rfl⟩
abbrev main_v358 : Ref sig .tc := ⟨.hbm, 522, rfl⟩
abbrev main_cst_95 : Ref sig .tc := ⟨.hbm, 523, rfl⟩
abbrev main_v359 : Ref sig .tc := ⟨.hbm, 524, rfl⟩
abbrev main_v360 : Ref sig .tc := ⟨.hbm, 525, rfl⟩
abbrev main_cst_96 : Ref sig .tc := ⟨.hbm, 526, rfl⟩
abbrev main_v361 : Ref sig .tc := ⟨.hbm, 527, rfl⟩
abbrev main_v362 : Ref sig .tc := ⟨.hbm, 528, rfl⟩
abbrev main_v363 : Ref sig .tc := ⟨.hbm, 529, rfl⟩
abbrev main_cst_97 : Ref sig .tc := ⟨.hbm, 530, rfl⟩
abbrev main_v364 : Ref sig .tc := ⟨.hbm, 531, rfl⟩
abbrev main_v365 : Ref sig .tc := ⟨.hbm, 532, rfl⟩
abbrev main_cst_98 : Ref sig .tc := ⟨.hbm, 533, rfl⟩
abbrev main_v366 : Ref sig .tc := ⟨.hbm, 534, rfl⟩
abbrev main_v367 : Ref sig .tc := ⟨.hbm, 535, rfl⟩
abbrev main_v368 : Ref sig .tc := ⟨.hbm, 536, rfl⟩
abbrev main_cst_99 : Ref sig .tc := ⟨.hbm, 537, rfl⟩
abbrev main_v369 : Ref sig .tc := ⟨.hbm, 538, rfl⟩
abbrev main_v370 : Ref sig .tc := ⟨.hbm, 539, rfl⟩
abbrev main_cst_100 : Ref sig .tc := ⟨.hbm, 540, rfl⟩
abbrev main_v371 : Ref sig .tc := ⟨.hbm, 541, rfl⟩
abbrev main_v372 : Ref sig .tc := ⟨.hbm, 542, rfl⟩
abbrev main_v373 : Ref sig .tc := ⟨.hbm, 543, rfl⟩
abbrev main_v374 : Ref sig .tc := ⟨.hbm, 544, rfl⟩
abbrev main_v375 : Ref sig .tc := ⟨.hbm, 545, rfl⟩
abbrev main_v376 : Ref sig .tc := ⟨.hbm, 546, rfl⟩
abbrev main_v377 : Ref sig .tc := ⟨.hbm, 547, rfl⟩
abbrev main_cst_101 : Ref sig .tc := ⟨.hbm, 548, rfl⟩
abbrev main_v378 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_cst_102 : Ref sig .tc := ⟨.hbm, 553, rfl⟩
abbrev main_v382 : Ref sig .tc := ⟨.hbm, 554, rfl⟩
abbrev main_v383 : Ref sig .tc := ⟨.hbm, 555, rfl⟩
abbrev main_v384 : Ref sig .tc := ⟨.hbm, 556, rfl⟩
abbrev main_cst_103 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_cst_104 : Ref sig .tc := ⟨.hbm, 561, rfl⟩
abbrev main_v388 : Ref sig .tc := ⟨.hbm, 562, rfl⟩
abbrev main_v389 : Ref sig .tc := ⟨.hbm, 563, rfl⟩
abbrev main_v390 : Ref sig .tc := ⟨.hbm, 564, rfl⟩
abbrev main_v391 : Ref sig .tc := ⟨.hbm, 565, rfl⟩
abbrev main_v392 : Ref sig .tc := ⟨.hbm, 566, rfl⟩
abbrev main_v393 : Ref sig .tc := ⟨.hbm, 567, rfl⟩
abbrev main_cst_105 : Ref sig .tc := ⟨.hbm, 568, rfl⟩
abbrev main_v394 : Ref sig .tc := ⟨.hbm, 569, rfl⟩
abbrev main_v395 : Ref sig .tc := ⟨.hbm, 570, rfl⟩
abbrev main_cst_106 : Ref sig .tc := ⟨.hbm, 571, rfl⟩
abbrev main_v396 : Ref sig .tc := ⟨.hbm, 572, rfl⟩
abbrev main_v397 : Ref sig .tc := ⟨.hbm, 573, rfl⟩
abbrev main_v398 : Ref sig .tc := ⟨.hbm, 574, rfl⟩
abbrev main_cst_107 : Ref sig .tc := ⟨.hbm, 575, rfl⟩
abbrev main_v399 : Ref sig .tc := ⟨.hbm, 576, rfl⟩
abbrev main_v400 : Ref sig .tc := ⟨.hbm, 577, rfl⟩
abbrev main_cst_108 : Ref sig .tc := ⟨.hbm, 578, rfl⟩
abbrev main_v401 : Ref sig .tc := ⟨.hbm, 579, rfl⟩
abbrev main_v402 : Ref sig .tc := ⟨.hbm, 580, rfl⟩
abbrev main_v403 : Ref sig .tc := ⟨.hbm, 581, rfl⟩
abbrev main_cst_109 : Ref sig .tc := ⟨.hbm, 582, rfl⟩
abbrev main_v404 : Ref sig .tc := ⟨.hbm, 583, rfl⟩
abbrev main_v405 : Ref sig .tc := ⟨.hbm, 584, rfl⟩
abbrev main_cst_110 : Ref sig .tc := ⟨.hbm, 585, rfl⟩
abbrev main_v406 : Ref sig .tc := ⟨.hbm, 586, rfl⟩
abbrev main_v407 : Ref sig .tc := ⟨.hbm, 587, rfl⟩
abbrev main_v408 : Ref sig .tc := ⟨.hbm, 588, rfl⟩
abbrev main_v409 : Ref sig .tc := ⟨.hbm, 589, rfl⟩
abbrev main_v410 : Ref sig .tc := ⟨.hbm, 590, rfl⟩
abbrev main_v411 : Ref sig .tc := ⟨.hbm, 591, rfl⟩
abbrev main_v412 : Ref sig .tc := ⟨.hbm, 592, rfl⟩
abbrev main_cst_111 : Ref sig .tc := ⟨.hbm, 593, rfl⟩
abbrev main_v413 : Ref sig .tc := ⟨.hbm, 594, rfl⟩
abbrev main_v414 : Ref sig .tc := ⟨.hbm, 595, rfl⟩
abbrev main_v415 : Ref sig .tc := ⟨.hbm, 596, rfl⟩
abbrev main_v416 : Ref sig .tc := ⟨.hbm, 597, rfl⟩
abbrev main_cst_112 : Ref sig .tc := ⟨.hbm, 598, rfl⟩
abbrev main_v417 : Ref sig .tc := ⟨.hbm, 599, rfl⟩
abbrev main_v418 : Ref sig .tc := ⟨.hbm, 600, rfl⟩
abbrev main_v419 : Ref sig .tc := ⟨.hbm, 601, rfl⟩
abbrev main_cst_113 : Ref sig .tc := ⟨.hbm, 602, rfl⟩
abbrev main_v420 : Ref sig .tc := ⟨.hbm, 603, rfl⟩
abbrev main_v421 : Ref sig .tc := ⟨.hbm, 604, rfl⟩
abbrev main_v422 : Ref sig .tc := ⟨.hbm, 605, rfl⟩
abbrev main_cst_114 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_cst_115 : Ref sig .tc := ⟨.hbm, 613, rfl⟩
abbrev main_v429 : Ref sig .tc := ⟨.hbm, 614, rfl⟩
abbrev main_v430 : Ref sig .tc := ⟨.hbm, 615, rfl⟩
abbrev main_cst_116 : Ref sig .tc := ⟨.hbm, 616, rfl⟩
abbrev main_v431 : Ref sig .tc := ⟨.hbm, 617, rfl⟩
abbrev main_v432 : Ref sig .tc := ⟨.hbm, 618, rfl⟩
abbrev main_v433 : Ref sig .tc := ⟨.hbm, 619, rfl⟩
abbrev main_cst_117 : Ref sig .tc := ⟨.hbm, 620, rfl⟩
abbrev main_v434 : Ref sig .tc := ⟨.hbm, 621, rfl⟩
abbrev main_v435 : Ref sig .tc := ⟨.hbm, 622, rfl⟩
abbrev main_cst_118 : Ref sig .tc := ⟨.hbm, 623, rfl⟩
abbrev main_v436 : Ref sig .tc := ⟨.hbm, 624, rfl⟩
abbrev main_v437 : Ref sig .tc := ⟨.hbm, 625, rfl⟩
abbrev main_v438 : Ref sig .tc := ⟨.hbm, 626, rfl⟩
abbrev main_cst_119 : Ref sig .tc := ⟨.hbm, 627, rfl⟩
abbrev main_v439 : Ref sig .tc := ⟨.hbm, 628, rfl⟩
abbrev main_v440 : Ref sig .tc := ⟨.hbm, 629, rfl⟩
abbrev main_cst_120 : Ref sig .tc := ⟨.hbm, 630, rfl⟩
abbrev main_v441 : Ref sig .tc := ⟨.hbm, 631, rfl⟩
abbrev main_v442 : Ref sig .tc := ⟨.hbm, 632, rfl⟩
abbrev main_v443 : Ref sig .tc := ⟨.hbm, 633, rfl⟩
abbrev main_v444 : Ref sig .tc := ⟨.hbm, 634, rfl⟩
abbrev main_v445 : Ref sig .tc := ⟨.hbm, 635, rfl⟩
abbrev main_v446 : Ref sig .tc := ⟨.hbm, 636, rfl⟩
abbrev main_v447 : Ref sig .tc := ⟨.hbm, 637, rfl⟩
abbrev main_cst_121 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩
abbrev main_v451 : Ref sig .tc := ⟨.hbm, 642, rfl⟩
abbrev main_cst_122 : Ref sig .tc := ⟨.hbm, 643, rfl⟩
abbrev main_v452 : Ref sig .tc := ⟨.hbm, 644, rfl⟩
abbrev main_v453 : Ref sig .tc := ⟨.hbm, 645, rfl⟩
abbrev main_v454 : Ref sig .tc := ⟨.hbm, 646, rfl⟩
abbrev main_cst_123 : Ref sig .tc := ⟨.hbm, 647, rfl⟩
abbrev main_v455 : Ref sig .tc := ⟨.hbm, 648, rfl⟩
abbrev main_v456 : Ref sig .tc := ⟨.hbm, 649, rfl⟩
abbrev main_v457 : Ref sig .tc := ⟨.hbm, 650, rfl⟩
abbrev main_cst_124 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_v461 : Ref sig .tc := ⟨.hbm, 655, rfl⟩
abbrev main_v462 : Ref sig .tc := ⟨.hbm, 656, rfl⟩
abbrev main_v463 : Ref sig .tc := ⟨.hbm, 657, rfl⟩
abbrev main_cst_125 : Ref sig .tc := ⟨.hbm, 658, rfl⟩
abbrev main_v464 : Ref sig .tc := ⟨.hbm, 659, rfl⟩
abbrev main_v465 : Ref sig .tc := ⟨.hbm, 660, rfl⟩
abbrev main_cst_126 : Ref sig .tc := ⟨.hbm, 661, rfl⟩
abbrev main_v466 : Ref sig .tc := ⟨.hbm, 662, rfl⟩
abbrev main_v467 : Ref sig .tc := ⟨.hbm, 663, rfl⟩
abbrev main_v468 : Ref sig .tc := ⟨.hbm, 664, rfl⟩
abbrev main_cst_127 : Ref sig .tc := ⟨.hbm, 665, rfl⟩
abbrev main_v469 : Ref sig .tc := ⟨.hbm, 666, rfl⟩
abbrev main_v470 : Ref sig .tc := ⟨.hbm, 667, rfl⟩
abbrev main_cst_128 : Ref sig .tc := ⟨.hbm, 668, rfl⟩
abbrev main_v471 : Ref sig .tc := ⟨.hbm, 669, rfl⟩
abbrev main_v472 : Ref sig .tc := ⟨.hbm, 670, rfl⟩
abbrev main_v473 : Ref sig .tc := ⟨.hbm, 671, rfl⟩
abbrev main_cst_129 : Ref sig .tc := ⟨.hbm, 672, rfl⟩
abbrev main_v474 : Ref sig .tc := ⟨.hbm, 673, rfl⟩
abbrev main_v475 : Ref sig .tc := ⟨.hbm, 674, rfl⟩
abbrev main_cst_130 : Ref sig .tc := ⟨.hbm, 675, rfl⟩
abbrev main_v476 : Ref sig .tc := ⟨.hbm, 676, rfl⟩
abbrev main_v477 : Ref sig .tc := ⟨.hbm, 677, rfl⟩
abbrev main_v478 : Ref sig .tc := ⟨.hbm, 678, rfl⟩
abbrev main_v479 : Ref sig .tc := ⟨.hbm, 679, rfl⟩
abbrev main_v480 : Ref sig .tc := ⟨.hbm, 680, rfl⟩
abbrev main_v481 : Ref sig .tc := ⟨.hbm, 681, rfl⟩
abbrev main_v482 : Ref sig .tc := ⟨.hbm, 682, rfl⟩
abbrev main_cst_131 : Ref sig .tc := ⟨.hbm, 683, rfl⟩
abbrev main_v483 : Ref sig .tc := ⟨.hbm, 684, rfl⟩
abbrev main_v484 : Ref sig .tc := ⟨.hbm, 685, rfl⟩
abbrev main_v485 : Ref sig .tc := ⟨.hbm, 686, rfl⟩
abbrev main_v486 : Ref sig .tc := ⟨.hbm, 687, rfl⟩
abbrev main_cst_132 : Ref sig .tc := ⟨.hbm, 688, rfl⟩
abbrev main_v487 : Ref sig .tc := ⟨.hbm, 689, rfl⟩
abbrev main_v488 : Ref sig .tc := ⟨.hbm, 690, rfl⟩
abbrev main_v489 : Ref sig .tc := ⟨.hbm, 691, rfl⟩
abbrev main_cst_133 : Ref sig .tc := ⟨.hbm, 692, rfl⟩
abbrev main_v490 : Ref sig .tc := ⟨.hbm, 693, rfl⟩
abbrev main_v491 : Ref sig .tc := ⟨.hbm, 694, rfl⟩
abbrev main_v492 : Ref sig .tc := ⟨.hbm, 695, rfl⟩
abbrev main_cst_134 : Ref sig .tc := ⟨.hbm, 696, rfl⟩
abbrev main_v493 : Ref sig .tc := ⟨.hbm, 697, rfl⟩
abbrev main_v494 : Ref sig .tc := ⟨.hbm, 698, rfl⟩
abbrev main_v495 : Ref sig .tc := ⟨.hbm, 699, rfl⟩
abbrev main_v496 : Ref sig .tc := ⟨.hbm, 700, rfl⟩
abbrev main_v497 : Ref sig .tc := ⟨.hbm, 701, rfl⟩
abbrev main_v498 : Ref sig .tc := ⟨.hbm, 702, rfl⟩
abbrev main_cst_135 : Ref sig .tc := ⟨.hbm, 703, rfl⟩
abbrev main_v499 : Ref sig .tc := ⟨.hbm, 704, rfl⟩
abbrev main_v500 : Ref sig .tc := ⟨.hbm, 705, rfl⟩
abbrev main_cst_136 : Ref sig .tc := ⟨.hbm, 706, rfl⟩
abbrev main_v501 : Ref sig .tc := ⟨.hbm, 707, rfl⟩
abbrev main_v502 : Ref sig .tc := ⟨.hbm, 708, rfl⟩
abbrev main_v503 : Ref sig .tc := ⟨.hbm, 709, rfl⟩
abbrev main_cst_137 : Ref sig .tc := ⟨.hbm, 710, rfl⟩
abbrev main_v504 : Ref sig .tc := ⟨.hbm, 711, rfl⟩
abbrev main_v505 : Ref sig .tc := ⟨.hbm, 712, rfl⟩
abbrev main_cst_138 : Ref sig .tc := ⟨.hbm, 713, rfl⟩
abbrev main_v506 : Ref sig .tc := ⟨.hbm, 714, rfl⟩
abbrev main_v507 : Ref sig .tc := ⟨.hbm, 715, rfl⟩
abbrev main_v508 : Ref sig .tc := ⟨.hbm, 716, rfl⟩
abbrev main_cst_139 : Ref sig .tc := ⟨.hbm, 717, rfl⟩
abbrev main_v509 : Ref sig .tc := ⟨.hbm, 718, rfl⟩
abbrev main_v510 : Ref sig .tc := ⟨.hbm, 719, rfl⟩
abbrev main_cst_140 : Ref sig .tc := ⟨.hbm, 720, rfl⟩
abbrev main_v511 : Ref sig .tc := ⟨.hbm, 721, rfl⟩
abbrev main_v512 : Ref sig .tc := ⟨.hbm, 722, rfl⟩
abbrev main_v513 : Ref sig .tc := ⟨.hbm, 723, rfl⟩
abbrev main_v514 : Ref sig .tc := ⟨.hbm, 724, rfl⟩
abbrev main_v515 : Ref sig .tc := ⟨.hbm, 725, rfl⟩
abbrev main_v516 : Ref sig .tc := ⟨.hbm, 726, rfl⟩
abbrev main_v517 : Ref sig .tc := ⟨.hbm, 727, rfl⟩
abbrev main_cst_141 : Ref sig .tc := ⟨.hbm, 728, rfl⟩
abbrev main_v518 : Ref sig .tc := ⟨.hbm, 729, rfl⟩
abbrev main_v519 : Ref sig .tc := ⟨.hbm, 730, rfl⟩
abbrev main_v520 : Ref sig .tc := ⟨.hbm, 731, rfl⟩
abbrev main_v521 : Ref sig .tc := ⟨.hbm, 732, rfl⟩
abbrev main_cst_142 : Ref sig .tc := ⟨.hbm, 733, rfl⟩
abbrev main_v522 : Ref sig .tc := ⟨.hbm, 734, rfl⟩
abbrev main_v523 : Ref sig .tc := ⟨.hbm, 735, rfl⟩
abbrev main_v524 : Ref sig .tc := ⟨.hbm, 736, rfl⟩
abbrev main_cst_143 : Ref sig .tc := ⟨.hbm, 737, rfl⟩
abbrev main_v525 : Ref sig .tc := ⟨.hbm, 738, rfl⟩
abbrev main_v526 : Ref sig .tc := ⟨.hbm, 739, rfl⟩
abbrev main_v527 : Ref sig .tc := ⟨.hbm, 740, rfl⟩
abbrev main_cst_144 : Ref sig .tc := ⟨.hbm, 741, rfl⟩
abbrev main_v528 : Ref sig .tc := ⟨.hbm, 742, rfl⟩
abbrev main_v529 : Ref sig .tc := ⟨.hbm, 743, rfl⟩
abbrev main_v530 : Ref sig .tc := ⟨.hbm, 744, rfl⟩
abbrev main_v531 : Ref sig .tc := ⟨.hbm, 745, rfl⟩
abbrev main_v532 : Ref sig .tc := ⟨.hbm, 746, rfl⟩
abbrev main_v533 : Ref sig .tc := ⟨.hbm, 747, rfl⟩
abbrev main_cst_145 : Ref sig .tc := ⟨.hbm, 748, rfl⟩
abbrev main_v534 : Ref sig .tc := ⟨.hbm, 749, rfl⟩
abbrev main_v535 : Ref sig .tc := ⟨.hbm, 750, rfl⟩
abbrev main_cst_146 : Ref sig .tc := ⟨.hbm, 751, rfl⟩
abbrev main_v536 : Ref sig .tc := ⟨.hbm, 752, rfl⟩
abbrev main_v537 : Ref sig .tc := ⟨.hbm, 753, rfl⟩
abbrev main_v538 : Ref sig .tc := ⟨.hbm, 754, rfl⟩
abbrev main_cst_147 : Ref sig .tc := ⟨.hbm, 755, rfl⟩
abbrev main_v539 : Ref sig .tc := ⟨.hbm, 756, rfl⟩
abbrev main_v540 : Ref sig .tc := ⟨.hbm, 757, rfl⟩
abbrev main_cst_148 : Ref sig .tc := ⟨.hbm, 758, rfl⟩
abbrev main_v541 : Ref sig .tc := ⟨.hbm, 759, rfl⟩
abbrev main_v542 : Ref sig .tc := ⟨.hbm, 760, rfl⟩
abbrev main_v543 : Ref sig .tc := ⟨.hbm, 761, rfl⟩
abbrev main_cst_149 : Ref sig .tc := ⟨.hbm, 762, rfl⟩
abbrev main_v544 : Ref sig .tc := ⟨.hbm, 763, rfl⟩
abbrev main_v545 : Ref sig .tc := ⟨.hbm, 764, rfl⟩
abbrev main_cst_150 : Ref sig .tc := ⟨.hbm, 765, rfl⟩
abbrev main_v546 : Ref sig .tc := ⟨.hbm, 766, rfl⟩
abbrev main_v547 : Ref sig .tc := ⟨.hbm, 767, rfl⟩
abbrev main_v548 : Ref sig .tc := ⟨.hbm, 768, rfl⟩
abbrev main_v549 : Ref sig .tc := ⟨.hbm, 769, rfl⟩
abbrev main_v550 : Ref sig .tc := ⟨.hbm, 770, rfl⟩
abbrev main_v551 : Ref sig .tc := ⟨.hbm, 771, rfl⟩
abbrev main_v552 : Ref sig .tc := ⟨.hbm, 772, rfl⟩
abbrev main_cst_151 : Ref sig .tc := ⟨.hbm, 773, rfl⟩
abbrev main_v553 : Ref sig .tc := ⟨.hbm, 774, rfl⟩
abbrev main_v554 : Ref sig .tc := ⟨.hbm, 775, rfl⟩
abbrev main_v555 : Ref sig .tc := ⟨.hbm, 776, rfl⟩
abbrev main_v556 : Ref sig .tc := ⟨.hbm, 777, rfl⟩
abbrev main_cst_152 : Ref sig .tc := ⟨.hbm, 778, rfl⟩
abbrev main_v557 : Ref sig .tc := ⟨.hbm, 779, rfl⟩
abbrev main_v558 : Ref sig .tc := ⟨.hbm, 780, rfl⟩
abbrev main_v559 : Ref sig .tc := ⟨.hbm, 781, rfl⟩
abbrev main_cst_153 : Ref sig .tc := ⟨.hbm, 782, rfl⟩
abbrev main_v560 : Ref sig .tc := ⟨.hbm, 783, rfl⟩
abbrev main_v561 : Ref sig .tc := ⟨.hbm, 784, rfl⟩
abbrev main_v562 : Ref sig .tc := ⟨.hbm, 785, rfl⟩
abbrev main_cst_154 : Ref sig .tc := ⟨.hbm, 786, rfl⟩
abbrev main_v563 : Ref sig .tc := ⟨.hbm, 787, rfl⟩
abbrev main_v564 : Ref sig .tc := ⟨.hbm, 788, rfl⟩
abbrev main_v565 : Ref sig .tc := ⟨.hbm, 789, rfl⟩
abbrev main_v566 : Ref sig .tc := ⟨.hbm, 790, rfl⟩
abbrev main_v567 : Ref sig .tc := ⟨.hbm, 791, rfl⟩
abbrev main_v568 : Ref sig .tc := ⟨.hbm, 792, rfl⟩
abbrev main_cst_155 : Ref sig .tc := ⟨.hbm, 793, rfl⟩
abbrev main_v569 : Ref sig .tc := ⟨.hbm, 794, rfl⟩
abbrev main_v570 : Ref sig .tc := ⟨.hbm, 795, rfl⟩
abbrev main_cst_156 : Ref sig .tc := ⟨.hbm, 796, rfl⟩
abbrev main_v571 : Ref sig .tc := ⟨.hbm, 797, rfl⟩
abbrev main_v572 : Ref sig .tc := ⟨.hbm, 798, rfl⟩
abbrev main_v573 : Ref sig .tc := ⟨.hbm, 799, rfl⟩
abbrev main_cst_157 : Ref sig .tc := ⟨.hbm, 800, rfl⟩
abbrev main_v574 : Ref sig .tc := ⟨.hbm, 801, rfl⟩
abbrev main_v575 : Ref sig .tc := ⟨.hbm, 802, rfl⟩
abbrev main_cst_158 : Ref sig .tc := ⟨.hbm, 803, rfl⟩
abbrev main_v576 : Ref sig .tc := ⟨.hbm, 804, rfl⟩
abbrev main_v577 : Ref sig .tc := ⟨.hbm, 805, rfl⟩
abbrev main_v578 : Ref sig .tc := ⟨.hbm, 806, rfl⟩
abbrev main_cst_159 : Ref sig .tc := ⟨.hbm, 807, rfl⟩
abbrev main_v579 : Ref sig .tc := ⟨.hbm, 808, rfl⟩
abbrev main_v580 : Ref sig .tc := ⟨.hbm, 809, rfl⟩
abbrev main_cst_160 : Ref sig .tc := ⟨.hbm, 810, rfl⟩
abbrev main_v581 : Ref sig .tc := ⟨.hbm, 811, rfl⟩
abbrev main_v582 : Ref sig .tc := ⟨.hbm, 812, rfl⟩
abbrev main_v583 : Ref sig .tc := ⟨.hbm, 813, rfl⟩
abbrev main_v584 : Ref sig .tc := ⟨.hbm, 814, rfl⟩
abbrev main_v585 : Ref sig .tc := ⟨.hbm, 815, rfl⟩
abbrev main_cst_161 : Ref sig .tc := ⟨.hbm, 816, rfl⟩
abbrev main_v586 : Ref sig .tc := ⟨.hbm, 817, rfl⟩
abbrev main_c_162 : Ref sig .tc := ⟨.hbm, 818, rfl⟩
abbrev main_v587 : Ref sig .tc := ⟨.hbm, 819, rfl⟩
abbrev main_v588 : Ref sig .tc := ⟨.hbm, 820, rfl⟩
abbrev main_c_163 : Ref sig .tc := ⟨.hbm, 821, rfl⟩
abbrev main_v589 : Ref sig .tc := ⟨.hbm, 822, rfl⟩
abbrev main_v590 : Ref sig .tc := ⟨.hbm, 823, rfl⟩
abbrev main_v591 : Ref sig .tc := ⟨.hbm, 824, rfl⟩
abbrev main_v592 : Ref sig .tc := ⟨.hbm, 825, rfl⟩
abbrev main_v593 : Ref sig .tc := ⟨.hbm, 826, rfl⟩
abbrev main_cst_164 : Ref sig .tc := ⟨.hbm, 827, rfl⟩
abbrev main_v594 : Ref sig .tc := ⟨.hbm, 828, rfl⟩
abbrev main_c_165 : Ref sig .tc := ⟨.hbm, 829, rfl⟩
abbrev main_v595 : Ref sig .tc := ⟨.hbm, 830, rfl⟩
abbrev main_v596 : Ref sig .tc := ⟨.hbm, 831, rfl⟩
abbrev main_c_166 : Ref sig .tc := ⟨.hbm, 832, rfl⟩
abbrev main_v597 : Ref sig .tc := ⟨.hbm, 833, rfl⟩
abbrev main_v598 : Ref sig .tc := ⟨.hbm, 834, rfl⟩
abbrev main_v599 : Ref sig .tc := ⟨.hbm, 835, rfl⟩
abbrev main_v600 : Ref sig .tc := ⟨.hbm, 836, rfl⟩
abbrev main_v601 : Ref sig .tc := ⟨.hbm, 837, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S16_S1x16_1 : S16.BroadcastsInDim S1x16 (![1] : Fin 1 → Fin S1x16.rank)
  bcast_S_S1x16 : S_.BroadcastsInDim S1x16 (![] : Fin 0 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  shapeCasts_S512x16_S8192 : S512x16.ShapeCasts S8192
  slices_S2048_S1024_0 : S2048.Slices ![0] S1024
  shapeCasts_S1024_S16x64 : S1024.ShapeCasts S16x64
  slices_S2048_S1024_1024 : S2048.Slices ![1024] S1024
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S1x8192x1024_1 : S8192.BroadcastsInDim S1x8192x1024 (![1] : Fin 1 → Fin S1x8192x1024.rank)
  bcast_S_S1x8192x1024 : S_.BroadcastsInDim S1x8192x1024 (![] : Fin 0 → Fin S1x8192x1024.rank)
  shapeCasts_S1x8192x1024_S1x512x16x16x64 : S1x8192x1024.ShapeCasts S1x512x16x16x64
  slices_S1x512x16x16x64_S1x512x1x16x64_0_0_0_0_0 : S1x512x16x16x64.Slices ![0, 0, 0, 0, 0] S1x512x1x16x64
  bcast_S16x64_S1x1x1x16x64_3_4 : S16x64.BroadcastsInDim S1x1x1x16x64 (![3, 4] : Fin 2 → Fin S1x1x1x16x64.rank)
  bcast_S1x1x1x16x64_S1x512x16x16x64_0_1_2_3_4 : S1x1x1x16x64.BroadcastsInDim S1x512x16x16x64 (![0, 1, 2, 3, 4] : Fin 5 → Fin S1x512x16x16x64.rank)
  reducesTo_S1x512x16x16x64_S1x512x16x16_d4 : S1x512x16x16x64.ReducesTo [4] S1x512x16x16
  bcast_S1x1x1x16x64_S1x512x1x16x64_0_1_2_3_4 : S1x1x1x16x64.BroadcastsInDim S1x512x1x16x64 (![0, 1, 2, 3, 4] : Fin 5 → Fin S1x512x1x16x64.rank)
  reducesTo_S1x512x1x16x64_S1x512x1x16_d4 : S1x512x1x16x64.ReducesTo [4] S1x512x1x16
  bcast_S1x512x1x16_S1x512x16x16_0_1_2_3 : S1x512x1x16.BroadcastsInDim S1x512x16x16 (![0, 1, 2, 3] : Fin 4 → Fin S1x512x16x16.rank)
  bcast_S_S1x512x16x16x64 : S_.BroadcastsInDim S1x512x16x16x64 (![] : Fin 0 → Fin S1x512x16x16x64.rank)
  bcast_S1x512x16x16_S1x512x16x16x1_0_1_2_3 : S1x512x16x16.BroadcastsInDim S1x512x16x16x1 (![0, 1, 2, 3] : Fin 4 → Fin S1x512x16x16x1.rank)
  bcast_S_S1x512x16x16x1 : S_.BroadcastsInDim S1x512x16x16x1 (![] : Fin 0 → Fin S1x512x16x16x1.rank)
  bcast_S1x512x16x16x1_S1x512x16x16x64_0_1_2_3_4 : S1x512x16x16x1.BroadcastsInDim S1x512x16x16x64 (![0, 1, 2, 3, 4] : Fin 5 → Fin S1x512x16x16x64.rank)
  bcast_S1x512x1x16x64_S1x512x16x16x64_0_1_2_3_4 : S1x512x1x16x64.BroadcastsInDim S1x512x16x16x64 (![0, 1, 2, 3, 4] : Fin 5 → Fin S1x512x16x16x64.rank)
  slices_S1x512x16x16x64_S1x512x1x16x64_0_0_1_0_0 : S1x512x16x16x64.Slices ![0, 0, 1, 0, 0] S1x512x1x16x64
  slices_S1x512x16x16x64_S1x512x1x16x64_0_0_2_0_0 : S1x512x16x16x64.Slices ![0, 0, 2, 0, 0] S1x512x1x16x64
  slices_S1x512x16x16x64_S1x512x1x16x64_0_0_3_0_0 : S1x512x16x16x64.Slices ![0, 0, 3, 0, 0] S1x512x1x16x64
  slices_S1x512x16x16x64_S1x512x1x16x64_0_0_4_0_0 : S1x512x16x16x64.Slices ![0, 0, 4, 0, 0] S1x512x1x16x64
  slices_S1x512x16x16x64_S1x512x1x16x64_0_0_5_0_0 : S1x512x16x16x64.Slices ![0, 0, 5, 0, 0] S1x512x1x16x64
  slices_S1x512x16x16x64_S1x512x1x16x64_0_0_6_0_0 : S1x512x16x16x64.Slices ![0, 0, 6, 0, 0] S1x512x1x16x64
  slices_S1x512x16x16x64_S1x512x1x16x64_0_0_7_0_0 : S1x512x16x16x64.Slices ![0, 0, 7, 0, 0] S1x512x1x16x64
  slices_S1x512x16x16x64_S1x512x1x16x64_0_0_8_0_0 : S1x512x16x16x64.Slices ![0, 0, 8, 0, 0] S1x512x1x16x64
  slices_S1x512x16x16x64_S1x512x1x16x64_0_0_9_0_0 : S1x512x16x16x64.Slices ![0, 0, 9, 0, 0] S1x512x1x16x64
  slices_S1x512x16x16x64_S1x512x1x16x64_0_0_10_0_0 : S1x512x16x16x64.Slices ![0, 0, 10, 0, 0] S1x512x1x16x64
  slices_S1x512x16x16x64_S1x512x1x16x64_0_0_11_0_0 : S1x512x16x16x64.Slices ![0, 0, 11, 0, 0] S1x512x1x16x64
  slices_S1x512x16x16x64_S1x512x1x16x64_0_0_12_0_0 : S1x512x16x16x64.Slices ![0, 0, 12, 0, 0] S1x512x1x16x64
  slices_S1x512x16x16x64_S1x512x1x16x64_0_0_13_0_0 : S1x512x16x16x64.Slices ![0, 0, 13, 0, 0] S1x512x1x16x64
  slices_S1x512x16x16x64_S1x512x1x16x64_0_0_14_0_0 : S1x512x16x16x64.Slices ![0, 0, 14, 0, 0] S1x512x1x16x64
  slices_S1x512x16x16x64_S1x512x1x16x64_0_0_15_0_0 : S1x512x16x16x64.Slices ![0, 0, 15, 0, 0] S1x512x1x16x64
  shapeCasts_S1x512x16x16x64_S1x8192x1024 : S1x512x16x16x64.ShapeCasts S1x8192x1024
  gather_S1x8192x1024_S8192x1_S1x8192x1024_02_1_n_n_1_1_111024_wf : GatherDims.WF S1x8192x1024 S8192x1 S1x8192x1024 [0, 2] [1] [] [1] [] 1 ![1, 1, 1024]
  scatter_S1x8192x1024_S8192x1_S1x8192x1024_02_1_1_1_wf : ScatterDims.WF S1x8192x1024 S8192x1 S1x8192x1024 [0, 2] [1] [1] 1

variable [Facts₀]

def gather_S1x8192x1024_S8192x1_S1x8192x1024_02_1_n_n_1_1_111024 : GatherDims S1x8192x1024 S8192x1 S1x8192x1024 where
  offsetDims := [0, 2]
  collapsedSliceDims := [1]
  operandBatchingDims := []
  startIndicesBatchingDims := []
  startIndexMap := [1]
  indexVectorDim := 1
  sliceSizes := ![1, 1, 1024]
  wf := gather_S1x8192x1024_S8192x1_S1x8192x1024_02_1_n_n_1_1_111024_wf
def scatter_S1x8192x1024_S8192x1_S1x8192x1024_02_1_1_1 : ScatterDims S1x8192x1024 S8192x1 S1x8192x1024 where
  updateWindowDims := [0, 2]
  insertedWindowDims := [1]
  scatterDimsToOperandDims := [1]
  indexVectorDim := 1
  wf := scatter_S1x8192x1024_S8192x1_S1x8192x1024_02_1_1_1_wf

class Facts : Prop extends Facts₀ where

variable [Facts]
-- ==== Proof.KChainBits.lean ====
import proofs.«105576_g23433341567538_cont_8to1_1409_2_alg».proof.Proof.Gen.Kernel.Skeleton

noncomputable section

namespace Cert.Kernel.Hand

open Cert.Kernel Cert.Kernel.Gen Idealize.ShloMosaic

variable {F : FTy → Type} [FloatOps F]

structure Tail (F : FTy → Type) [FloatOps F] where
  v689 : FVec F S512x16x128 .f32
  v694 : FVec F S512x16x128 .f32
  v695 : FVec F S512x1x128 .f32
  v699 : FVec F S512x1x128 .f32
  v701 : FVec F S4x1x128 .f32
  v702 : FVec F S508x1x128 .f32

def tail (v0 v3 : Vec F S8192x128 .f32) (v130 : Vec F S1x128x4 .f32) : Tail F :=
  have v2 := k0_pay2 v0
  have v5 := k0_pay3 v3
  have v67 := k0_pay17 v2 (k0_pay4 v0) (k0_pay5 v0) (k0_pay6 v0) (k0_pay7 v0) (k0_pay8 v0) (k0_pay9 v0) (k0_pay10 v0)
    (k0_pay11 v0) (k0_pay12 v0) (k0_pay13 v0) (k0_pay14 v0) (k0_pay15 v0) (k0_pay16 v0)
  have v131 := k0_pay32 v130
  have v134 : IVec S512x16x128 1 := k0_pay33
  have v164 := k0_pay34 v5 v67 (k0_pay18 v5) (k0_pay19 v5) (k0_pay20 v5) (k0_pay21 v5) (k0_pay22 v5) (k0_pay23 v5) (k0_pay24 v5)
    (k0_pay25 v5) (k0_pay26 v5) (k0_pay27 v5) (k0_pay28 v5) (k0_pay29 v5) (k0_pay30 v5) (k0_pay31 v5) v130
  have v199 := k0_pay36 v67 v131 v134 v164
  have v204 := k0_pay37 v67 v131 v134 v164
  have v211 := k0_pay38 v67 v131 v134 v164
  have v213 := k0_pay39 v67 v131 v134 v164
  have v234 := k0_pay40 v134 v199 v204 v211 v213
  have v239 := k0_pay41 v134 v199 v204 v211 v213
  have v261 := k0_pay42 v131 v134 v199 v204 v211 v213
  have v262 : FVec F S512x16x128 .f32 := k0_pay43
  have v304 := k0_pay46 v131 v134 v234 v239 v261 v262
  have v309 := k0_pay47 v131 v134 v234 v239 v261 v262
  have v310 := k0_pay48 v131 v134 v234 v239 v261 v262
  have v339 := k0_pay49 v131 v134 v304 v309 v310
  have v344 := k0_pay50 v131 v134 v304 v309 v310
  have v358 := k0_pay51 v131 v134 v304 v309 v310
  have v359 := k0_pay52 v131 v134 v304 v309 v310
  have v360 : FVec F S512x16x128 .f32 := k0_pay53
  have v379 := k0_pay55 v339 v344 v358 v359 v360
  have v406 := k0_pay56 v339 v344 v358 v359 v360
  have v408 := k0_pay57 v131 v134 v339 v344 v358 v359 v360
  have v444 := k0_pay60 v131 v134 v379 v406 v408
  have v449 := k0_pay61 v131 v134 v379 v406 v408
  have v456 := k0_pay62 v131 v134 v379 v406 v408
  have v457 := k0_pay63 v131 v134 v379 v406 v408
  have cst_88 : F .f32 := Scalar.ofBits .f32 0x3C23D70A#32
  have v479 := k0_pay64 v134 v444 v449 v456 v457
  have v484 := k0_pay65 v134 v444 v449 v456 v457
  have v506 := k0_pay66 v131 v134 v444 v449 v456 v457
  have v549 := k0_pay69 v131 v134 v479 v484 v506 cst_88
  have v554 := k0_pay70 v131 v134 v479 v484 v506 cst_88
  have cst_110 : F .f32 := Scalar.ofBits .f32 0x3F000000#32
  have v584 := k0_pay71 v131 v134 v549 v554
  have v589 := k0_pay72 v131 v134 v549 v554
  have v603 := k0_pay73 v131 v134 v549 v554
  have v604 := k0_pay74 v131 v134 v549 v554
  have v624 := k0_pay76 v584 v589 v603 v604 cst_110
  have v649 := k0_pay77 v131 v134 v584 v589 v603 v604 cst_110
  have v651 := k0_pay78 v584 v589 v603 v604 cst_110
  have v652 : FVec F S512x16x128 .f32 := k0_pay79
  { v689 := k0_pay82 v131 v134 v624 v649 v651 v652
    v694 := k0_pay83 v131 v134 v624 v649 v651 v652
    v695 := k0_pay84 v131 v134 v624 v649 v651 v652
    v699 := k0_pay85 v131 v134 v624 v649 v651 v652
    v701 := k0_pay87 v131 v134 v624 v649 v651 v652
    v702 := k0_pay88 v131 v134 v624 v649 v651 v652 }

def storedI (v0 v3 : Vec F S8192x128 .f32) (v130 : Vec F S1x128x4 .f32) : FVec F S8192x128 .f32 :=
  k0_pay89 (tail v0 v3 v130).v694 (tail v0 v3 v130).v695 (tail v0 v3 v130).v699 (tail v0 v3 v130).v701 (tail v0 v3 v130).v702

def storedA (v0 v3 : Vec F S8192x128 .f32) (v130 : Vec F S1x128x4 .f32) : FVec F S8192x128 .f32 :=
  have v689 := (tail v0 v3 v130).v689
  k0_pay1 (k0_pay90 v689) (k0_pay91 v689) (k0_pay92 v689) (k0_pay93 v689) (k0_pay94 v689) (k0_pay95 v689) (k0_pay96 v689)
    (k0_pay97 v689) (k0_pay98 v689) (k0_pay99 v689) (k0_pay100 v689) (k0_pay101 v689) (k0_pay102 v689) (k0_pay103 v689)
    (k0_pay104 v689) (k0_pay105 v689)

end Cert.Kernel.Hand

end
-- ==== Proof.KFrameBits.lean ====
import proofs.«105576_g23433341567538_cont_8to1_1409_2_alg».proof.Proof.Gen.Kernel.Launch
import proofs.«105576_g23433341567538_cont_8to1_1409_2_alg».proof.Proof.Gen.Kernel.Skeleton
import proofs.«105576_g23433341567538_cont_8to1_1409_2_alg».proof.Proof.Gen.Kernel.Points
import proofs.«105576_g23433341567538_cont_8to1_1409_2_alg».proof.Proof.KChainBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- An argument of @main is written by no host operation and is no array of the region: it ends as launched. -/
theorem W_arg (dats : (p : Fin _) → (c : Dev nD) → Dat τ (Elt F) Unit ℕ (UR sig nD τ) ℕ (cfgs p) c) (c : Dev nD)
    {r : Ref sig .tc} (hr : r = main_arg0 ∨ r = main_arg1 ∨ r = main_arg2) :
    Pipeline.afterTail₀ cfgs dats 0 (V0 m) [hostOps1] c r = m ((c : Thread nD τ).loc r) := by
  unfold Pipeline.afterTail₀
  rcases hr with rfl | rfl | rfl <;>
  · refine (StableHlo.after_of_forall_not_mem _ _ (List.forall_iff_forall_mem.mp ?_)).trans
      ((Pipeline.withArrays_of_ne _ c (V0 m c) _ _ (by decide)).trans
        (StableHlo.after_of_forall_not_mem _ _ (List.forall_iff_forall_mem.mp ?_)))
    all_goals
      simp only [hostOps0, hostOps1, List.flatten_cons, List.flatten_nil, List.append_nil, List.cons_append, List.nil_append,
        List.Forall, StableHlo.nullary_writes, StableHlo.unary_writes, StableHlo.binary_writes, StableHlo.reshape_writes,
        StableHlo.nary_writes, Finset.mem_singleton]
      repeat' apply And.intro
      all_goals exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_arg m dats c (.inl rfl))),
      (((h c).2 main_arg1 (Pipeline.mem_restRefs_of main_arg1 (by decide) (by decide))).trans (W_arg m dats c (.inr (.inl rfl)))),
      (((h c).2 main_arg2 (Pipeline.mem_restRefs_of main_arg2 (by decide) (by decide))).trans (W_arg m dats c (.inr (.inr rfl))))⟩) h

abbrev r0 : Rect S8192x128 := Rect.unit (s := S8192x128) ![0, 0] S8192x128.size inb_S8192x128_S8192x128_0_0

abbrev r2 : Rect S1x128x4 := Rect.unit (s := S1x128x4) ![0, 0, 0] S1x128x4.size inb_S1x128x4_S1x128x4_0_0_0

def out0_3 (x0 x1 : Vec F S8192x128 .f32) (x2 : Vec F S1x128x4 .f32) : Vec F S8192x128 .f32 :=
  View.canon [⟨r0, storedI (View.ld x0 r0) (View.ld x1 r0) (View.ld x2 r2)⟩]

def out0_4 (x0 x1 : Vec F S8192x128 .f32) (x2 : Vec F S1x128x4 .f32) : Vec F S8192x128 .f32 :=
  View.canon [⟨r0, storedA (View.ld x0 r0) (View.ld x1 r0) (View.ld x2 r2)⟩]

theorem cover0_3 (p0 : Vec F S8192x128 .f32) (y : S8192x128.Idx) :
    ∃ pc ∈ ([⟨r0, p0⟩] : List (View.Piece (Elt F) S8192x128 .f32)), y ∈ pc.1.set :=
  View.cover_of_tiled [⟨r0, p0⟩] S8192x128.size (by rfl) y
theorem cover0_4 (p0 : Vec F S8192x128 .f32) (y : S8192x128.Idx) :
    ∃ pc ∈ ([⟨r0, p0⟩] : List (View.Piece (Elt F) S8192x128 .f32)), y ∈ pc.1.set :=
  View.cover_of_tiled [⟨r0, p0⟩] S8192x128.size (by rfl) y

set_option maxHeartbeats 4000000 in

theorem sound_kernel (c : Dev nD) (E : Set ℕ) (i : grid0.Coords) (arg1 : Memref sig .tc .vmem S8192x128 .f32) (harg1 : arg1.IsWhole) (arg2 : Memref sig .tc .vmem S8192x128 .f32) (harg2 : arg2.IsWhole) (arg3 : Memref sig .tc .vmem S1x128x4 .f32) (harg3 : arg3.IsWhole) (arg4 : Memref sig .tc .vmem S8192x128 .f32) (harg4 : arg4.IsWhole) (arg5 : Memref sig .tc .vmem S8192x128 .f32) (harg5 : arg5.IsWhole)
    (x0 : Vec F S8192x128 .f32) (x1 : Vec F S8192x128 .f32) (x2 : Vec F S1x128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__ncn_block i arg1 harg1 arg2 harg2 arg3 harg3 arg4 harg4 arg5 harg5) K := by
  simp only [cc0__ncn_block_eq_skeleton]; unfold cc0__ncn_block_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KChainIdeal.lean ====
import proofs.«105576_g23433341567538_cont_8to1_1409_2_alg».proof.Proof.Gen.KernelIdeal.Skeleton

noncomputable section

namespace Cert.KernelIdeal.Hand

open Cert.KernelIdeal Cert.KernelIdeal.Gen Idealize.ShloMosaic

variable {F : FTy → Type} [FloatOps F]

structure Tail (F : FTy → Type) [FloatOps F] where
  v689 : FVec F S512x16x128 .f32
  v694 : FVec F S512x16x128 .f32
  v695 : FVec F S512x1x128 .f32
  v699 : FVec F S512x1x128 .f32
  v701 : FVec F S4x1x128 .f32
  v702 : FVec F S508x1x128 .f32

def tail (v0 v3 : Vec F S8192x128 .f32) (v130 : Vec F S1x128x4 .f32) : Tail F :=
  have v2 := k0_pay2 v0
  have v5 := k0_pay3 v3
  have v67 := k0_pay17 v2 (k0_pay4 v0) (k0_pay5 v0) (k0_pay6 v0) (k0_pay7 v0) (k0_pay8 v0) (k0_pay9 v0) (k0_pay10 v0)
    (k0_pay11 v0) (k0_pay12 v0) (k0_pay13 v0) (k0_pay14 v0) (k0_pay15 v0) (k0_pay16 v0)
  have v131 := k0_pay32 v130
  have v134 : IVec S512x16x128 1 := k0_pay33
  have v164 := k0_pay34 v5 v67 (k0_pay18 v5) (k0_pay19 v5) (k0_pay20 v5) (k0_pay21 v5) (k0_pay22 v5) (k0_pay23 v5) (k0_pay24 v5)
    (k0_pay25 v5) (k0_pay26 v5) (k0_pay27 v5) (k0_pay28 v5) (k0_pay29 v5) (k0_pay30 v5) (k0_pay31 v5) v130
  have v199 := k0_pay36 v67 v131 v134 v164
  have v204 := k0_pay37 v67 v131 v134 v164
  have v211 := k0_pay38 v67 v131 v134 v164
  have v213 := k0_pay39 v67 v131 v134 v164
  have v234 := k0_pay40 v134 v199 v204 v211 v213
  have v239 := k0_pay41 v134 v199 v204 v211 v213
  have v261 := k0_pay42 v131 v134 v199 v204 v211 v213
  have v262 : FVec F S512x16x128 .f32 := k0_pay43
  have v304 := k0_pay46 v131 v134 v234 v239 v261 v262
  have v309 := k0_pay47 v131 v134 v234 v239 v261 v262
  have v310 := k0_pay48 v131 v134 v234 v239 v261 v262
  have v339 := k0_pay49 v131 v134 v304 v309 v310
  have v344 := k0_pay50 v131 v134 v304 v309 v310
  have v358 := k0_pay51 v131 v134 v304 v309 v310
  have v359 := k0_pay52 v131 v134 v304 v309 v310
  have v360 : FVec F S512x16x128 .f32 := k0_pay53
  have v379 := k0_pay55 v339 v344 v358 v359 v360
  have v406 := k0_pay56 v339 v344 v358 v359 v360
  have v408 := k0_pay57 v131 v134 v339 v344 v358 v359 v360
  have v444 := k0_pay60 v131 v134 v379 v406 v408
  have v449 := k0_pay61 v131 v134 v379 v406 v408
  have v456 := k0_pay62 v131 v134 v379 v406 v408
  have v457 := k0_pay63 v131 v134 v379 v406 v408
  have cst_88 : F .f32 := Scalar.ofBits .f32 0x3C23D70A#32
  have v479 := k0_pay64 v134 v444 v449 v456 v457
  have v484 := k0_pay65 v134 v444 v449 v456 v457
  have v506 := k0_pay66 v131 v134 v444 v449 v456 v457
  have v549 := k0_pay69 v131 v134 v479 v484 v506 cst_88
  have v554 := k0_pay70 v131 v134 v479 v484 v506 cst_88
  have cst_110 : F .f32 := Scalar.ofBits .f32 0x3F000000#32
  have v584 := k0_pay71 v131 v134 v549 v554
  have v589 := k0_pay72 v131 v134 v549 v554
  have v603 := k0_pay73 v131 v134 v549 v554
  have v604 := k0_pay74 v131 v134 v549 v554
  have v624 := k0_pay76 v584 v589 v603 v604 cst_110
  have v649 := k0_pay77 v131 v134 v584 v589 v603 v604 cst_110
  have v651 := k0_pay78 v584 v589 v603 v604 cst_110
  have v652 : FVec F S512x16x128 .f32 := k0_pay79
  { v689 := k0_pay82 v131 v134 v624 v649 v651 v652
    v694 := k0_pay83 v131 v134 v624 v649 v651 v652
    v695 := k0_pay84 v131 v134 v624 v649 v651 v652
    v699 := k0_pay85 v131 v134 v624 v649 v651 v652
    v701 := k0_pay87 v131 v134 v624 v649 v651 v652
    v702 := k0_pay88 v131 v134 v624 v649 v651 v652 }

def storedI (v0 v3 : Vec F S8192x128 .f32) (v130 : Vec F S1x128x4 .f32) : FVec F S8192x128 .f32 :=
  k0_pay89 (tail v0 v3 v130).v694 (tail v0 v3 v130).v695 (tail v0 v3 v130).v699 (tail v0 v3 v130).v701 (tail v0 v3 v130).v702

def storedA (v0 v3 : Vec F S8192x128 .f32) (v130 : Vec F S1x128x4 .f32) : FVec F S8192x128 .f32 :=
  have v689 := (tail v0 v3 v130).v689
  k0_pay1 (k0_pay90 v689) (k0_pay91 v689) (k0_pay92 v689) (k0_pay93 v689) (k0_pay94 v689) (k0_pay95 v689) (k0_pay96 v689)
    (k0_pay97 v689) (k0_pay98 v689) (k0_pay99 v689) (k0_pay100 v689) (k0_pay101 v689) (k0_pay102 v689) (k0_pay103 v689)
    (k0_pay104 v689) (k0_pay105 v689)

end Cert.KernelIdeal.Hand

end
-- ==== Proof.KFrameIdeal.lean ====
import proofs.«105576_g23433341567538_cont_8to1_1409_2_alg».proof.Proof.Gen.KernelIdeal.Launch
import proofs.«105576_g23433341567538_cont_8to1_1409_2_alg».proof.Proof.Gen.KernelIdeal.Skeleton
import proofs.«105576_g23433341567538_cont_8to1_1409_2_alg».proof.Proof.Gen.KernelIdeal.Points
import proofs.«105576_g23433341567538_cont_8to1_1409_2_alg».proof.Proof.KChainIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- An argument of @main is written by no host operation and is no array of the region: it ends as launched. -/
theorem W_arg (dats : (p : Fin _) → (c : Dev nD) → Dat τ (Elt F) Unit ℕ (UR sig nD τ) ℕ (cfgs p) c) (c : Dev nD)
    {r : Ref sig .tc} (hr : r = main_arg0 ∨ r = main_arg1 ∨ r = main_arg2) :
    Pipeline.afterTail₀ cfgs dats 0 (V0 m) [hostOps1] c r = m ((c : Thread nD τ).loc r) := by
  unfold Pipeline.afterTail₀
  rcases hr with rfl | rfl | rfl <;>
  · refine (StableHlo.after_of_forall_not_mem _ _ (List.forall_iff_forall_mem.mp ?_)).trans
      ((Pipeline.withArrays_of_ne _ c (V0 m c) _ _ (by decide)).trans
        (StableHlo.after_of_forall_not_mem _ _ (List.forall_iff_forall_mem.mp ?_)))
    all_goals
      simp only [hostOps0, hostOps1, List.flatten_cons, List.flatten_nil, List.append_nil, List.cons_append, List.nil_append,
        List.Forall, StableHlo.nullary_writes, StableHlo.unary_writes, StableHlo.binary_writes, StableHlo.reshape_writes,
        StableHlo.nary_writes, Finset.mem_singleton]
      repeat' apply And.intro
      all_goals exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_arg m dats c (.inl rfl))),
      (((h c).2 main_arg1 (Pipeline.mem_restRefs_of main_arg1 (by decide) (by decide))).trans (W_arg m dats c (.inr (.inl rfl)))),
      (((h c).2 main_arg2 (Pipeline.mem_restRefs_of main_arg2 (by decide) (by decide))).trans (W_arg m dats c (.inr (.inr rfl))))⟩) h

abbrev r0 : Rect S8192x128 := Rect.unit (s := S8192x128) ![0, 0] S8192x128.size inb_S8192x128_S8192x128_0_0

abbrev r2 : Rect S1x128x4 := Rect.unit (s := S1x128x4) ![0, 0, 0] S1x128x4.size inb_S1x128x4_S1x128x4_0_0_0

def out0_3 (x0 x1 : Vec F S8192x128 .f32) (x2 : Vec F S1x128x4 .f32) : Vec F S8192x128 .f32 :=
  View.canon [⟨r0, storedI (View.ld x0 r0) (View.ld x1 r0) (View.ld x2 r2)⟩]

def out0_4 (x0 x1 : Vec F S8192x128 .f32) (x2 : Vec F S1x128x4 .f32) : Vec F S8192x128 .f32 :=
  View.canon [⟨r0, storedA (View.ld x0 r0) (View.ld x1 r0) (View.ld x2 r2)⟩]

theorem cover0_3 (p0 : Vec F S8192x128 .f32) (y : S8192x128.Idx) :
    ∃ pc ∈ ([⟨r0, p0⟩] : List (View.Piece (Elt F) S8192x128 .f32)), y ∈ pc.1.set :=
  View.cover_of_tiled [⟨r0, p0⟩] S8192x128.size (by rfl) y
theorem cover0_4 (p0 : Vec F S8192x128 .f32) (y : S8192x128.Idx) :
    ∃ pc ∈ ([⟨r0, p0⟩] : List (View.Piece (Elt F) S8192x128 .f32)), y ∈ pc.1.set :=
  View.cover_of_tiled [⟨r0, p0⟩] S8192x128.size (by rfl) y

set_option maxHeartbeats 4000000 in

theorem sound_kernel (c : Dev nD) (E : Set ℕ) (i : grid0.Coords) (arg1 : Memref sig .tc .vmem S8192x128 .f32) (harg1 : arg1.IsWhole) (arg2 : Memref sig .tc .vmem S8192x128 .f32) (harg2 : arg2.IsWhole) (arg3 : Memref sig .tc .vmem S1x128x4 .f32) (harg3 : arg3.IsWhole) (arg4 : Memref sig .tc .vmem S8192x128 .f32) (harg4 : arg4.IsWhole) (arg5 : Memref sig .tc .vmem S8192x128 .f32) (harg5 : arg5.IsWhole)
    (x0 : Vec F S8192x128 .f32) (x1 : Vec F S8192x128 .f32) (x2 : Vec F S1x128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__ncn_block i arg1 harg1 arg2 harg2 arg3 harg3 arg4 harg4 arg5 harg5) K := by
  simp only [cc0__ncn_block_eq_skeleton]; unfold cc0__ncn_block_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
import Idealize.ShloMosaic.PureOps.Ideal

noncomputable section

namespace Cert.Ncn

open Idealize.ShloMosaic

abbrev E : Type := Ideal .f32

def cHalf : E := Ideal.ofBits .f32 0x3F000000#32
def cLeak : E := Ideal.ofBits .f32 0x3C23D70A#32
def cMom : E := Ideal.ofBits .f32 0x3F666666#32
def cTenth : E := Ideal.ofBits .f32 0x3DCCCCCD#32

abbrev St : Type := Fin 512 → Fin 16 → Fin 1024 → E

def hcol (h : Fin 16) (d : Fin 64) : Fin 1024 := ⟨h.val * 64 + d.val, by omega⟩

def headOf (col : Fin 1024) : Fin 16 := ⟨col.val / 64, by omega⟩

def wi (W : Fin 2048 → E) (col : Fin 1024) : E := W ⟨col.val, by omega⟩
def wj (W : Fin 2048 → E) (col : Fin 1024) : E := W ⟨1024 + col.val, by omega⟩

def rowOf (g : Fin 512) (j : Fin 16) : Fin 8192 := ⟨((g.val + 2 * j.val) % 512) * 16 + j.val, by omega⟩

def groupOf (r : Fin 8192) : Fin 512 := ⟨(r.val / 16 + 512 - 2 * (r.val % 16)) % 512, by omega⟩
def slotOf (r : Fin 8192) : Fin 16 := ⟨r.val % 16, by omega⟩

theorem rowOf_groupOf (r : Fin 8192) : rowOf (groupOf r) (slotOf r) = r := by
  apply Fin.ext; simp only [rowOf, groupOf, slotOf]; omega

theorem groupOf_rowOf (g : Fin 512) (j : Fin 16) : groupOf (rowOf g j) = g := by
  apply Fin.ext
  have hg := g.isLt
  have hj := j.isLt
  have h1 : (((g.val + 2 * j.val) % 512) * 16 + j.val) / 16 = (g.val + 2 * j.val) % 512 := by omega
  have h2 : (((g.val + 2 * j.val) % 512) * 16 + j.val) % 16 = j.val := by omega
  simp only [rowOf, groupOf]
  rw [h1, h2]; omega

theorem slotOf_rowOf (g : Fin 512) (j : Fin 16) : slotOf (rowOf g j) = j := by
  apply Fin.ext; simp only [rowOf, slotOf]; omega

def sim (W : Fin 2048 → E) (Z : St) (k : Fin 16) (g : Fin 512) (j : Fin 16) (h : Fin 16) : E :=
  (∑ d : Fin 64, Z g j (hcol h d) * wi W (hcol h d)) + (∑ d : Fin 64, Z g k (hcol h d) * wj W (hcol h d))

def leaky (T : E) : E := max T (cLeak * T)

def stepA (W : Fin 2048 → E) (k : Fin 16) (Z ZA : St) : St := fun g j col =>
  cMom * ZA g j col + cTenth * leaky (cHalf * Z g j col + (cHalf * sim W Z k g j (headOf col)) * Z g k col)

def stepZ (W : Fin 2048 → E) (k : Fin 16) (Z ZA : St) : St := fun g j col =>
  cMom * Z g j col + cTenth * stepA W k Z ZA g j col

def iter (W : Fin 2048 → E) : Nat → St × St → St × St
  | 0, s => s
  | n + 1, s => (stepZ W ⟨n % 16, Nat.mod_lt _ (by decide)⟩ (iter W n s).1 (iter W n s).2,
                 stepA W ⟨n % 16, Nat.mod_lt _ (by decide)⟩ (iter W n s).1 (iter W n s).2)

def gat (X : Fin 8192 → Fin 1024 → E) : St := fun g j col => X (rowOf g j) col

def sct (Z : St) : Fin 8192 → Fin 1024 → E := fun r col => Z (groupOf r) (slotOf r) col

def outI (X XA : Fin 8192 → Fin 1024 → E) (W : Fin 2048 → E) : Fin 8192 → Fin 1024 → E :=
  sct (iter W 16 (gat X, gat XA)).1
def outA (X XA : Fin 8192 → Fin 1024 → E) (W : Fin 2048 → E) : Fin 8192 → Fin 1024 → E :=
  sct (iter W 16 (gat X, gat XA)).2

end Cert.Ncn

end
-- ==== Proof.Glue.lean ====
import proofs.«105576_g23433341567538_cont_8to1_1409_2_alg».proof.Proof.Spec
import Idealize.ShloMosaic.Lib.ValueIdx

noncomputable section

namespace Cert.Ncn

open Idealize.ShloMosaic Idealize.ShloMosaic.ValueIdx

def mat (X : FVec Ideal (⟨3, ![1, 8192, 1024]⟩ : Shape) .f32) : Fin 8192 → Fin 1024 → E :=
  fun r col => X (ix3 (0 : Fin 1) r col)

def vec (Wv : FVec Ideal (⟨1, ![2048]⟩ : Shape) .f32) : Fin 2048 → E := fun i => Wv (ix1 i)

def resI (X XA : FVec Ideal (⟨3, ![1, 8192, 1024]⟩ : Shape) .f32) (Wv : FVec Ideal (⟨1, ![2048]⟩ : Shape) .f32) :
    FVec Ideal (⟨3, ![1, 8192, 1024]⟩ : Shape) .f32 :=
  fun i => outI (mat X) (mat XA) (vec Wv) (i 1) (i 2)

def resA (X XA : FVec Ideal (⟨3, ![1, 8192, 1024]⟩ : Shape) .f32) (Wv : FVec Ideal (⟨1, ![2048]⟩ : Shape) .f32) :
    FVec Ideal (⟨3, ![1, 8192, 1024]⟩ : Shape) .f32 :=
  fun i => outA (mat X) (mat XA) (vec Wv) (i 1) (i 2)

def st5 (Y : FVec Ideal (⟨5, ![1, 512, 16, 16, 64]⟩ : Shape) .f32) : St :=
  fun g j col => Y (ix5 (0 : Fin 1) g j (headOf col) ⟨col.val % 64, Nat.mod_lt _ (by decide)⟩)

def bcol (b : Fin 8) (l : Fin 128) : Fin 1024 := ⟨128 * b.val + l.val, by omega⟩

def m0 (l : Fin 128) : E := if l.val < 64 then 1 else 0
def m1 (l : Fin 128) : E := Ideal.ofBits .f32 0x3F800000#32 - m0 l

def wmBlock (W : Fin 2048 → E) (b : Fin 8) (l : Fin 128) (q : Fin 4) : E :=
  match q with
  | ⟨0, _⟩ => wi W (bcol b l) * m0 l
  | ⟨1, _⟩ => wi W (bcol b l) * m1 l
  | ⟨2, _⟩ => wj W (bcol b l) * m0 l
  | ⟨3, _⟩ => wj W (bcol b l) * m1 l

end Cert.Ncn

end
-- ==== Proof.KPrefix.lean ====
import proofs.«105576_g23433341567538_cont_8to1_1409_2_alg».proof.Proof.Gen.KernelIdeal.Launch
import proofs.«105576_g23433341567538_cont_8to1_1409_2_alg».proof.Proof.Glue
import Idealize.ShloMosaic.Lib.Pipeline.Value
import Idealize.ShloMosaic.Lib.ValueLayout
import Idealize.ShloMosaic.Lib.StableHlo.Predicate
import Idealize.ShloMosaic.Lib.StableHlo.Run

noncomputable section

namespace Cert.KernelIdeal.Hand

open Cert.KernelIdeal Cert.KernelIdeal.Gen
open Idealize.ShloMosaic Idealize.ShloMosaic.TcCoe
open Idealize.ShloMosaic.ValueIdx (ix0 ix1 ix2 ix3)
open Cert.Ncn

def maskLo : FVec Ideal S128 .f32 :=
  uitofp .f32 (cmpi .slt (iotaInDim S128 32 0) (broadcastInDim S128 ![] bcast_S_S128 (constantI S_ 32 64#32)))

def maskHi : FVec Ideal S128 .f32 :=
  subf (broadcastInDim S128 ![] bcast_S_S128 (constant (F := Ideal) S_ .f32 0x3F800000#32)) maskLo

def lanes (v : FVec Ideal S128 .f32) : FVec Ideal S8x128 .f32 :=
  broadcastInDim S8x128 ![0, 1] bcast_S1x128_S8x128_0_1 (broadcastInDim S1x128 ![1] bcast_S128_S1x128_1 v)

def halfI (Wv : FVec Ideal S2048 .f32) : FVec Ideal S8x128 .f32 :=
  shapeCast S8x128 (extractStridedSlice S1024 ![0] Wv slices_S2048_S1024_0) shapeCasts_S1024_S8x128

def halfJ (Wv : FVec Ideal S2048 .f32) : FVec Ideal S8x128 .f32 :=
  shapeCast S8x128 (extractStridedSlice S1024 ![1024] Wv slices_S2048_S1024_1024) shapeCasts_S1024_S8x128

def unitCol (v : FVec Ideal S8x128 .f32) : FVec Ideal S8x128x1 .f32 :=
  broadcastInDim S8x128x1 ![0, 1] bcast_S8x128_S8x128x1_0_1 v

def wmArr (Wv : FVec Ideal S2048 .f32) : FVec Ideal S8x128x4 .f32 :=
  concatenate S8x128x4 2
    [⟨S8x128x1, unitCol (mulf (halfI Wv) (lanes maskLo))⟩, ⟨S8x128x1, unitCol (mulf (halfI Wv) (lanes maskHi))⟩,
     ⟨S8x128x1, unitCol (mulf (halfJ Wv) (lanes maskLo))⟩, ⟨S8x128x1, unitCol (mulf (halfJ Wv) (lanes maskHi))⟩]
    concatenates_S8x128x1_S8x128x1_S8x128x1_S8x128x1_S8x128x4_d2

variable (m : (ℓ : Loc nD τ sig) → Buf (Elt Ideal) ℓ)

theorem pre_v0 (c : Dev nD) :
    StableHlo.after (List.flatten [hostOps0 (F := Ideal)]) (fun b => m (c, b)) (Proc.devRef .tc main_v0)
      = shapeCast S8192x1024 (m ((c : Thread nD τ).loc main_arg0)) shapeCasts_S1x8192x1024_S8192x1024 := by
  simp only [hostOps0, List.flatten_cons, List.flatten_nil, List.append_nil]
  after_results
  rfl

theorem pre_v1 (c : Dev nD) :
    StableHlo.after (List.flatten [hostOps0 (F := Ideal)]) (fun b => m (c, b)) (Proc.devRef .tc main_v1)
      = shapeCast S8192x1024 (m ((c : Thread nD τ).loc main_arg1)) shapeCasts_S1x8192x1024_S8192x1024 := by
  simp only [hostOps0, List.flatten_cons, List.flatten_nil, List.append_nil]
  after_results
  rfl

theorem pre_v28 (c : Dev nD) :
    StableHlo.after (List.flatten [hostOps0 (F := Ideal)]) (fun b => m (c, b)) (Proc.devRef .tc main_v28)
      = wmArr (m ((c : Thread nD τ).loc main_arg2)) := by
  simp only [hostOps0, List.flatten_cons, List.flatten_nil, List.append_nil]
  after_results
  rfl

theorem reshaped_apply (X : FVec Ideal S1x8192x1024 .f32) (r : Fin 8192) (col : Fin 1024) :
    shapeCast S8192x1024 X shapeCasts_S1x8192x1024_S8192x1024 (ix2 r col) = mat X r col :=
  Idealize.ShloMosaic.ValueIdx.shapeCast_1ab_ab_apply X shapeCasts_S1x8192x1024_S8192x1024 r col

theorem maskLo_apply (l : Fin 128) : maskLo (ix1 l) = m0 l := by
  have hl := l.isLt
  have hc : IntOp.cmpi .slt (BitVec.ofNat 32 l.val) (BitVec.ofNat 32 64) = 1#1 ↔ l.val < 64 :=
    Idealize.ShloMosaic.StableHlo.Predicate.slt_ofNat_iff l.val 64 (by omega) (by omega)
  show (((IntOp.cmpi .slt (BitVec.ofNat 32 l.val) (BitVec.ofNat 32 64)).toNat : ℝ) : EReal) = if l.val < 64 then 1 else 0
  by_cases h : l.val < 64
  · rw [if_pos h, hc.mpr h]; simp
  · rw [if_neg h, Idealize.ShloMosaic.ValueIdx.eq_zero_of_ne_one (mt hc.mp h)]; simp

theorem maskHi_apply (l : Fin 128) : maskHi (ix1 l) = m1 l := by
  show Ideal.ofBits .f32 0x3F800000#32 - maskLo (ix1 l) = m1 l
  rw [maskLo_apply]; rfl

theorem lanes_apply (v : FVec Ideal S128 .f32) (b : Fin 8) (l : Fin 128) : lanes v (ix2 b l) = v (ix1 l) := by
  unfold lanes
  refine (broadcastInDim_apply _ bcast_S1x128_S8x128_0_1 _ (ix2 b l) (ix2 (0 : Fin 1) l) ?_).trans ?_
  · intro a
    match a with
    | ⟨0, _⟩ => rfl
    | ⟨1, _⟩ => rfl
  refine broadcastInDim_apply _ bcast_S128_S1x128_1 _ (ix2 (0 : Fin 1) l) (ix1 l) ?_
  intro a
  match a with
  | ⟨0, _⟩ => rfl

theorem halfI_apply (Wv : FVec Ideal S2048 .f32) (b : Fin 8) (l : Fin 128) : halfI Wv (ix2 b l) = wi (vec Wv) (bcol b l) := by
  have hb := b.isLt
  have hl := l.isLt
  unfold halfI
  refine (shapeCast_apply _ shapeCasts_S1024_S8x128 (ix2 b l) (ix1 (⟨128 * b.val + l.val, by omega⟩ : Fin 1024)) ?_).trans ?_
  · rw [Shape.rowMajor_val_one, Shape.rowMajor_val_two]
    show 128 * b.val + l.val = b.val * 128 + l.val
    omega
  refine extractStridedSlice_apply ![0] Wv slices_S2048_S1024_0 _ (ix1 (⟨128 * b.val + l.val, by omega⟩ : Fin 2048)) ?_
  intro a
  match a with
  | ⟨0, _⟩ => show 128 * b.val + l.val = 0 + (128 * b.val + l.val); omega

theorem halfJ_apply (Wv : FVec Ideal S2048 .f32) (b : Fin 8) (l : Fin 128) : halfJ Wv (ix2 b l) = wj (vec Wv) (bcol b l) := by
  have hb := b.isLt
  have hl := l.isLt
  unfold halfJ
  refine (shapeCast_apply _ shapeCasts_S1024_S8x128 (ix2 b l) (ix1 (⟨128 * b.val + l.val, by omega⟩ : Fin 1024)) ?_).trans ?_
  · rw [Shape.rowMajor_val_one, Shape.rowMajor_val_two]
    show 128 * b.val + l.val = b.val * 128 + l.val
    omega
  refine extractStridedSlice_apply ![1024] Wv slices_S2048_S1024_1024 _ (ix1 (⟨1024 + (128 * b.val + l.val), by omega⟩ : Fin 2048)) ?_
  intro a
  match a with
  | ⟨0, _⟩ => rfl

theorem unitCol_apply (v : FVec Ideal S8x128 .f32) (b : Fin 8) (l : Fin 128) : unitCol v (ix3 b l (0 : Fin 1)) = v (ix2 b l) := by
  unfold unitCol
  refine broadcastInDim_apply _ bcast_S8x128_S8x128x1_0_1 _ (ix3 b l (0 : Fin 1)) (ix2 b l) ?_
  intro a
  match a with
  | ⟨0, _⟩ => rfl
  | ⟨1, _⟩ => rfl

theorem sideBySide_apply (p0 p1 p2 p3 : FVec Ideal S8x128x1 .f32) (b : Fin 8) (l : Fin 128) (q : Fin 4) :
    concatenate S8x128x4 2 [⟨S8x128x1, p0⟩, ⟨S8x128x1, p1⟩, ⟨S8x128x1, p2⟩, ⟨S8x128x1, p3⟩]
        concatenates_S8x128x1_S8x128x1_S8x128x1_S8x128x1_S8x128x4_d2 (ix3 b l q)
      = (match q with | ⟨0, _⟩ => p0 | ⟨1, _⟩ => p1 | ⟨2, _⟩ => p2 | ⟨3, _⟩ => p3) (ix3 b l (0 : Fin 1)) := by
  have hoff : ∀ (a : Fin 3) (q : Fin 4), a ≠ (2 : Fin 3) → ((ix3 b l (0 : Fin 1)) a).val = ((ix3 b l q) a).val := by
    intro a q ha
    match a, ha with
    | ⟨0, _⟩, _ => rfl
    | ⟨1, _⟩, _ => rfl
    | ⟨2, _⟩, ha => exact absurd rfl ha
  match q with
  | ⟨0, _⟩ =>
    exact concatenate_apply_piece (t := S8x128x4) (a := (2 : Fin 3))
      (xs := [⟨S8x128x1, p0⟩, ⟨S8x128x1, p1⟩, ⟨S8x128x1, p2⟩, ⟨S8x128x1, p3⟩])
      (h := concatenates_S8x128x1_S8x128x1_S8x128x1_S8x128x1_S8x128x4_d2) (j := ix3 b l (0 : Fin 4))
      (k := 0) (hk := by simp) (s₁ := S8x128x1) (x₁ := p0) (hxk := rfl) (hr := rfl) (pre := 0) (hpre := rfl)
      (i := ix3 b l (0 : Fin 1)) (hi := fun a ha => hoff a 0 ha) (ha := rfl)
  | ⟨1, _⟩ =>
    exact concatenate_apply_piece (t := S8x128x4) (a := (2 : Fin 3))
      (xs := [⟨S8x128x1, p0⟩, ⟨S8x128x1, p1⟩, ⟨S8x128x1, p2⟩, ⟨S8x128x1, p3⟩])
      (h := concatenates_S8x128x1_S8x128x1_S8x128x1_S8x128x1_S8x128x4_d2) (j := ix3 b l (1 : Fin 4))
      (k := 1) (hk := by simp) (s₁ := S8x128x1) (x₁ := p1) (hxk := rfl) (hr := rfl) (pre := 1) (hpre := rfl)
      (i := ix3 b l (0 : Fin 1)) (hi := fun a ha => hoff a 1 ha) (ha := rfl)
  | ⟨2, _⟩ =>
    exact concatenate_apply_piece (t := S8x128x4) (a := (2 : Fin 3))
      (xs := [⟨S8x128x1, p0⟩, ⟨S8x128x1, p1⟩, ⟨S8x128x1, p2⟩, ⟨S8x128x1, p3⟩])
      (h := concatenates_S8x128x1_S8x128x1_S8x128x1_S8x128x1_S8x128x4_d2) (j := ix3 b l (2 : Fin 4))
      (k := 2) (hk := by simp) (s₁ := S8x128x1) (x₁ := p2) (hxk := rfl) (hr := rfl) (pre := 2) (hpre := rfl)
      (i := ix3 b l (0 : Fin 1)) (hi := fun a ha => hoff a 2 ha) (ha := rfl)
  | ⟨3, _⟩ =>
    exact concatenate_apply_piece (t := S8x128x4) (a := (2 : Fin 3))
      (xs := [⟨S8x128x1, p0⟩, ⟨S8x128x1, p1⟩, ⟨S8x128x1, p2⟩, ⟨S8x128x1, p3⟩])
      (h := concatenates_S8x128x1_S8x128x1_S8x128x1_S8x128x1_S8x128x4_d2) (j := ix3 b l (3 : Fin 4))
      (k := 3) (hk := by simp) (s₁ := S8x128x1) (x₁ := p3) (hxk := rfl) (hr := rfl) (pre := 3) (hpre := rfl)
      (i := ix3 b l (0 : Fin 1)) (hi := fun a ha => hoff a 3 ha) (ha := rfl)

theorem wmArr_apply (Wv : FVec Ideal S2048 .f32) (b : Fin 8) (l : Fin 128) (q : Fin 4) :
    wmArr Wv (ix3 b l q) = wmBlock (vec Wv) b l q := by
  unfold wmArr
  rw [sideBySide_apply]
  match q with
  | ⟨0, _⟩ =>
    show unitCol (mulf (halfI Wv) (lanes maskLo)) (ix3 b l (0 : Fin 1)) = wi (vec Wv) (bcol b l) * m0 l
    rw [unitCol_apply]
    show halfI Wv (ix2 b l) * lanes maskLo (ix2 b l) = wi (vec Wv) (bcol b l) * m0 l
    rw [halfI_apply, lanes_apply, maskLo_apply]
  | ⟨1, _⟩ =>
    show unitCol (mulf (halfI Wv) (lanes maskHi)) (ix3 b l (0 : Fin 1)) = wi (vec Wv) (bcol b l) * m1 l
    rw [unitCol_apply]
    show halfI Wv (ix2 b l) * lanes maskHi (ix2 b l) = wi (vec Wv) (bcol b l) * m1 l
    rw [halfI_apply, lanes_apply, maskHi_apply]
  | ⟨2, _⟩ =>
    show unitCol (mulf (halfJ Wv) (lanes maskLo)) (ix3 b l (0 : Fin 1)) = wj (vec Wv) (bcol b l) * m0 l
    rw [unitCol_apply]
    show halfJ Wv (ix2 b l) * lanes maskLo (ix2 b l) = wj (vec Wv) (bcol b l) * m0 l
    rw [halfJ_apply, lanes_apply, maskLo_apply]
  | ⟨3, _⟩ =>
    show unitCol (mulf (halfJ Wv) (lanes maskHi)) (ix3 b l (0 : Fin 1)) = wj (vec Wv) (bcol b l) * m1 l
    rw [unitCol_apply]
    show halfJ Wv (ix2 b l) * lanes maskHi (ix2 b l) = wj (vec Wv) (bcol b l) * m1 l
    rw [halfJ_apply, lanes_apply, maskHi_apply]

end Cert.KernelIdeal.Hand

end
-- ==== Proof.KStepIdeal.lean ====
import proofs.«105576_g23433341567538_cont_8to1_1409_2_alg».proof.Proof.Gen.KernelIdeal

noncomputable section

namespace Cert.KernelIdeal.Hand

open Cert.KernelIdeal Idealize.ShloMosaic
open Facts₀ Facts

variable {F : FTy → Type} [FloatOps F]

def laneMask : IVec S512x16x128 1 :=
  cmpi .slt (iota .tc S512x16x128 32 [2] iota_S512x16x128_d2_w32) (broadcast S512x16x128 (64#32 : BitVec 32))

abbrev splat3 (b : BitVec 32) : FVec F S512x16x128 .f32 := broadcast S512x16x128 (Scalar.ofBits .f32 b : F .f32)

def dots (wm : FVec F S128x4 .f32) (z : FVec F S512x16x128 .f32) : FVec F S512x16x4 .f32 :=
  shapeCast S512x16x4
    (matmul dot_S8192x128_S128x4_S8192x4_1_0_0_1_n_n none (shapeCast S8192x128 z shapeCasts_S512x16x128_S8192x128) wm
      (constant S8192x4 .f32 0x00000000#32))
    shapeCasts_S8192x4_S512x16x4

def simK (o2 : Fin S512x16x4.rank → Nat) (h2 : S512x16x4.Slices o2 S512x1x2)
    (wm : FVec F S128x4 .f32) (z : FVec F S512x16x128 .f32) : FVec F S512x16x2 .f32 :=
  addf (extractStridedSlice S512x16x2 ![0, 0, 0] (dots wm z) slices_S512x16x4_o0_0_0_S512x16x2)
    (broadcastTo S512x16x2 (extractStridedSlice S512x1x2 o2 (dots wm z) h2) broadcasts_S512x1x2_S512x16x2)

def simLanes (o2 : Fin S512x16x4.rank → Nat) (h2 : S512x16x4.Slices o2 S512x1x2)
    (wm : FVec F S128x4 .f32) (mask : IVec S512x16x128 1) (z : FVec F S512x16x128 .f32) : FVec F S512x16x128 .f32 :=
  select mask
    (broadcastTo S512x16x128
      (shapeCast S512x16x1 (extractStridedSlice S512x16x1 ![0, 0, 0] (simK o2 h2 wm z) slices_S512x16x2_o0_0_0_S512x16x1)
        shapeCasts_S512x16x1_S512x16x1) broadcasts_S512x16x1_S512x16x128)
    (broadcastTo S512x16x128
      (shapeCast S512x16x1 (extractStridedSlice S512x16x1 ![0, 0, 1] (simK o2 h2 wm z) slices_S512x16x2_o0_0_1_S512x16x1)
        shapeCasts_S512x16x1_S512x16x1) broadcasts_S512x16x1_S512x16x128)

def preK (o2 : Fin S512x16x4.rank → Nat) (h2 : S512x16x4.Slices o2 S512x1x2)
    (o1 : Fin S512x16x128.rank → Nat) (h1 : S512x16x128.Slices o1 S512x1x128)
    (wm : FVec F S128x4 .f32) (mask : IVec S512x16x128 1) (z : FVec F S512x16x128 .f32) : FVec F S512x16x128 .f32 :=
  addf (mulf (splat3 0x3F000000#32) z)
    (mulf (mulf (splat3 0x3F000000#32) (simLanes o2 h2 wm mask z))
      (broadcastTo S512x16x128 (extractStridedSlice S512x1x128 o1 z h1) broadcasts_S512x1x128_S512x16x128))

def kstepA (o2 : Fin S512x16x4.rank → Nat) (h2 : S512x16x4.Slices o2 S512x1x2)
    (o1 : Fin S512x16x128.rank → Nat) (h1 : S512x16x128.Slices o1 S512x1x128)
    (wm : FVec F S128x4 .f32) (mask : IVec S512x16x128 1) (z za : FVec F S512x16x128 .f32) : FVec F S512x16x128 .f32 :=
  addf (mulf (splat3 0x3F666666#32) za)
    (mulf (splat3 0x3DCCCCCD#32)
      (maximumf (preK o2 h2 o1 h1 wm mask z) (mulf (splat3 0x3C23D70A#32) (preK o2 h2 o1 h1 wm mask z))))

def kstepZ (o2 : Fin S512x16x4.rank → Nat) (h2 : S512x16x4.Slices o2 S512x1x2)
    (o1 : Fin S512x16x128.rank → Nat) (h1 : S512x16x128.Slices o1 S512x1x128)
    (wm : FVec F S128x4 .f32) (mask : IVec S512x16x128 1) (z za : FVec F S512x16x128 .f32) : FVec F S512x16x128 .f32 :=
  addf (mulf (splat3 0x3F666666#32) z) (mulf (splat3 0x3DCCCCCD#32) (kstepA o2 h2 o1 h1 wm mask z za))

end Cert.KernelIdeal.Hand

end
-- ==== Proof.KStepValue.lean ====
import proofs.«105576_g23433341567538_cont_8to1_1409_2_alg».proof.Proof.Spec
import proofs.«105576_g23433341567538_cont_8to1_1409_2_alg».proof.Proof.Glue
import proofs.«105576_g23433341567538_cont_8to1_1409_2_alg».proof.Proof.KStepIdeal
import Idealize.ShloMosaic.Lib.ValueIdx
import Idealize.ShloMosaic.Lib.Pipeline.Value
import Idealize.ShloMosaic.Lib.Affine
import Idealize.ShloMosaic.Lib.IdealHost
import Idealize.ShloMosaic.PureOps.Ideal.Laws
import Mathlib.Algebra.BigOperators.Fin

noncomputable section

open scoped BigOperators

namespace Cert.KernelIdeal.Hand

open Cert.KernelIdeal Idealize.ShloMosaic
open Facts₀ Facts
open Idealize.ShloMosaic.ValueIdx
open Cert.Ncn

theorem one_word : Ideal.ofBits .f32 0x3F800000#32 = (1 : E) := Ideal.ofBits_one_f32

theorem m0_lt (l : Fin 128) (h : l.val < 64) : m0 l = 1 := by
  unfold m0; rw [if_pos h]
theorem m0_ge (l : Fin 128) (h : ¬ l.val < 64) : m0 l = 0 := by
  unfold m0; rw [if_neg h]
theorem m1_lt (l : Fin 128) (h : l.val < 64) : m1 l = 0 := by
  unfold m1
  rw [m0_lt l h, one_word]
  show (1 : EReal) - 1 = 0
  rw [← EReal.coe_one, ← EReal.coe_sub, sub_self, EReal.coe_zero]
theorem m1_ge (l : Fin 128) (h : ¬ l.val < 64) : m1 l = 1 := by
  unfold m1
  rw [m0_ge l h, one_word]
  show (1 : EReal) - 0 = 1
  rw [sub_zero]

theorem lane_lt_word : ∀ l : Fin 128, IntOp.cmpi .slt (BitVec.ofNat 32 l.val) 64#32 = if l.val < 64 then 1#1 else 0#1 := by
  decide +kernel

theorem laneMask_apply (g : Fin 512) (j : Fin 16) (l : Fin 128) :
    laneMask (ix3 g j l) = if l.val < 64 then 1#1 else 0#1 := by
  unfold laneMask
  show IntOp.cmpi .slt (iota .tc S512x16x128 32 [2] iota_S512x16x128_d2_w32 (ix3 g j l)) 64#32 = _
  rw [iota_single_apply]
  exact lane_lt_word l

def head0 (b : Fin 8) : Fin 16 := ⟨2 * b.val, by omega⟩
def head1 (b : Fin 8) : Fin 16 := ⟨2 * b.val + 1, by omega⟩

def lo (d : Fin 64) : Fin 128 := ⟨d.val, by omega⟩
def hi (d : Fin 64) : Fin 128 := ⟨64 + d.val, by omega⟩

theorem headOf_bcol_lt (b : Fin 8) (l : Fin 128) (h : l.val < 64) : headOf (bcol b l) = head0 b := by
  apply Fin.ext
  show (128 * b.val + l.val) / 64 = 2 * b.val
  omega
theorem headOf_bcol_ge (b : Fin 8) (l : Fin 128) (h : ¬ l.val < 64) : headOf (bcol b l) = head1 b := by
  apply Fin.ext
  show (128 * b.val + l.val) / 64 = 2 * b.val + 1
  have := l.isLt
  omega
theorem bcol_lo (b : Fin 8) (d : Fin 64) : bcol b (lo d) = hcol (head0 b) d := by
  apply Fin.ext
  show 128 * b.val + d.val = 2 * b.val * 64 + d.val
  omega
theorem bcol_hi (b : Fin 8) (d : Fin 64) : bcol b (hi d) = hcol (head1 b) d := by
  apply Fin.ext
  show 128 * b.val + (64 + d.val) = (2 * b.val + 1) * 64 + d.val
  omega

theorem sum_lanes (f : Fin 128 → E) : ∑ l : Fin 128, f l = (∑ d : Fin 64, f (lo d)) + ∑ d : Fin 64, f (hi d) := by
  have h := Fin.sum_univ_add (a := 64) (b := 64) (fun i : Fin (64 + 64) => f i)
  exact h

theorem sum_mask0 (b : Fin 8) (X w : Fin 1024 → E) :
    ∑ l : Fin 128, X (bcol b l) * (w (bcol b l) * m0 l) = ∑ d : Fin 64, X (hcol (head0 b) d) * w (hcol (head0 b) d) := by
  rw [sum_lanes]
  have e1 : ∀ d : Fin 64, X (bcol b (lo d)) * (w (bcol b (lo d)) * m0 (lo d)) = X (hcol (head0 b) d) * w (hcol (head0 b) d) := by
    intro d
    rw [m0_lt (lo d) d.isLt, mul_one, bcol_lo]
  have e2 : ∀ d : Fin 64, X (bcol b (hi d)) * (w (bcol b (hi d)) * m0 (hi d)) = 0 := by
    intro d
    rw [m0_ge (hi d) (by show ¬ (64 + d.val < 64); omega), mul_zero, mul_zero]
  rw [Finset.sum_congr rfl (fun d _ => e1 d), Finset.sum_congr rfl (fun d _ => e2 d), Finset.sum_const_zero, add_zero]

theorem sum_mask1 (b : Fin 8) (X w : Fin 1024 → E) :
    ∑ l : Fin 128, X (bcol b l) * (w (bcol b l) * m1 l) = ∑ d : Fin 64, X (hcol (head1 b) d) * w (hcol (head1 b) d) := by
  rw [sum_lanes]
  have e1 : ∀ d : Fin 64, X (bcol b (lo d)) * (w (bcol b (lo d)) * m1 (lo d)) = 0 := by
    intro d
    rw [m1_lt (lo d) d.isLt, mul_zero, mul_zero]
  have e2 : ∀ d : Fin 64, X (bcol b (hi d)) * (w (bcol b (hi d)) * m1 (hi d)) = X (hcol (head1 b) d) * w (hcol (head1 b) d) := by
    intro d
    rw [m1_ge (hi d) (by show ¬ (64 + d.val < 64); omega), mul_one, bcol_hi]
  rw [Finset.sum_congr rfl (fun d _ => e1 d), Finset.sum_congr rfl (fun d _ => e2 d), Finset.sum_const_zero, zero_add]

theorem lhs_dots_0 (i : S8192x4.Idx) (q : dot_S8192x128_S128x4_S8192x4_1_0_0_1_n_n.contr.Idx) :
    (dot_S8192x128_S128x4_S8192x4_1_0_0_1_n_n.lhsIdx i q 0).val = (i 0).val := by
  unfold DotDims.lhsIdx
  rw [dif_neg (show ¬(0 : Fin S8192x128.rank) ∈ dot_S8192x128_S128x4_S8192x4_1_0_0_1_n_n.lhsBatch by decide),
    dif_pos (show (0 : Fin S8192x128.rank) ∈ dot_S8192x128_S128x4_S8192x4_1_0_0_1_n_n.lhsNonContracting by decide)]
  rfl
theorem lhs_dots_1 (i : S8192x4.Idx) (q : dot_S8192x128_S128x4_S8192x4_1_0_0_1_n_n.contr.Idx) :
    (dot_S8192x128_S128x4_S8192x4_1_0_0_1_n_n.lhsIdx i q 1).val = (q ⟨0, by decide⟩).val :=
  dot_S8192x128_S128x4_S8192x4_1_0_0_1_n_n.lhsIdx_val_of_single rfl i q
theorem rhs_dots_0 (i : S8192x4.Idx) (q : dot_S8192x128_S128x4_S8192x4_1_0_0_1_n_n.contr.Idx) :
    (dot_S8192x128_S128x4_S8192x4_1_0_0_1_n_n.rhsIdx i q 0).val = (q ⟨0, by decide⟩).val :=
  dot_S8192x128_S128x4_S8192x4_1_0_0_1_n_n.rhsIdx_val_of_single rfl i q
theorem rhs_dots_1 (i : S8192x4.Idx) (q : dot_S8192x128_S128x4_S8192x4_1_0_0_1_n_n.contr.Idx) :
    (dot_S8192x128_S128x4_S8192x4_1_0_0_1_n_n.rhsIdx i q 1).val = (i 1).val := by
  unfold DotDims.rhsIdx
  rw [dif_neg (show ¬(1 : Fin S128x4.rank) ∈ dot_S8192x128_S128x4_S8192x4_1_0_0_1_n_n.rhsBatch by decide),
    dif_pos (show (1 : Fin S128x4.rank) ∈ dot_S8192x128_S128x4_S8192x4_1_0_0_1_n_n.rhsNonContracting by decide)]
  rfl

def rowIx (g : Fin 512) (j : Fin 16) : Fin 8192 := ⟨g.val * 16 + j.val, by omega⟩

theorem rows_apply (z : FVec Ideal S512x16x128 .f32) (g : Fin 512) (j : Fin 16) (l : Fin 128) :
    shapeCast S8192x128 z shapeCasts_S512x16x128_S8192x128 (ix2 (rowIx g j) l) = z (ix3 g j l) := by
  refine shapeCast_apply z _ (ix2 (rowIx g j) l) (ix3 g j l) ?_
  rw [Shape.rowMajor_val_three, Shape.rowMajor_val_two]
  rfl

theorem matmul_rows_apply (x : FVec Ideal S8192x128 .f32) (wm : FVec Ideal S128x4 .f32) (r : Fin 8192) (q : Fin 4) :
    matmul (F := Ideal) dot_S8192x128_S128x4_S8192x4_1_0_0_1_n_n none x wm (constant S8192x4 .f32 0x00000000#32) (ix2 r q)
      = ∑ l : Fin 128, x (ix2 r l) * wm (ix2 l q) := by
  show FloatOps.matmul dot_S8192x128_S128x4_S8192x4_1_0_0_1_n_n none x wm (constant S8192x4 .f32 0x00000000#32) (ix2 r q) = _
  rw [Ideal.matmul_constant_zero_apply, ← Equiv.sum_comp (contrEquiv1 dot_S8192x128_S128x4_S8192x4_1_0_0_1_n_n 128 rfl rfl).symm]
  refine Finset.sum_congr rfl fun l _ => ?_
  have hk := contrEquiv1_symm_val dot_S8192x128_S128x4_S8192x4_1_0_0_1_n_n 128 rfl rfl l
  have el : dot_S8192x128_S128x4_S8192x4_1_0_0_1_n_n.lhsIdx (ix2 r q) ((contrEquiv1 dot_S8192x128_S128x4_S8192x4_1_0_0_1_n_n 128 rfl rfl).symm l) = ix2 r l :=
    funext fun a => Fin.ext (by
      match a with
      | ⟨0, _⟩ => exact lhs_dots_0 _ _
      | ⟨1, _⟩ => exact (lhs_dots_1 _ _).trans hk)
  have er : dot_S8192x128_S128x4_S8192x4_1_0_0_1_n_n.rhsIdx (ix2 r q) ((contrEquiv1 dot_S8192x128_S128x4_S8192x4_1_0_0_1_n_n 128 rfl rfl).symm l) = ix2 l q :=
    funext fun a => Fin.ext (by
      match a with
      | ⟨0, _⟩ => exact (rhs_dots_0 _ _).trans hk
      | ⟨1, _⟩ => exact rhs_dots_1 _ _)
  rw [el, er]

theorem dots_apply (wm : FVec Ideal S128x4 .f32) (z : FVec Ideal S512x16x128 .f32) (g : Fin 512) (j : Fin 16) (q : Fin 4) :
    dots (F := Ideal) wm z (ix3 g j q) = ∑ l : Fin 128, z (ix3 g j l) * wm (ix2 l q) := by
  unfold dots
  rw [shapeCast_apply _ shapeCasts_S8192x4_S512x16x4 (ix3 g j q) (ix2 (rowIx g j) q)
    (by rw [Shape.rowMajor_val_two, Shape.rowMajor_val_three]; rfl)]
  rw [matmul_rows_apply]
  exact Finset.sum_congr rfl fun l _ => by rw [rows_apply]

section Block
variable (b : Fin 8) (W : Fin 2048 → E) (wm : FVec Ideal S128x4 .f32)
  (hwm : ∀ (l : Fin 128) (q : Fin 4), wm (ix2 l q) = wmBlock W b l q)
  (Z : St) (z : FVec Ideal S512x16x128 .f32)
  (hz : ∀ (g : Fin 512) (j : Fin 16) (l : Fin 128), z (ix3 g j l) = Z g j (bcol b l))
include hwm hz

theorem dots_wi0 (g : Fin 512) (j : Fin 16) :
    dots (F := Ideal) wm z (ix3 g j (0 : Fin 4)) = ∑ d : Fin 64, Z g j (hcol (head0 b) d) * wi W (hcol (head0 b) d) := by
  rw [dots_apply]
  have e : ∀ l : Fin 128, z (ix3 g j l) * wm (ix2 l (0 : Fin 4)) = Z g j (bcol b l) * (wi W (bcol b l) * m0 l) := by
    intro l; rw [hz, hwm]; rfl
  rw [Finset.sum_congr rfl (fun l _ => e l)]
  exact sum_mask0 b (Z g j) (wi W)

theorem dots_wi1 (g : Fin 512) (j : Fin 16) :
    dots (F := Ideal) wm z (ix3 g j (1 : Fin 4)) = ∑ d : Fin 64, Z g j (hcol (head1 b) d) * wi W (hcol (head1 b) d) := by
  rw [dots_apply]
  have e : ∀ l : Fin 128, z (ix3 g j l) * wm (ix2 l (1 : Fin 4)) = Z g j (bcol b l) * (wi W (bcol b l) * m1 l) := by
    intro l; rw [hz, hwm]; rfl
  rw [Finset.sum_congr rfl (fun l _ => e l)]
  exact sum_mask1 b (Z g j) (wi W)

theorem dots_wj0 (g : Fin 512) (j : Fin 16) :
    dots (F := Ideal) wm z (ix3 g j (2 : Fin 4)) = ∑ d : Fin 64, Z g j (hcol (head0 b) d) * wj W (hcol (head0 b) d) := by
  rw [dots_apply]
  have e : ∀ l : Fin 128, z (ix3 g j l) * wm (ix2 l (2 : Fin 4)) = Z g j (bcol b l) * (wj W (bcol b l) * m0 l) := by
    intro l; rw [hz, hwm]; rfl
  rw [Finset.sum_congr rfl (fun l _ => e l)]
  exact sum_mask0 b (Z g j) (wj W)

theorem dots_wj1 (g : Fin 512) (j : Fin 16) :
    dots (F := Ideal) wm z (ix3 g j (3 : Fin 4)) = ∑ d : Fin 64, Z g j (hcol (head1 b) d) * wj W (hcol (head1 b) d) := by
  rw [dots_apply]
  have e : ∀ l : Fin 128, z (ix3 g j l) * wm (ix2 l (3 : Fin 4)) = Z g j (bcol b l) * (wj W (bcol b l) * m1 l) := by
    intro l; rw [hz, hwm]; rfl
  rw [Finset.sum_congr rfl (fun l _ => e l)]
  exact sum_mask1 b (Z g j) (wj W)

end Block

theorem simK_apply (k : Fin 16) (h2 : S512x16x4.Slices ![0, k.val, 2] S512x1x2)
    (wm : FVec Ideal S128x4 .f32) (z : FVec Ideal S512x16x128 .f32) (g : Fin 512) (j : Fin 16) (q : Fin 2) :
    simK (F := Ideal) ![0, k.val, 2] h2 wm z (ix3 g j q)
      = dots (F := Ideal) wm z (ix3 g j (⟨q.val, by omega⟩ : Fin 4)) + dots (F := Ideal) wm z (ix3 g k (⟨2 + q.val, by omega⟩ : Fin 4)) := by
  unfold simK
  rw [addf_apply]
  have e1 : extractStridedSlice S512x16x2 ![0, 0, 0] (dots (F := Ideal) wm z) slices_S512x16x4_o0_0_0_S512x16x2 (ix3 g j q)
      = dots (F := Ideal) wm z (ix3 g j (⟨q.val, by omega⟩ : Fin 4)) :=
    extractStridedSlice_apply _ _ _ _ _ (fun a => by
      match a with
      | ⟨0, _⟩ => show g.val = 0 + g.val; omega
      | ⟨1, _⟩ => show j.val = 0 + j.val; omega
      | ⟨2, _⟩ => show q.val = 0 + q.val; omega)
  have e2 : broadcastTo S512x16x2 (extractStridedSlice S512x1x2 ![0, k.val, 2] (dots (F := Ideal) wm z) h2)
        broadcasts_S512x1x2_S512x16x2 (ix3 g j q)
      = dots (F := Ideal) wm z (ix3 g k (⟨2 + q.val, by omega⟩ : Fin 4)) := by
    refine (broadcastTo_apply _ _ (ix3 g j q) (ix3 g (0 : Fin 1) q) (fun a => by
      match a with
      | ⟨0, _⟩ => rfl
      | ⟨1, _⟩ => rfl
      | ⟨2, _⟩ => rfl)).trans ?_
    exact extractStridedSlice_apply _ _ _ _ _ (fun a => by
      match a with
      | ⟨0, _⟩ => show g.val = 0 + g.val; omega
      | ⟨1, _⟩ => show k.val = k.val + 0; omega
      | ⟨2, _⟩ => show 2 + q.val = 2 + q.val; rfl)
  rw [e1, e2]

theorem simK_head0 (k : Fin 16) (h2 : S512x16x4.Slices ![0, k.val, 2] S512x1x2)
    (b : Fin 8) (W : Fin 2048 → E) (wm : FVec Ideal S128x4 .f32) (hwm : ∀ (l : Fin 128) (q : Fin 4), wm (ix2 l q) = wmBlock W b l q)
    (Z : St) (z : FVec Ideal S512x16x128 .f32)
    (hz : ∀ (g : Fin 512) (j : Fin 16) (l : Fin 128), z (ix3 g j l) = Z g j (bcol b l)) (g : Fin 512) (j : Fin 16) :
    simK (F := Ideal) ![0, k.val, 2] h2 wm z (ix3 g j (0 : Fin 2)) = sim W Z k g j (head0 b) := by
  rw [simK_apply]
  show dots (F := Ideal) wm z (ix3 g j (0 : Fin 4)) + dots (F := Ideal) wm z (ix3 g k (2 : Fin 4)) = _
  rw [dots_wi0 b W wm hwm Z z hz, dots_wj0 b W wm hwm Z z hz]
  rfl
theorem simK_head1 (k : Fin 16) (h2 : S512x16x4.Slices ![0, k.val, 2] S512x1x2)
    (b : Fin 8) (W : Fin 2048 → E) (wm : FVec Ideal S128x4 .f32) (hwm : ∀ (l : Fin 128) (q : Fin 4), wm (ix2 l q) = wmBlock W b l q)
    (Z : St) (z : FVec Ideal S512x16x128 .f32)
    (hz : ∀ (g : Fin 512) (j : Fin 16) (l : Fin 128), z (ix3 g j l) = Z g j (bcol b l)) (g : Fin 512) (j : Fin 16) :
    simK (F := Ideal) ![0, k.val, 2] h2 wm z (ix3 g j (1 : Fin 2)) = sim W Z k g j (head1 b) := by
  rw [simK_apply]
  show dots (F := Ideal) wm z (ix3 g j (1 : Fin 4)) + dots (F := Ideal) wm z (ix3 g k (3 : Fin 4)) = _
  rw [dots_wi1 b W wm hwm Z z hz, dots_wj1 b W wm hwm Z z hz]
  rfl

theorem simCol_apply (o : Fin S512x16x2.rank → Nat) (c : Fin 2) (ho : ∀ a : Fin 3, o a = (ix3 (0 : Fin 1) (0 : Fin 1) c a).val)
    (hs : S512x16x2.Slices o S512x16x1) (s : FVec Ideal S512x16x2 .f32) (g : Fin 512) (j : Fin 16) (l : Fin 128) :
    broadcastTo S512x16x128
        (shapeCast S512x16x1 (extractStridedSlice S512x16x1 o s hs) shapeCasts_S512x16x1_S512x16x1)
        broadcasts_S512x16x1_S512x16x128 (ix3 g j l)
      = s (ix3 g j c) := by
  refine (broadcastTo_apply _ _ (ix3 g j l) (ix3 g j (0 : Fin 1)) (fun a => by
    match a with
    | ⟨0, _⟩ => rfl
    | ⟨1, _⟩ => rfl
    | ⟨2, _⟩ => rfl)).trans ?_
  rw [shapeCast_self]
  exact extractStridedSlice_apply _ _ _ _ _ (fun a => by
    match a with
    | ⟨0, _⟩ => rw [ho]; show g.val = 0 + g.val; omega
    | ⟨1, _⟩ => rw [ho]; show j.val = 0 + j.val; omega
    | ⟨2, _⟩ => rw [ho]; show c.val = c.val + 0; omega)

theorem simLanes_apply (k : Fin 16) (h2 : S512x16x4.Slices ![0, k.val, 2] S512x1x2)
    (wm : FVec Ideal S128x4 .f32) (z : FVec Ideal S512x16x128 .f32) (g : Fin 512) (j : Fin 16) (l : Fin 128) :
    simLanes (F := Ideal) ![0, k.val, 2] h2 wm laneMask z (ix3 g j l)
      = if l.val < 64 then simK (F := Ideal) ![0, k.val, 2] h2 wm z (ix3 g j (0 : Fin 2))
        else simK (F := Ideal) ![0, k.val, 2] h2 wm z (ix3 g j (1 : Fin 2)) := by
  unfold simLanes
  rw [select_apply, laneMask_apply,
    simCol_apply ![0, 0, 0] (0 : Fin 2) (fun a => by match a with | ⟨0, _⟩ => rfl | ⟨1, _⟩ => rfl | ⟨2, _⟩ => rfl),
    simCol_apply ![0, 0, 1] (1 : Fin 2) (fun a => by match a with | ⟨0, _⟩ => rfl | ⟨1, _⟩ => rfl | ⟨2, _⟩ => rfl)]
  by_cases h : l.val < 64
  · rw [if_pos h, if_pos h, select_one]
  · rw [if_neg h, if_neg h, select_zero]

theorem simLanes_eq (k : Fin 16) (h2 : S512x16x4.Slices ![0, k.val, 2] S512x1x2)
    (b : Fin 8) (W : Fin 2048 → E) (wm : FVec Ideal S128x4 .f32) (hwm : ∀ (l : Fin 128) (q : Fin 4), wm (ix2 l q) = wmBlock W b l q)
    (Z : St) (z : FVec Ideal S512x16x128 .f32)
    (hz : ∀ (g : Fin 512) (j : Fin 16) (l : Fin 128), z (ix3 g j l) = Z g j (bcol b l)) (g : Fin 512) (j : Fin 16) (l : Fin 128) :
    simLanes (F := Ideal) ![0, k.val, 2] h2 wm laneMask z (ix3 g j l) = sim W Z k g j (headOf (bcol b l)) := by
  rw [simLanes_apply]
  by_cases h : l.val < 64
  · rw [if_pos h, headOf_bcol_lt b l h, simK_head0 k h2 b W wm hwm Z z hz]
  · rw [if_neg h, headOf_bcol_ge b l h, simK_head1 k h2 b W wm hwm Z z hz]

theorem slotRow_apply (k : Fin 16) (h1 : S512x16x128.Slices ![0, k.val, 0] S512x1x128)
    (z : FVec Ideal S512x16x128 .f32) (g : Fin 512) (j : Fin 16) (l : Fin 128) :
    broadcastTo S512x16x128 (extractStridedSlice S512x1x128 ![0, k.val, 0] z h1) broadcasts_S512x1x128_S512x16x128 (ix3 g j l)
      = z (ix3 g k l) := by
  refine (broadcastTo_apply _ _ (ix3 g j l) (ix3 g (0 : Fin 1) l) (fun a => by
    match a with
    | ⟨0, _⟩ => rfl
    | ⟨1, _⟩ => rfl
    | ⟨2, _⟩ => rfl)).trans ?_
  exact extractStridedSlice_apply _ _ _ _ _ (fun a => by
    match a with
    | ⟨0, _⟩ => show g.val = 0 + g.val; omega
    | ⟨1, _⟩ => show k.val = k.val + 0; omega
    | ⟨2, _⟩ => show l.val = 0 + l.val; omega)

theorem preK_apply (k : Fin 16) (h2 : S512x16x4.Slices ![0, k.val, 2] S512x1x2) (h1 : S512x16x128.Slices ![0, k.val, 0] S512x1x128)
    (wm : FVec Ideal S128x4 .f32) (z : FVec Ideal S512x16x128 .f32) (g : Fin 512) (j : Fin 16) (l : Fin 128) :
    preK (F := Ideal) ![0, k.val, 2] h2 ![0, k.val, 0] h1 wm laneMask z (ix3 g j l)
      = cHalf * z (ix3 g j l) + (cHalf * simLanes (F := Ideal) ![0, k.val, 2] h2 wm laneMask z (ix3 g j l)) * z (ix3 g k l) := by
  unfold preK
  rw [addf_apply, mulf_apply, mulf_apply, mulf_apply, slotRow_apply]
  rfl

theorem kstepA_apply (k : Fin 16) (h2 : S512x16x4.Slices ![0, k.val, 2] S512x1x2) (h1 : S512x16x128.Slices ![0, k.val, 0] S512x1x128)
    (wm : FVec Ideal S128x4 .f32) (z za : FVec Ideal S512x16x128 .f32) (g : Fin 512) (j : Fin 16) (l : Fin 128) :
    kstepA (F := Ideal) ![0, k.val, 2] h2 ![0, k.val, 0] h1 wm laneMask z za (ix3 g j l)
      = cMom * za (ix3 g j l) + cTenth * leaky (preK (F := Ideal) ![0, k.val, 2] h2 ![0, k.val, 0] h1 wm laneMask z (ix3 g j l)) := by
  unfold kstepA
  rw [addf_apply, mulf_apply, mulf_apply, maximumf_apply, mulf_apply]
  rfl

theorem kstepA_eq (k : Fin 16) (h2 : S512x16x4.Slices ![0, k.val, 2] S512x1x2) (h1 : S512x16x128.Slices ![0, k.val, 0] S512x1x128)
    (b : Fin 8) (W : Fin 2048 → E) (wm : FVec Ideal S128x4 .f32) (hwm : ∀ (l : Fin 128) (q : Fin 4), wm (ix2 l q) = wmBlock W b l q)
    (Z ZA : St) (z za : FVec Ideal S512x16x128 .f32)
    (hz : ∀ (g : Fin 512) (j : Fin 16) (l : Fin 128), z (ix3 g j l) = Z g j (bcol b l))
    (hza : ∀ (g : Fin 512) (j : Fin 16) (l : Fin 128), za (ix3 g j l) = ZA g j (bcol b l)) :
    ∀ (g : Fin 512) (j : Fin 16) (l : Fin 128),
      kstepA (F := Ideal) ![0, k.val, 2] h2 ![0, k.val, 0] h1 wm laneMask z za (ix3 g j l) = stepA W k Z ZA g j (bcol b l) := by
  intro g j l
  rw [kstepA_apply, preK_apply, simLanes_eq k h2 b W wm hwm Z z hz, hz, hz, hza]
  rfl

theorem kstepZ_eq (k : Fin 16) (h2 : S512x16x4.Slices ![0, k.val, 2] S512x1x2) (h1 : S512x16x128.Slices ![0, k.val, 0] S512x1x128)
    (b : Fin 8) (W : Fin 2048 → E) (wm : FVec Ideal S128x4 .f32) (hwm : ∀ (l : Fin 128) (q : Fin 4), wm (ix2 l q) = wmBlock W b l q)
    (Z ZA : St) (z za : FVec Ideal S512x16x128 .f32)
    (hz : ∀ (g : Fin 512) (j : Fin 16) (l : Fin 128), z (ix3 g j l) = Z g j (bcol b l))
    (hza : ∀ (g : Fin 512) (j : Fin 16) (l : Fin 128), za (ix3 g j l) = ZA g j (bcol b l)) :
    ∀ (g : Fin 512) (j : Fin 16) (l : Fin 128),
      kstepZ (F := Ideal) ![0, k.val, 2] h2 ![0, k.val, 0] h1 wm laneMask z za (ix3 g j l) = stepZ W k Z ZA g j (bcol b l) := by
  intro g j l
  unfold kstepZ
  rw [addf_apply, mulf_apply, mulf_apply, kstepA_eq k h2 h1 b W wm hwm Z ZA z za hz hza, hz]
  rfl

end Cert.KernelIdeal.Hand

end
-- ==== Proof.KPayload.lean ====
import proofs.«105576_g23433341567538_cont_8to1_1409_2_alg».proof.Proof.Spec
import proofs.«105576_g23433341567538_cont_8to1_1409_2_alg».proof.Proof.Glue
import proofs.«105576_g23433341567538_cont_8to1_1409_2_alg».proof.Proof.KChainIdeal
import proofs.«105576_g23433341567538_cont_8to1_1409_2_alg».proof.Proof.KStepIdeal
import proofs.«105576_g23433341567538_cont_8to1_1409_2_alg».proof.Proof.KStepValue
import Idealize.ShloMosaic.Lib.Tactic
import Idealize.ShloMosaic.Lib.Pipeline.Value
import Idealize.ShloMosaic.Lib.ValueLayout
import Idealize.ShloMosaic.Lib.ValueIdx

noncomputable section

namespace Cert.KernelIdeal.Hand

open Cert.KernelIdeal Idealize.ShloMosaic
open Facts₀ Facts
open Idealize.ShloMosaic.ValueIdx (ix2 ix3)
open Cert.Ncn

namespace Payload

section Generic

variable {F : FTy → Type} [FloatOps F]

def col (j : Nat) (h : S512x16x128.Slices ![0, j, 0] S512x1x128) (y : FVec F S512x16x128 .f32) : FVec F S512x1x128 .f32 :=
  extractStridedSlice S512x1x128 ![0, j, 0] y h

def rot (n : Nat) (hA : S512x1x128.Slices ![n, 0, 0] ⟨3, ![512 - n, 1, 128]⟩)
    (hB : S512x1x128.Slices ![0, 0, 0] ⟨3, ![n, 1, 128]⟩)
    (hc : Shape.Concatenates [⟨3, ![512 - n, 1, 128]⟩, ⟨3, ![n, 1, 128]⟩] S512x1x128 0)
    (c : FVec F S512x1x128 .f32) : FVec F S512x1x128 .f32 :=
  concatenate S512x1x128 0
    [⟨⟨3, ![512 - n, 1, 128]⟩, extractStridedSlice ⟨3, ![512 - n, 1, 128]⟩ ![n, 0, 0] c hA⟩,
     ⟨⟨3, ![n, 1, 128]⟩, extractStridedSlice ⟨3, ![n, 1, 128]⟩ ![0, 0, 0] c hB⟩] hc

def stack (c : Fin 16 → FVec F S512x1x128 .f32) : FVec F S512x16x128 .f32 :=
  concatenate S512x16x128 1 (List.ofFn fun n : Fin 16 => (⟨S512x1x128, c n⟩ : (s : Shape) × (s.Idx → F .f32)))
    concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1

def colsIn (y : FVec F S512x16x128 .f32) : Fin 16 → FVec F S512x1x128 .f32 :=
  ![col 0 (by decide) y,
    rot 2 (by decide) (by decide) (by decide) (col 1 (by decide) y),
    rot 4 (by decide) (by decide) (by decide) (col 2 (by decide) y),
    rot 6 (by decide) (by decide) (by decide) (col 3 (by decide) y),
    rot 8 (by decide) (by decide) (by decide) (col 4 (by decide) y),
    rot 10 (by decide) (by decide) (by decide) (col 5 (by decide) y),
    rot 12 (by decide) (by decide) (by decide) (col 6 (by decide) y),
    rot 14 (by decide) (by decide) (by decide) (col 7 (by decide) y),
    rot 16 (by decide) (by decide) (by decide) (col 8 (by decide) y),
    rot 18 (by decide) (by decide) (by decide) (col 9 (by decide) y),
    rot 20 (by decide) (by decide) (by decide) (col 10 (by decide) y),
    rot 22 (by decide) (by decide) (by decide) (col 11 (by decide) y),
    rot 24 (by decide) (by decide) (by decide) (col 12 (by decide) y),
    rot 26 (by decide) (by decide) (by decide) (col 13 (by decide) y),
    rot 28 (by decide) (by decide) (by decide) (col 14 (by decide) y),
    rot 30 (by decide) (by decide) (by decide) (col 15 (by decide) y)]

def colsOut (y : FVec F S512x16x128 .f32) : Fin 16 → FVec F S512x1x128 .f32 :=
  ![col 0 (by decide) y,
    rot 510 (by decide) (by decide) (by decide) (col 1 (by decide) y),
    rot 508 (by decide) (by decide) (by decide) (col 2 (by decide) y),
    rot 506 (by decide) (by decide) (by decide) (col 3 (by decide) y),
    rot 504 (by decide) (by decide) (by decide) (col 4 (by decide) y),
    rot 502 (by decide) (by decide) (by decide) (col 5 (by decide) y),
    rot 500 (by decide) (by decide) (by decide) (col 6 (by decide) y),
    rot 498 (by decide) (by decide) (by decide) (col 7 (by decide) y),
    rot 496 (by decide) (by decide) (by decide) (col 8 (by decide) y),
    rot 494 (by decide) (by decide) (by decide) (col 9 (by decide) y),
    rot 492 (by decide) (by decide) (by decide) (col 10 (by decide) y),
    rot 490 (by decide) (by decide) (by decide) (col 11 (by decide) y),
    rot 488 (by decide) (by decide) (by decide) (col 12 (by decide) y),
    rot 486 (by decide) (by decide) (by decide) (col 13 (by decide) y),
    rot 484 (by decide) (by decide) (by decide) (col 14 (by decide) y),
    rot 482 (by decide) (by decide) (by decide) (col 15 (by decide) y)]

def rollIn (y : FVec F S512x16x128 .f32) : FVec F S512x16x128 .f32 := stack (colsIn y)

def rollOut (y : FVec F S512x16x128 .f32) : FVec F S512x16x128 .f32 := stack (colsOut y)

theorem rot_apply (n : Nat) (hn : n ≤ 512) (hA : S512x1x128.Slices ![n, 0, 0] ⟨3, ![512 - n, 1, 128]⟩)
    (hB : S512x1x128.Slices ![0, 0, 0] ⟨3, ![n, 1, 128]⟩)
    (hc : Shape.Concatenates [⟨3, ![512 - n, 1, 128]⟩, ⟨3, ![n, 1, 128]⟩] S512x1x128 0)
    (c : FVec F S512x1x128 .f32) (g : Fin 512) (l : Fin 128) :
    rot n hA hB hc c (ix3 g 0 l) = c (ix3 ⟨(g.val + n) % 512, Nat.mod_lt _ (by decide)⟩ 0 l) := by
  unfold rot
  by_cases hg : g.val + n < 512
  · rw [concatenate_pair_apply_left 0 _ _ hc (ix3 g 0 l) rfl (ix3 (⟨g.val, by omega⟩ : Fin (512 - n)) (0 : Fin 1) l)
      (by intro b; fin_cases b <;> rfl)]
    refine extractStridedSlice_apply _ _ _ _ _ ?_
    intro a
    fin_cases a
    · show (g.val + n) % 512 = n + g.val
      rw [Nat.mod_eq_of_lt hg]; omega
    · rfl
    · show l.val = 0 + l.val
      omega
  · have hgl := g.isLt
    rw [concatenate_pair_apply_right 0 _ _ hc (ix3 g 0 l) rfl rfl (ix3 (⟨g.val - (512 - n), by omega⟩ : Fin n) (0 : Fin 1) l)
      (by intro b hb; fin_cases b
          · exact absurd rfl hb
          · rfl
          · rfl)
      (by show g.val - (512 - n) + (512 - n) = g.val; omega)]
    refine extractStridedSlice_apply _ _ _ _ _ ?_
    intro a
    fin_cases a
    · show (g.val + n) % 512 = 0 + (g.val - (512 - n))
      have : g.val + n = 512 + (g.val - (512 - n)) := by omega
      rw [this, Nat.add_mod_left, Nat.mod_eq_of_lt (by omega)]; omega
    · rfl
    · show l.val = 0 + l.val
      omega

theorem stack_apply (c : Fin 16 → FVec F S512x1x128 .f32) (g : Fin 512) (j : Fin 16) (l : Fin 128) :
    stack c (ix3 g j l) = c j (ix3 g 0 l) := by
  unfold stack
  refine concatenate_ofFn_unit_apply (t := S512x16x128) (s₁ := S512x1x128) 1 c _ rfl rfl (ix3 g j l) j rfl (ix3 g 0 l) ?_
  intro b hb
  fin_cases b
  · rfl
  · exact absurd rfl hb
  · rfl

theorem col_apply (j : Nat) (hj : j < 16) (h : S512x16x128.Slices ![0, j, 0] S512x1x128) (y : FVec F S512x16x128 .f32)
    (g : Fin 512) (l : Fin 128) : col j h y (ix3 g 0 l) = y (ix3 g ⟨j, hj⟩ l) :=
  ValueIdx.slice3_axis1_apply j y h g 0 l ⟨j, hj⟩ (by simp)

theorem rollIn_apply (y : FVec F S512x16x128 .f32) (g : Fin 512) (j : Fin 16) (l : Fin 128) :
    rollIn y (ix3 g j l) = y (ix3 ⟨(g.val + 2 * j.val) % 512, Nat.mod_lt _ (by decide)⟩ j l) := by
  unfold rollIn
  rw [stack_apply]
  fin_cases j
  · have e : (⟨(g.val + 2 * 0) % 512, Nat.mod_lt _ (by decide)⟩ : Fin 512) = g := Fin.ext (by show (g.val + 2 * 0) % 512 = g.val; omega)
    show col 0 (by decide) y (ix3 g 0 l) = y (ix3 ⟨(g.val + 2 * 0) % 512, Nat.mod_lt _ (by decide)⟩ ⟨0, by decide⟩ l)
    rw [e]
    exact col_apply 0 (by decide) (by decide) y g l
  · exact (rot_apply 2 (by decide) (by decide) (by decide) (by decide) _ g l).trans (col_apply 1 (by decide) (by decide) y _ l)
  · exact (rot_apply 4 (by decide) (by decide) (by decide) (by decide) _ g l).trans (col_apply 2 (by decide) (by decide) y _ l)
  · exact (rot_apply 6 (by decide) (by decide) (by decide) (by decide) _ g l).trans (col_apply 3 (by decide) (by decide) y _ l)
  · exact (rot_apply 8 (by decide) (by decide) (by decide) (by decide) _ g l).trans (col_apply 4 (by decide) (by decide) y _ l)
  · exact (rot_apply 10 (by decide) (by decide) (by decide) (by decide) _ g l).trans (col_apply 5 (by decide) (by decide) y _ l)
  · exact (rot_apply 12 (by decide) (by decide) (by decide) (by decide) _ g l).trans (col_apply 6 (by decide) (by decide) y _ l)
  · exact (rot_apply 14 (by decide) (by decide) (by decide) (by decide) _ g l).trans (col_apply 7 (by decide) (by decide) y _ l)
  · exact (rot_apply 16 (by decide) (by decide) (by decide) (by decide) _ g l).trans (col_apply 8 (by decide) (by decide) y _ l)
  · exact (rot_apply 18 (by decide) (by decide) (by decide) (by decide) _ g l).trans (col_apply 9 (by decide) (by decide) y _ l)
  · exact (rot_apply 20 (by decide) (by decide) (by decide) (by decide) _ g l).trans (col_apply 10 (by decide) (by decide) y _ l)
  · exact (rot_apply 22 (by decide) (by decide) (by decide) (by decide) _ g l).trans (col_apply 11 (by decide) (by decide) y _ l)
  · exact (rot_apply 24 (by decide) (by decide) (by decide) (by decide) _ g l).trans (col_apply 12 (by decide) (by decide) y _ l)
  · exact (rot_apply 26 (by decide) (by decide) (by decide) (by decide) _ g l).trans (col_apply 13 (by decide) (by decide) y _ l)
  · exact (rot_apply 28 (by decide) (by decide) (by decide) (by decide) _ g l).trans (col_apply 14 (by decide) (by decide) y _ l)
  · exact (rot_apply 30 (by decide) (by decide) (by decide) (by decide) _ g l).trans (col_apply 15 (by decide) (by decide) y _ l)

theorem rollOut_apply (y : FVec F S512x16x128 .f32) (g : Fin 512) (j : Fin 16) (l : Fin 128) :
    rollOut y (ix3 g j l) = y (ix3 ⟨(g.val + (512 - 2 * j.val)) % 512, Nat.mod_lt _ (by decide)⟩ j l) := by
  unfold rollOut
  rw [stack_apply]
  fin_cases j
  · have e : (⟨(g.val + (512 - 2 * 0)) % 512, Nat.mod_lt _ (by decide)⟩ : Fin 512) = g := Fin.ext (by show (g.val + (512 - 2 * 0)) % 512 = g.val; omega)
    show col 0 (by decide) y (ix3 g 0 l) = y (ix3 ⟨(g.val + (512 - 2 * 0)) % 512, Nat.mod_lt _ (by decide)⟩ ⟨0, by decide⟩ l)
    rw [e]
    exact col_apply 0 (by decide) (by decide) y g l
  · exact (rot_apply 510 (by decide) (by decide) (by decide) (by decide) _ g l).trans (col_apply 1 (by decide) (by decide) y _ l)
  · exact (rot_apply 508 (by decide) (by decide) (by decide) (by decide) _ g l).trans (col_apply 2 (by decide) (by decide) y _ l)
  · exact (rot_apply 506 (by decide) (by decide) (by decide) (by decide) _ g l).trans (col_apply 3 (by decide) (by decide) y _ l)
  · exact (rot_apply 504 (by decide) (by decide) (by decide) (by decide) _ g l).trans (col_apply 4 (by decide) (by decide) y _ l)
  · exact (rot_apply 502 (by decide) (by decide) (by decide) (by decide) _ g l).trans (col_apply 5 (by decide) (by decide) y _ l)
  · exact (rot_apply 500 (by decide) (by decide) (by decide) (by decide) _ g l).trans (col_apply 6 (by decide) (by decide) y _ l)
  · exact (rot_apply 498 (by decide) (by decide) (by decide) (by decide) _ g l).trans (col_apply 7 (by decide) (by decide) y _ l)
  · exact (rot_apply 496 (by decide) (by decide) (by decide) (by decide) _ g l).trans (col_apply 8 (by decide) (by decide) y _ l)
  · exact (rot_apply 494 (by decide) (by decide) (by decide) (by decide) _ g l).trans (col_apply 9 (by decide) (by decide) y _ l)
  · exact (rot_apply 492 (by decide) (by decide) (by decide) (by decide) _ g l).trans (col_apply 10 (by decide) (by decide) y _ l)
  · exact (rot_apply 490 (by decide) (by decide) (by decide) (by decide) _ g l).trans (col_apply 11 (by decide) (by decide) y _ l)
  · exact (rot_apply 488 (by decide) (by decide) (by decide) (by decide) _ g l).trans (col_apply 12 (by decide) (by decide) y _ l)
  · exact (rot_apply 486 (by decide) (by decide) (by decide) (by decide) _ g l).trans (col_apply 13 (by decide) (by decide) y _ l)
  · exact (rot_apply 484 (by decide) (by decide) (by decide) (by decide) _ g l).trans (col_apply 14 (by decide) (by decide) y _ l)
  · exact (rot_apply 482 (by decide) (by decide) (by decide) (by decide) _ g l).trans (col_apply 15 (by decide) (by decide) y _ l)

theorem slot2 (k : Nat) (hk : k < 16) : S512x16x4.Slices ![0, k, 2] S512x1x2 :=
  ⟨rfl, fun a => by
    fin_cases a
    · show 0 + 512 ≤ 512
      omega
    · show k + 1 ≤ 16
      omega
    · show 2 + 2 ≤ 4
      omega⟩

theorem slot1 (k : Nat) (hk : k < 16) : S512x16x128.Slices ![0, k, 0] S512x1x128 :=
  ⟨rfl, fun a => by
    fin_cases a
    · show 0 + 512 ≤ 512
      omega
    · show k + 1 ≤ 16
      omega
    · show 0 + 128 ≤ 128
      omega⟩

def upd (k : Nat) (h2 : S512x16x4.Slices ![0, k, 2] S512x1x2) (h1 : S512x16x128.Slices ![0, k, 0] S512x1x128)
    (wm : FVec F S128x4 .f32) (p : FVec F S512x16x128 .f32 × FVec F S512x16x128 .f32) :
    FVec F S512x16x128 .f32 × FVec F S512x16x128 .f32 :=
  (kstepZ ![0, k, 2] h2 ![0, k, 0] h1 wm laneMask p.1 p.2, kstepA ![0, k, 2] h2 ![0, k, 0] h1 wm laneMask p.1 p.2)

def chainN (wm : FVec F S128x4 .f32) (p : FVec F S512x16x128 .f32 × FVec F S512x16x128 .f32) :
    Nat → FVec F S512x16x128 .f32 × FVec F S512x16x128 .f32
  | 0 => p
  | n + 1 => upd (n % 16) (slot2 _ (Nat.mod_lt _ (by decide))) (slot1 _ (Nat.mod_lt _ (by decide))) wm (chainN wm p n)

def final (v0 v3 : Vec F S8192x128 .f32) (v130 : Vec F S1x128x4 .f32) :
    FVec F S512x16x128 .f32 × FVec F S512x16x128 .f32 :=
  chainN (Gen.k0_pay32 v130) (rollIn (Gen.k0_pay2 v0), rollIn (Gen.k0_pay3 v3)) 16

theorem storedA_align (v0 v3 : Vec F S8192x128 .f32) (v130 : Vec F S1x128x4 .f32) :
    storedA v0 v3 v130 = shapeCast S8192x128 (rollOut (final v0 v3 v130).2) shapeCasts_S512x16x128_S8192x128 := by
  sl_kernel_rfl

theorem storedI_align (v0 v3 : Vec F S8192x128 .f32) (v130 : Vec F S1x128x4 .f32) :
    storedI v0 v3 v130 = shapeCast S8192x128 (rollOut (final v0 v3 v130).1) shapeCasts_S512x16x128_S8192x128 := by
  sl_kernel_rfl

end Generic

theorem groups_apply (v : FVec Ideal S8192x128 .f32) (g : Fin 512) (j : Fin 16) (l : Fin 128) :
    Gen.k0_pay2 (F := Ideal) v (ix3 g j l) = v (ix2 (rowIx g j) l) := by
  show shapeCast S512x16x128 (shapeCast S8192x128 v shapeCasts_S8192x128_S8192x128) shapeCasts_S8192x128_S512x16x128
      (ix3 g j l) = _
  rw [shapeCast_apply _ shapeCasts_S8192x128_S512x16x128 (ix3 g j l) (ix2 (rowIx g j) l)
    (by rw [Shape.rowMajor_val_three, Shape.rowMajor_val_two]; rfl)]
  exact shapeCast_apply _ _ _ _ rfl

theorem rollIn_groups (b : Fin 8) (X : Fin 8192 → Fin 1024 → E) (v : FVec Ideal S8192x128 .f32)
    (h : ∀ (r : Fin 8192) (l : Fin 128), v (ix2 r l) = X r (bcol b l)) (g : Fin 512) (j : Fin 16) (l : Fin 128) :
    rollIn (Gen.k0_pay2 (F := Ideal) v) (ix3 g j l) = gat X g j (bcol b l) := by
  rw [rollIn_apply, groups_apply, h]
  rfl

theorem wm_apply (v130 : FVec Ideal S1x128x4 .f32) (l : Fin 128) (q : Fin 4) :
    Gen.k0_pay32 (F := Ideal) v130 (ix2 l q) = v130 (ix3 (0 : Fin 1) l q) :=
  ValueIdx.shapeCast_1ab_ab_apply v130 _ l q

def Holds (b : Fin 8) (p : FVec Ideal S512x16x128 .f32 × FVec Ideal S512x16x128 .f32) (S : St × St) : Prop :=
  (∀ (g : Fin 512) (j : Fin 16) (l : Fin 128), p.1 (ix3 g j l) = S.1 g j (bcol b l)) ∧
    ∀ (g : Fin 512) (j : Fin 16) (l : Fin 128), p.2 (ix3 g j l) = S.2 g j (bcol b l)

theorem holds_chainN (b : Fin 8) (W : Fin 2048 → E) (wm : FVec Ideal S128x4 .f32)
    (hwm : ∀ (l : Fin 128) (q : Fin 4), wm (ix2 l q) = wmBlock W b l q)
    (p : FVec Ideal S512x16x128 .f32 × FVec Ideal S512x16x128 .f32) (S : St × St) (h : Holds b p S) :
    ∀ n : Nat, Holds b (chainN wm p n) (iter W n S)
  | 0 => h
  | n + 1 => by
    have ih := holds_chainN b W wm hwm p S h n
    exact ⟨kstepZ_eq ⟨n % 16, Nat.mod_lt _ (by decide)⟩ _ _ b W wm hwm _ _ _ _ ih.1 ih.2,
      kstepA_eq ⟨n % 16, Nat.mod_lt _ (by decide)⟩ _ _ b W wm hwm _ _ _ _ ih.1 ih.2⟩

theorem row_split (r : Fin 8192) : rowIx ⟨r.val / 16, by omega⟩ ⟨r.val % 16, Nat.mod_lt _ (by decide)⟩ = r := by
  apply Fin.ext
  show r.val / 16 * 16 + r.val % 16 = r.val
  omega

section Stored

variable (b : Fin 8) (X XA : Fin 8192 → Fin 1024 → E) (W : Fin 2048 → E)
  (v0 v3 : Vec Ideal S8192x128 .f32) (v130 : Vec Ideal S1x128x4 .f32)
  (h0 : ∀ (r : Fin 8192) (l : Fin 128), v0 (ix2 r l) = X r (bcol b l))
  (h3 : ∀ (r : Fin 8192) (l : Fin 128), v3 (ix2 r l) = XA r (bcol b l))
  (h130 : ∀ (l : Fin 128) (q : Fin 4), v130 (ix3 (0 : Fin 1) l q) = wmBlock W b l q)

include h0 h3 h130 in

theorem holds_final : Holds b (final (F := Ideal) v0 v3 v130) (iter W 16 (gat X, gat XA)) :=
  holds_chainN b W _ (fun l q => (wm_apply v130 l q).trans (h130 l q)) _ _
    ⟨rollIn_groups b X v0 h0, rollIn_groups b XA v3 h3⟩ 16

theorem flat_rollOut (y : FVec Ideal S512x16x128 .f32) (r : Fin 8192) (l : Fin 128) :
    shapeCast S8192x128 (rollOut y) shapeCasts_S512x16x128_S8192x128 (ix2 r l) = y (ix3 (groupOf r) (slotOf r) l) := by
  have e := rows_apply (rollOut y) ⟨r.val / 16, by omega⟩ ⟨r.val % 16, Nat.mod_lt _ (by decide)⟩ l
  rw [row_split] at e
  rw [e, rollOut_apply]
  have hg : (⟨(r.val / 16 + (512 - 2 * (r.val % 16))) % 512, Nat.mod_lt _ (by decide)⟩ : Fin 512) = groupOf r := by
    apply Fin.ext
    show (r.val / 16 + (512 - 2 * (r.val % 16))) % 512 = (r.val / 16 + 512 - 2 * (r.val % 16)) % 512
    have : r.val % 16 < 16 := Nat.mod_lt _ (by decide)
    omega
  show y (ix3 ⟨(r.val / 16 + (512 - 2 * (r.val % 16))) % 512, _⟩ ⟨r.val % 16, _⟩ l) = _
  rw [hg]
  rfl

end Stored

end Payload

open Payload

theorem storedI_eq (b : Fin 8) (X XA : Fin 8192 → Fin 1024 → E) (W : Fin 2048 → E)
    (v0 v3 : Vec Ideal S8192x128 .f32) (v130 : Vec Ideal S1x128x4 .f32)
    (h0 : ∀ (r : Fin 8192) (l : Fin 128), v0 (ix2 r l) = X r (bcol b l))
    (h3 : ∀ (r : Fin 8192) (l : Fin 128), v3 (ix2 r l) = XA r (bcol b l))
    (h130 : ∀ (l : Fin 128) (q : Fin 4), v130 (ix3 (0 : Fin 1) l q) = wmBlock W b l q) :
    ∀ (r : Fin 8192) (l : Fin 128), storedI (F := Ideal) v0 v3 v130 (ix2 r l) = outI X XA W r (bcol b l) := by
  intro r l
  rw [storedI_align, flat_rollOut, (holds_final b X XA W v0 v3 v130 h0 h3 h130).1]
  rfl

theorem storedA_eq (b : Fin 8) (X XA : Fin 8192 → Fin 1024 → E) (W : Fin 2048 → E)
    (v0 v3 : Vec Ideal S8192x128 .f32) (v130 : Vec Ideal S1x128x4 .f32)
    (h0 : ∀ (r : Fin 8192) (l : Fin 128), v0 (ix2 r l) = X r (bcol b l))
    (h3 : ∀ (r : Fin 8192) (l : Fin 128), v3 (ix2 r l) = XA r (bcol b l))
    (h130 : ∀ (l : Fin 128) (q : Fin 4), v130 (ix3 (0 : Fin 1) l q) = wmBlock W b l q) :
    ∀ (r : Fin 8192) (l : Fin 128), storedA (F := Ideal) v0 v3 v130 (ix2 r l) = outA X XA W r (bcol b l) := by
  intro r l
  rw [storedA_align, flat_rollOut, (holds_final b X XA W v0 v3 v130 h0 h3 h130).2]
  rfl

end Cert.KernelIdeal.Hand

end
-- ==== Proof.KValue.lean ====
import proofs.«105576_g23433341567538_cont_8to1_1409_2_alg».proof.Proof.KFrameIdeal
import proofs.«105576_g23433341567538_cont_8to1_1409_2_alg».proof.Proof.KPrefix
import proofs.«105576_g23433341567538_cont_8to1_1409_2_alg».proof.Proof.KPayload
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2 ix3)
open Cert.Ncn

variable (m : (ℓ : Loc nD τ sig) → Buf (Elt Ideal) ℓ) (ρ : Dev nD → PrngReg)

abbrev argX (c : Dev nD) : Fin 8192 → Fin 1024 → E := mat (m ((c : Thread nD τ).loc main_arg0))

abbrev argXA (c : Dev nD) : Fin 8192 → Fin 1024 → E := mat (m ((c : Thread nD τ).loc main_arg1))

abbrev argW (c : Dev nD) : Fin 2048 → E := vec (m ((c : Thread nD τ).loc main_arg2))

def GI (c : Dev nD) : Vec Ideal S8192x1024 .f32 := fun i => outI (argX m c) (argXA m c) (argW m c) (i 0) (i 1)

def GA (c : Dev nD) : Vec Ideal S8192x1024 .f32 := fun i => outA (argX m c) (argXA m c) (argW m c) (i 0) (i 1)

def blockOf (t : Fin cfg0.N) : Fin 8 := ⟨t.val, lt_of_lt_of_eq t.isLt N_0⟩

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem iblk0_apply (c : Dev nD) (t : Fin cfg0.N) (r : Fin 8192) (l : Fin 128) :
    iblk m c 0 t (ix2 r l) = argX m c r (bcol (blockOf t) l) := by
  obtain ⟨e0, e1, -⟩ := idx_facts t
  show V m c main_v0 (((cfg0.win 0).blk t).view.emb (ix2 r l)) = _
  have e : ((cfg0.win 0).blk t).view.emb (ix2 r l) = ix2 r (bcol (blockOf t) l) := by
    funext a; apply Fin.ext
    match a with
    | ⟨0, _⟩ => show win0_0.index t (0 : Fin 2) * 8192 + 1 * r.val = r.val; omega
    | ⟨1, _⟩ => show win0_0.index t (1 : Fin 2) * 128 + 1 * l.val = 128 * t.val + l.val; omega
  rw [e]
  show StableHlo.after (List.flatten [hostOps0 (F := Ideal)]) (fun b => m (c, b)) (Proc.devRef .tc main_v0) (ix2 r (bcol (blockOf t) l)) = _
  rw [pre_v0]
  exact reshaped_apply _ r _

theorem iblk1_apply (c : Dev nD) (t : Fin cfg0.N) (r : Fin 8192) (l : Fin 128) :
    iblk m c 1 t (ix2 r l) = argXA m c r (bcol (blockOf t) l) := by
  obtain ⟨-, -, e0, e1, -⟩ := idx_facts t
  show V m c main_v1 (((cfg0.win 1).blk t).view.emb (ix2 r l)) = _
  have e : ((cfg0.win 1).blk t).view.emb (ix2 r l) = ix2 r (bcol (blockOf t) l) := by
    funext a; apply Fin.ext
    match a with
    | ⟨0, _⟩ => show win0_1.index t (0 : Fin 2) * 8192 + 1 * r.val = r.val; omega
    | ⟨1, _⟩ => show win0_1.index t (1 : Fin 2) * 128 + 1 * l.val = 128 * t.val + l.val; omega
  rw [e]
  show StableHlo.after (List.flatten [hostOps0 (F := Ideal)]) (fun b => m (c, b)) (Proc.devRef .tc main_v1) (ix2 r (bcol (blockOf t) l)) = _
  rw [pre_v1]
  exact reshaped_apply _ r _

theorem iblk2_apply (c : Dev nD) (t : Fin cfg0.N) (l : Fin 128) (q : Fin 4) :
    iblk m c 2 t (ix3 (0 : Fin 1) l q) = wmBlock (argW m c) (blockOf t) l q := by
  obtain ⟨-, -, -, -, e0, e1, e2, -⟩ := idx_facts t
  show V m c main_v28 (((cfg0.win 2).blk t).view.emb (ix3 (0 : Fin 1) l q)) = _
  have e : ((cfg0.win 2).blk t).view.emb (ix3 (0 : Fin 1) l q) = ix3 (blockOf t) l q := by
    funext a; apply Fin.ext
    match a with
    | ⟨0, _⟩ => show win0_2.index t (0 : Fin 3) * 1 + 1 * 0 = t.val; omega
    | ⟨1, _⟩ => show win0_2.index t (1 : Fin 3) * 128 + 1 * l.val = l.val; omega
    | ⟨2, _⟩ => show win0_2.index t (2 : Fin 3) * 4 + 1 * q.val = q.val; omega
  rw [e]
  show StableHlo.after (List.flatten [hostOps0 (F := Ideal)]) (fun b => m (c, b)) (Proc.devRef .tc main_v28) (ix3 (blockOf t) l q) = _
  rw [pre_v28]
  exact wmArr_apply _ _ l q

theorem storedI_blk (c : Dev nD) (t : Fin cfg0.N) (j : S8192x128.Idx) :
    storedI (F := Ideal) (iblk m c 0 t) (iblk m c 1 t) (iblk m c 2 t) j
      = outI (argX m c) (argXA m c) (argW m c) (j 0) (bcol (blockOf t) (j 1)) :=
  (congrArg (storedI (F := Ideal) (iblk m c 0 t) (iblk m c 1 t) (iblk m c 2 t)) (Idealize.ShloMosaic.ValueIdx.eq_ix2 j)).trans
    (storedI_eq (blockOf t) (argX m c) (argXA m c) (argW m c) (iblk m c 0 t) (iblk m c 1 t) (iblk m c 2 t)
      (iblk0_apply m c t) (iblk1_apply m c t) (iblk2_apply m c t) (j 0) (j 1))

theorem storedA_blk (c : Dev nD) (t : Fin cfg0.N) (j : S8192x128.Idx) :
    storedA (F := Ideal) (iblk m c 0 t) (iblk m c 1 t) (iblk m c 2 t) j
      = outA (argX m c) (argXA m c) (argW m c) (j 0) (bcol (blockOf t) (j 1)) :=
  (congrArg (storedA (F := Ideal) (iblk m c 0 t) (iblk m c 1 t) (iblk m c 2 t)) (Idealize.ShloMosaic.ValueIdx.eq_ix2 j)).trans
    (storedA_eq (blockOf t) (argX m c) (argXA m c) (argW m c) (iblk m c 0 t) (iblk m c 1 t) (iblk m c 2 t)
      (iblk0_apply m c t) (iblk1_apply m c t) (iblk2_apply m c t) (j 0) (j 1))

theorem flushed3_eq (c : Dev nD) (t : Fin cfg0.N) :
    (dats m 0 c).flushed 3 t = ((cfg0.win 3).blk t).view.read (Elt Ideal) (GI m c) := by
  show (cfg0.win 3).cut (grid0.coords t) ((dats m 0 c).after 3 t) = _
  rw [after0_3]
  unfold out0_3
  rw [View.canon_unit_zero hz2]
  simp only [View.ld_unit_zero (S := S8192x128) hz2, View.ld_unit_zero (S := S1x128x4) hz3]
  obtain ⟨-, -, -, -, -, -, -, e0, e1, -⟩ := idx_facts t
  funext j
  show storedI (F := Ideal) (iblk m c 0 t) (iblk m c 1 t) (iblk m c 2 t) j = GI m c (((cfg0.win 3).blk t).view.emb j)
  refine (storedI_blk m c t j).trans ?_
  unfold GI
  have h0 : j 0 = ((cfg0.win 3).blk t).view.emb j 0 := by
    apply Fin.ext
    show (j 0).val = win0_3.index t (0 : Fin 2) * 8192 + 1 * (j 0).val
    omega
  have h1 : bcol (blockOf t) (j 1) = ((cfg0.win 3).blk t).view.emb j 1 := by
    apply Fin.ext
    show 128 * t.val + (j 1).val = win0_3.index t (1 : Fin 2) * 128 + 1 * (j 1).val
    omega
  rw [h0, h1]

theorem flushed4_eq (c : Dev nD) (t : Fin cfg0.N) :
    (dats m 0 c).flushed 4 t = ((cfg0.win 4).blk t).view.read (Elt Ideal) (GA m c) := by
  show (cfg0.win 4).cut (grid0.coords t) ((dats m 0 c).after 4 t) = _
  rw [after0_4]
  unfold out0_4
  rw [View.canon_unit_zero hz2]
  simp only [View.ld_unit_zero (S := S8192x128) hz2, View.ld_unit_zero (S := S1x128x4) hz3]
  obtain ⟨-, -, -, -, -, -, -, -, -, e0, e1⟩ := idx_facts t
  funext j
  show storedA (F := Ideal) (iblk m c 0 t) (iblk m c 1 t) (iblk m c 2 t) j = GA m c (((cfg0.win 4).blk t).view.emb j)
  refine (storedA_blk m c t j).trans ?_
  unfold GA
  have h0 : j 0 = ((cfg0.win 4).blk t).view.emb j 0 := by
    apply Fin.ext
    show (j 0).val = win0_4.index t (0 : Fin 2) * 8192 + 1 * (j 0).val
    omega
  have h1 : bcol (blockOf t) (j 1) = ((cfg0.win 4).blk t).view.emb j 1 := by
    apply Fin.ext
    show 128 * t.val + (j 1).val = win0_4.index t (1 : Fin 2) * 128 + 1 * (j 1).val
    omega
  rw [h0, h1]

theorem mem_blk3 (t : Fin cfg0.N) (i : S8192x1024.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v29_0).slice (win0_3.rect t)).set ↔ _
  rw [View.set_slice_whole, Rect.mem_set_unit]
  exact Iff.rfl

theorem mem_blk4 (t : Fin cfg0.N) (i : S8192x1024.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v29_1).slice (win0_4.rect t)).set ↔ _
  rw [View.set_slice_whole, Rect.mem_set_unit]
  exact Iff.rfl

theorem point_of_col (col : Fin 1024) : ∃ t : Fin cfg0.N, t.val = col.val / 128 :=
  ⟨⟨col.val / 128, by show col.val / 128 < grid0.N; rw [N_0]; have := col.isLt; omega⟩, rfl⟩

theorem cover3 (i : S8192x1024.Idx) :
    ∃ t : Fin cfg0.N, (cfg0.win 3).flush t = true ∧ i ∈ ((cfg0.win 3).blk t).view.set := by
  obtain ⟨t, ht⟩ := point_of_col (i 1)
  obtain ⟨-, -, -, -, -, -, -, e0, e1, -⟩ := idx_facts t
  have hi0 : (i 0).val < 8192 := (i 0).isLt
  have hi1 : (i 1).val < 1024 := (i 1).isLt
  refine ⟨t, flush0_3 t, ?_⟩
  rw [mem_blk3]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

theorem cover4 (i : S8192x1024.Idx) :
    ∃ t : Fin cfg0.N, (cfg0.win 4).flush t = true ∧ i ∈ ((cfg0.win 4).blk t).view.set := by
  obtain ⟨t, ht⟩ := point_of_col (i 1)
  obtain ⟨-, -, -, -, -, -, -, -, -, e0, e1⟩ := idx_facts t
  have hi0 : (i 0).val < 8192 := (i 0).isLt
  have hi1 : (i 1).val < 1024 := (i 1).isLt
  refine ⟨t, flush0_4 t, ?_⟩
  rw [mem_blk4]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 128 ≤ (i 1).val ∧ (i 1).val < win0_4.index t (1 : Fin 2) * 128 + 128; omega

theorem final3 (c : Dev nD) : (dats m 0 c).arrAt 3 cfg0.N = GI m c :=
  (dats m 0 c).arrAt_eq_of_cover 3 (GI m c) (fun t _ => flushed3_eq m c t) cover3

theorem final4 (c : Dev nD) : (dats m 0 c).arrAt 4 cfg0.N = GA m c :=
  (dats m 0 c).arrAt_eq_of_cover 4 (GA m c) (fun t _ => flushed4_eq m c t) cover4

theorem arr3_eq (c : Dev nD) :
    Pipeline.withArrays (cfgs 0).spec c (V0 m c) (fun w => (dats m 0 c).arrAt w (cfgs 0).N) (Proc.devRef .tc main_v29_0) = GI m c :=
  (Pipeline.withArrays_arr spec0 launch0.win.arr_inj c _ _ 3).trans (final3 m c)

theorem arr4_eq (c : Dev nD) :
    Pipeline.withArrays (cfgs 0).spec c (V0 m c) (fun w => (dats m 0 c).arrAt w (cfgs 0).N) (Proc.devRef .tc main_v29_1) = GA m c :=
  (Pipeline.withArrays_arr spec0 launch0.win.arr_inj c _ _ 4).trans (final4 m c)

theorem tail_v30 (c : Dev nD) :
    Pipeline.afterTail₀ cfgs (dats m) 0 (V0 m) [hostOps1] c main_v30
      = resI (m ((c : Thread nD τ).loc main_arg0)) (m ((c : Thread nD τ).loc main_arg1)) (m ((c : Thread nD τ).loc main_arg2)) := by
  unfold Pipeline.afterTail₀
  show StableHlo.after hostOps1 _ (Proc.devRef .tc main_v30) = _
  after_results
  funext i
  show shapeCast S1x8192x1024 (Pipeline.withArrays (cfgs 0).spec c (V0 m c) (fun w => (dats m 0 c).arrAt w (cfgs 0).N) (Proc.devRef .tc main_v29_0))
    shapeCasts_S8192x1024_S1x8192x1024 i = _
  refine (congrArg (shapeCast S1x8192x1024 _ shapeCasts_S8192x1024_S1x8192x1024) (Idealize.ShloMosaic.ValueIdx.eq_ix3 i)).trans ?_
  refine (Idealize.ShloMosaic.ValueIdx.shapeCast_ab_1ab_apply _ shapeCasts_S8192x1024_S1x8192x1024 (i 0) (i 1) (i 2)).trans ?_
  exact congrFun (arr3_eq m c) (ix2 (i 1) (i 2))

theorem tail_v31 (c : Dev nD) :
    Pipeline.afterTail₀ cfgs (dats m) 0 (V0 m) [hostOps1] c main_v31
      = resA (m ((c : Thread nD τ).loc main_arg0)) (m ((c : Thread nD τ).loc main_arg1)) (m ((c : Thread nD τ).loc main_arg2)) := by
  unfold Pipeline.afterTail₀
  show StableHlo.after hostOps1 _ (Proc.devRef .tc main_v31) = _
  after_results
  funext i
  show shapeCast S1x8192x1024 (Pipeline.withArrays (cfgs 0).spec c (V0 m c) (fun w => (dats m 0 c).arrAt w (cfgs 0).N) (Proc.devRef .tc main_v29_1))
    shapeCasts_S8192x1024_S1x8192x1024 i = _
  refine (congrArg (shapeCast S1x8192x1024 _ shapeCasts_S8192x1024_S1x8192x1024) (Idealize.ShloMosaic.ValueIdx.eq_ix3 i)).trans ?_
  refine (Idealize.ShloMosaic.ValueIdx.shapeCast_ab_1ab_apply _ shapeCasts_S8192x1024_S1x8192x1024 (i 0) (i 1) (i 2)).trans ?_
  exact congrFun (arr4_eq m c) (ix2 (i 1) (i 2))

theorem kernel_value :
    θ_run (defs (F := Ideal)) (onTc (τ := τ) (main (F := Ideal))) ⟨m, fun _ => 0, ρ⟩ (fun r => ∀ c : Dev nD,
      r.2.mem ((c.tc : Thread nD τ).loc main_v30) = Cert.Ncn.resI (m ((c.tc : Thread nD τ).loc main_arg0)) (m ((c.tc : Thread nD τ).loc main_arg1)) (m ((c.tc : Thread nD τ).loc main_arg2))
      ∧ r.2.mem ((c.tc : Thread nD τ).loc main_v31) = Cert.Ncn.resA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v30 (Pipeline.mem_restRefs_of main_v30 (by decide) (by decide))).trans (tail_v30 m c),
     ((h c).2 main_v31 (Pipeline.mem_restRefs_of main_v31 (by decide) (by decide))).trans (tail_v31 m c),
     ((h c).2 main_arg0 (Pipeline.mem_restRefs_of main_arg0 (by decide) (by decide))).trans (W_arg m (dats m) c (.inl rfl)),
     ((h c).2 main_arg1 (Pipeline.mem_restRefs_of main_arg1 (by decide) (by decide))).trans (W_arg m (dats m) c (.inr (.inl rfl))),
     ((h c).2 main_arg2 (Pipeline.mem_restRefs_of main_arg2 (by decide) (by decide))).trans (W_arg m (dats m) c (.inr (.inr rfl)))⟩)
    (run_main m ρ)

end Cert.KernelIdeal.Hand

end
-- ==== Proof.ROps.lean ====
import proofs.«105576_g23433341567538_cont_8to1_1409_2_alg».proof.Proof.Gen.ReferenceIdeal
import Idealize.ShloMosaic.Lib.StableHlo.Run

noncomputable section

namespace Cert.ReferenceIdeal.Hand

open Cert.ReferenceIdeal Idealize.ShloMosaic Idealize.SL.Sem Idealize.ShloMosaic.StableHlo
open Facts₀ Facts

variable {F : FTy → Type} [FloatOps F]

abbrev dr (r : Ref sig .tc) : DevRef τ sig := Proc.devRef .tc r

abbrev opsPre : List (HloOp τ sig (Elt F)) :=
  [ StableHlo.nullary main_v0 (iotaInDim S16 32 0),
    StableHlo.nullary main_v1 (iotaInDim S512 32 0),
    StableHlo.unary main_v1 main_v2 (broadcastInDim S512x1 ![0] bcast_S512_S512x1_0 : (⟨S512, .i32⟩ : BufTy).Contents (Elt F) → (⟨S512x1, .i32⟩ : BufTy).Contents (Elt F)),
    StableHlo.unary main_v0 main_v3 (broadcastInDim S1x16 ![1] bcast_S16_S1x16_1 : (⟨S16, .i32⟩ : BufTy).Contents (Elt F) → (⟨S1x16, .i32⟩ : BufTy).Contents (Elt F)),
    StableHlo.nullary main_c (constantI S_ 32 2#32),
    StableHlo.unary main_c main_v4 (broadcastInDim S1x16 ![] bcast_S_S1x16 : (⟨S_, .i32⟩ : BufTy).Contents (Elt F) → (⟨S1x16, .i32⟩ : BufTy).Contents (Elt F)),
    StableHlo.binary main_v3 main_v4 main_v5 (muli : (⟨S1x16, .i32⟩ : BufTy).Contents (Elt F) → (⟨S1x16, .i32⟩ : BufTy).Contents (Elt F) → (⟨S1x16, .i32⟩ : BufTy).Contents (Elt F)),
    StableHlo.unary main_v2 main_v6 (broadcastInDim S512x16 ![0, 1] bcast_S512x1_S512x16_0_1 : (⟨S512x1, .i32⟩ : BufTy).Contents (Elt F) → (⟨S512x16, .i32⟩ : BufTy).Contents (Elt F)),
    StableHlo.unary main_v5 main_v7 (broadcastInDim S512x16 ![0, 1] bcast_S1x16_S512x16_0_1 : (⟨S1x16, .i32⟩ : BufTy).Contents (Elt F) → (⟨S512x16, .i32⟩ : BufTy).Contents (Elt F)),
    StableHlo.binary main_v6 main_v7 main_v8 (addi : (⟨S512x16, .i32⟩ : BufTy).Contents (Elt F) → (⟨S512x16, .i32⟩ : BufTy).Contents (Elt F) → (⟨S512x16, .i32⟩ : BufTy).Contents (Elt F)),
    StableHlo.nullary main_c_0 (constantI S_ 32 512#32),
    StableHlo.TRef.unary (.of main_c_0) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S512x16 ![] bcast_S_S512x16),
    StableHlo.TRef.binary (.of main_v8) main_call0.v3 main_call0.v4 Host.remsi,
    StableHlo.TRef.nullary main_call0.c_1 (constantI S_ 32 0#32),
    StableHlo.TRef.unary main_call0.c_1 main_call0.v5 (broadcastInDim S512x16 ![] bcast_S_S512x16),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S512x16 ![] bcast_S_S512x16),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S512x16 ![] bcast_S_S512x16),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S512x16 ![] bcast_S_S512x16),
    StableHlo.TRef.binary main_call0.v4 main_call0.v13 main_call0.v14 addi,
    StableHlo.TRef.ternary main_call0.v12 main_call0.v14 main_call0.v4 main_call0.v15 select,
    StableHlo.nullary main_c_1 (constantI S_ 32 16#32),
    StableHlo.unary main_c_1 main_v10 (broadcastInDim S512x16 ![] bcast_S_S512x16 : (⟨S_, .i32⟩ : BufTy).Contents (Elt F) → (⟨S512x16, .i32⟩ : BufTy).Contents (Elt F)),
    StableHlo.binary main_v9 main_v10 main_v11 (muli : (⟨S512x16, .i32⟩ : BufTy).Contents (Elt F) → (⟨S512x16, .i32⟩ : BufTy).Contents (Elt F) → (⟨S512x16, .i32⟩ : BufTy).Contents (Elt F)),
    StableHlo.unary main_v0 main_v12 (broadcastInDim S1x16 ![1] bcast_S16_S1x16_1 : (⟨S16, .i32⟩ : BufTy).Contents (Elt F) → (⟨S1x16, .i32⟩ : BufTy).Contents (Elt F)),
    StableHlo.unary main_v12 main_v13 (broadcastInDim S512x16 ![0, 1] bcast_S1x16_S512x16_0_1 : (⟨S1x16, .i32⟩ : BufTy).Contents (Elt F) → (⟨S512x16, .i32⟩ : BufTy).Contents (Elt F)),
    StableHlo.binary main_v11 main_v13 main_v14 (addi : (⟨S512x16, .i32⟩ : BufTy).Contents (Elt F) → (⟨S512x16, .i32⟩ : BufTy).Contents (Elt F) → (⟨S512x16, .i32⟩ : BufTy).Contents (Elt F)),
    StableHlo.reshape main_v14 main_v15 rfl shapeCasts_S512x16_S8192,
    StableHlo.unary main_arg2 main_v16 ((extractStridedSlice S1024 ![0] · slices_S2048_S1024_0) : (⟨S2048, .f32⟩ : BufTy).Contents (Elt F) → (⟨S1024, .f32⟩ : BufTy).Contents (Elt F)),
    StableHlo.reshape main_v16 main_v17 rfl shapeCasts_S1024_S16x64,
    StableHlo.unary main_arg2 main_v18 ((extractStridedSlice S1024 ![1024] · slices_S2048_S1024_1024) : (⟨S2048, .f32⟩ : BufTy).Contents (Elt F) → (⟨S1024, .f32⟩ : BufTy).Contents (Elt F)),
    StableHlo.reshape main_v18 main_v19 rfl shapeCasts_S1024_S16x64,
    StableHlo.TRef.nullary main_call1.c (constantI S_ 32 0#32),
    StableHlo.TRef.unary main_call1.c main_call1.v0 (broadcastInDim S8192 ![] bcast_S_S8192),
    StableHlo.TRef.binary (.of main_v15) main_call1.v0 main_call1.v1 (cmpi .slt),
    StableHlo.TRef.nullary main_call1.c_0 (constantI S_ 32 8192#32),
    StableHlo.TRef.unary main_call1.c_0 main_call1.v2 (broadcastInDim S8192 ![] bcast_S_S8192),
    StableHlo.TRef.binary (.of main_v15) main_call1.v2 main_call1.v3 addi,
    StableHlo.TRef.ternary main_call1.v1 main_call1.v3 (.of main_v15) main_call1.call0.v0 select,
    StableHlo.TRef.unary main_call1.call0.v0 main_call1.v5 (broadcastInDim S8192x1 ![0] bcast_S8192_S8192x1_0),
    StableHlo.TRef.nullary main_call1.c_1 (constantI S1 32 8191#32),
    StableHlo.TRef.nullary main_call1.c_2 (constantI S_ 32 0#32),
    StableHlo.TRef.unary main_call1.c_2 main_call1.v6 (broadcastInDim S8192x1 ![] bcast_S_S8192x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S8192x1 ![0, 1] bcast_S1x1_S8192x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x1_S8192_d1 h_S_),
    StableHlo.TRef.binary (.of main_arg0) main_call1.v5 main_call1.v13 (fun x i => Host.gather gather_S1x8192x1024_S8192x1_S1x8192x1024_02_1_n_n_1_1_111024 x i),
    StableHlo.TRef.unary main_call1.v12 main_call1.v14 (broadcastInDim S1x8192x1024 ![1] bcast_S8192_S1x8192x1024_1),
    StableHlo.TRef.nullary main_call1.cst (constant S_ .f32 0x7FC00000#32),
    StableHlo.TRef.unary main_call1.cst main_call1.v15 (broadcastInDim S1x8192x1024 ![] bcast_S_S1x8192x1024),
    StableHlo.TRef.ternary main_call1.v14 main_call1.v13 main_call1.v15 main_call1.v16 select,
    StableHlo.reshape main_v20 main_v21 rfl shapeCasts_S1x8192x1024_S1x512x16x16x64,
    StableHlo.TRef.nullary main_call2.c (constantI S_ 32 0#32),
    StableHlo.TRef.unary main_call2.c main_call2.v0 (broadcastInDim S8192 ![] bcast_S_S8192),
    StableHlo.TRef.binary (.of main_v15) main_call2.v0 main_call2.v1 (cmpi .slt),
    StableHlo.TRef.nullary main_call2.c_0 (constantI S_ 32 8192#32),
    StableHlo.TRef.unary main_call2.c_0 main_call2.v2 (broadcastInDim S8192 ![] bcast_S_S8192),
    StableHlo.TRef.binary (.of main_v15) main_call2.v2 main_call2.v3 addi,
    StableHlo.TRef.ternary main_call2.v1 main_call2.v3 (.of main_v15) main_call2.call0.v0 select,
    StableHlo.TRef.unary main_call2.call0.v0 main_call2.v5 (broadcastInDim S8192x1 ![0] bcast_S8192_S8192x1_0),
    StableHlo.TRef.nullary main_call2.c_1 (constantI S1 32 8191#32),
    StableHlo.TRef.nullary main_call2.c_2 (constantI S_ 32 0#32),
    StableHlo.TRef.unary main_call2.c_2 main_call2.v6 (broadcastInDim S8192x1 ![] bcast_S_S8192x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S8192x1 ![0, 1] bcast_S1x1_S8192x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8192x1_S8192_d1 h_S_),
    StableHlo.TRef.binary (.of main_arg1) main_call2.v5 main_call2.v13 (fun x i => Host.gather gather_S1x8192x1024_S8192x1_S1x8192x1024_02_1_n_n_1_1_111024 x i),
    StableHlo.TRef.unary main_call2.v12 main_call2.v14 (broadcastInDim S1x8192x1024 ![1] bcast_S8192_S1x8192x1024_1),
    StableHlo.TRef.nullary main_call2.cst (constant S_ .f32 0x7FC00000#32),
    StableHlo.TRef.unary main_call2.cst main_call2.v15 (broadcastInDim S1x8192x1024 ![] bcast_S_S1x8192x1024),
    StableHlo.TRef.ternary main_call2.v14 main_call2.v13 main_call2.v15 main_call2.v16 select,
    StableHlo.reshape main_v22 main_v23 rfl shapeCasts_S1x8192x1024_S1x512x16x16x64 ]

abbrev B5 : BufTy := ⟨S1x512x16x16x64, .f32⟩
abbrev K5 : BufTy := ⟨S1x512x1x16x64, .f32⟩
abbrev W5 : BufTy := ⟨S1x1x1x16x64, .f32⟩
abbrev R4 : BufTy := ⟨S1x512x16x16, .f32⟩
abbrev K4 : BufTy := ⟨S1x512x1x16, .f32⟩
abbrev R1 : BufTy := ⟨S1x512x16x16x1, .f32⟩
abbrev C0 : BufTy := ⟨S_, .f32⟩

section Step

variable (o : Fin S1x512x16x16x64.rank → Nat) (hs : S1x512x16x16x64.Slices o S1x512x1x16x64)
  (wi wj : TRef sig ⟨S16x64, .f32⟩) (xi xav : TRef sig B5)
  (y0 : TRef sig K5) (y1 : TRef sig W5) (y2 y3 : TRef sig B5) (y4 : TRef sig C0) (y5 : TRef sig R4)
  (y6 : TRef sig W5) (y7 y8 : TRef sig K5) (y9 : TRef sig C0) (y10 : TRef sig K4) (y11 y12 : TRef sig R4)
  (y13 : TRef sig C0) (y14 y15 : TRef sig B5) (y16 : TRef sig R1) (y17 : TRef sig C0) (y18 y19 : TRef sig R1)
  (y20 y21 y22 y23 : TRef sig B5) (y24 : TRef sig C0) (y25 : TRef sig B5) (y26 : TRef sig ⟨S1x512x16x16x64, .i1⟩)
  (y27 : TRef sig C0) (y28 y29 y30 : TRef sig B5) (y31 : TRef sig C0) (y32 y33 : TRef sig B5) (y34 : TRef sig C0)
  (y35 y36 y37 : TRef sig B5) (y38 : TRef sig C0) (y39 y40 : TRef sig B5) (y41 : TRef sig C0)
  (y42 y43 y44 : TRef sig B5)

/-- One update over the buffers it reads and the 45 it writes, in order; the sixteen updates are this list at their own buffers and slot. -/
abbrev stepOps : List (HloOp τ sig (Elt F)) :=
  [ TRef.unary xi y0 (extractStridedSlice S1x512x1x16x64 o · hs),
    TRef.unary wi y1 (broadcastInDim S1x1x1x16x64 ![3, 4] bcast_S16x64_S1x1x1x16x64_3_4),
    TRef.unary y1 y2 (broadcastInDim S1x512x16x16x64 ![0, 1, 2, 3, 4] bcast_S1x1x1x16x64_S1x512x16x16x64_0_1_2_3_4),
    TRef.binary xi y2 y3 mulf,
    TRef.nullary y4 (constant S_ .f32 0x00000000#32),
    TRef.binary y3 y4 y5 (fun x v => Host.reduceAdd x v reducesTo_S1x512x16x16x64_S1x512x16x16_d4 h_S_),
    TRef.unary wj y6 (broadcastInDim S1x1x1x16x64 ![3, 4] bcast_S16x64_S1x1x1x16x64_3_4),
    TRef.unary y6 y7 (broadcastInDim S1x512x1x16x64 ![0, 1, 2, 3, 4] bcast_S1x1x1x16x64_S1x512x1x16x64_0_1_2_3_4),
    TRef.binary y0 y7 y8 mulf,
    TRef.nullary y9 (constant S_ .f32 0x00000000#32),
    TRef.binary y8 y9 y10 (fun x v => Host.reduceAdd x v reducesTo_S1x512x1x16x64_S1x512x1x16_d4 h_S_),
    TRef.unary y10 y11 (broadcastInDim S1x512x16x16 ![0, 1, 2, 3] bcast_S1x512x1x16_S1x512x16x16_0_1_2_3),
    TRef.binary y5 y11 y12 addf,
    TRef.nullary y13 (constant S_ .f32 0x3F000000#32),
    TRef.unary y13 y14 (broadcastInDim S1x512x16x16x64 ![] bcast_S_S1x512x16x16x64),
    TRef.binary y14 xi y15 mulf,
    TRef.unary y12 y16 (broadcastInDim S1x512x16x16x1 ![0, 1, 2, 3] bcast_S1x512x16x16_S1x512x16x16x1_0_1_2_3),
    TRef.nullary y17 (constant S_ .f32 0x3F000000#32),
    TRef.unary y17 y18 (broadcastInDim S1x512x16x16x1 ![] bcast_S_S1x512x16x16x1),
    TRef.binary y18 y16 y19 mulf,
    TRef.unary y19 y20 (broadcastInDim S1x512x16x16x64 ![0, 1, 2, 3, 4] bcast_S1x512x16x16x1_S1x512x16x16x64_0_1_2_3_4),
    TRef.unary y0 y21 (broadcastInDim S1x512x16x16x64 ![0, 1, 2, 3, 4] bcast_S1x512x1x16x64_S1x512x16x16x64_0_1_2_3_4),
    TRef.binary y20 y21 y22 mulf,
    TRef.binary y15 y22 y23 addf,
    TRef.nullary y24 (constant S_ .f32 0x00000000#32),
    TRef.unary y24 y25 (broadcastInDim S1x512x16x16x64 ![] bcast_S_S1x512x16x16x64),
    TRef.binary y23 y25 y26 (cmpf .oge),
    TRef.nullary y27 (constant S_ .f32 0x3C23D70A#32),
    TRef.unary y27 y28 (broadcastInDim S1x512x16x16x64 ![] bcast_S_S1x512x16x16x64),
    TRef.binary y28 y23 y29 mulf,
    TRef.ternary y26 y23 y29 y30 select,
    TRef.nullary y31 (constant S_ .f32 0x3F666666#32),
    TRef.unary y31 y32 (broadcastInDim S1x512x16x16x64 ![] bcast_S_S1x512x16x16x64),
    TRef.binary y32 xav y33 mulf,
    TRef.nullary y34 (constant S_ .f32 0x3DCCCCCD#32),
    TRef.unary y34 y35 (broadcastInDim S1x512x16x16x64 ![] bcast_S_S1x512x16x16x64),
    TRef.binary y35 y30 y36 mulf,
    TRef.binary y33 y36 y37 addf,
    TRef.nullary y38 (constant S_ .f32 0x3F666666#32),
    TRef.unary y38 y39 (broadcastInDim S1x512x16x16x64 ![] bcast_S_S1x512x16x16x64),
    TRef.binary y39 xi y40 mulf,
    TRef.nullary y41 (constant S_ .f32 0x3DCCCCCD#32),
    TRef.unary y41 y42 (broadcastInDim S1x512x16x16x64 ![] bcast_S_S1x512x16x16x64),
    TRef.binary y42 y37 y43 mulf,
    TRef.binary y40 y43 y44 addf ]

variable {o hs wi wj xi xav y0 y1 y2 y3 y4 y5 y6 y7 y8 y9 y10 y11 y12 y13 y14 y15 y16 y17 y18 y19 y20 y21 y22 y23 y24 y25 y26 y27 y28 y29 y30 y31 y32 y33 y34 y35 y36 y37 y38 y39 y40 y41 y42 y43 y44}

theorem stepOps_sub :
    (stepOps (F := F) o hs wi wj xi xav y0 y1 y2 y3 y4 y5 y6 y7 y8 y9 y10 y11 y12 y13 y14 y15 y16 y17 y18 y19 y20 y21 y22 y23
      y24 y25 y26 y27 y28 y29 y30 y31 y32 y33 y34 y35 y36 y37 y38 y39 y40 y41 y42 y43 y44).Forall
      fun op => op.bufs ⊆ tcRefs τ sig :=
  ⟨unary_bufs_sub .., unary_bufs_sub .., unary_bufs_sub .., binary_bufs_sub .., nullary_bufs_sub .., binary_bufs_sub ..,
    unary_bufs_sub .., unary_bufs_sub .., binary_bufs_sub .., nullary_bufs_sub .., binary_bufs_sub .., unary_bufs_sub ..,
    binary_bufs_sub .., nullary_bufs_sub .., unary_bufs_sub .., binary_bufs_sub .., unary_bufs_sub .., nullary_bufs_sub ..,
    unary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub ..⟩

theorem stepOps_fresh :
    ∀ op ∈ stepOps (F := F) o hs wi wj xi xav y0 y1 y2 y3 y4 y5 y6 y7 y8 y9 y10 y11 y12 y13 y14 y15 y16 y17 y18 y19 y20 y21 y22
      y23 y24 y25 y26 y27 y28 y29 y30 y31 y32 y33 y34 y35 y36 y37 y38 y39 y40 y41 y42 y43 y44, op.fresh = ∅ := by
  intro _ h; (repeat (cases h with | head => rfl | tail _ h => ?_)); exact nomatch h

/-- Each operation writes only its own result buffer. -/
theorem stepOps_keeps {r : Ref sig .tc} (hr : r ∉ [y0.ref, y1.ref, y2.ref, y3.ref, y4.ref, y5.ref, y6.ref, y7.ref, y8.ref, y9.ref, y10.ref, y11.ref, y12.ref, y13.ref, y14.ref, y15.ref, y16.ref, y17.ref, y18.ref, y19.ref, y20.ref, y21.ref, y22.ref, y23.ref, y24.ref, y25.ref, y26.ref, y27.ref, y28.ref, y29.ref, y30.ref, y31.ref, y32.ref, y33.ref, y34.ref, y35.ref, y36.ref, y37.ref, y38.ref, y39.ref, y40.ref, y41.ref, y42.ref, y43.ref, y44.ref])
    (V : Valuation τ sig (Elt F)) :
    after (stepOps (F := F) o hs wi wj xi xav y0 y1 y2 y3 y4 y5 y6 y7 y8 y9 y10 y11 y12 y13 y14 y15 y16 y17 y18 y19 y20 y21 y22 y23 y24 y25 y26 y27 y28 y29 y30 y31 y32 y33 y34 y35 y36 y37 y38 y39 y40 y41 y42 y43 y44) V (dr r) = V (dr r) :=
  after_of_writes_sub _ V (by
    simp only [List.Forall, nullary_writes, unary_writes, binary_writes, ternary_writes, Finset.singleton_subset_iff,
      List.mem_toFinset, List.map_cons, List.map_nil, List.mem_cons, true_or, or_true, and_self]) hr

end Step

abbrev opsPost : List (HloOp τ sig (Elt F)) :=
  [ StableHlo.reshape main_v583 main_v584 rfl shapeCasts_S1x512x16x16x64_S1x8192x1024,
    StableHlo.reshape main_v578 main_v585 rfl shapeCasts_S1x512x16x16x64_S1x8192x1024,
    StableHlo.nullary main_cst_161 (constant S_ .f32 0x00000000#32),
    StableHlo.unary main_cst_161 main_v586 (broadcastInDim S1x8192x1024 ![] bcast_S_S1x8192x1024 : (⟨S_, .f32⟩ : BufTy).Contents (Elt F) → (⟨S1x8192x1024, .f32⟩ : BufTy).Contents (Elt F)),
    StableHlo.nullary main_c_162 (constantI S_ 32 0#32),
    StableHlo.unary main_c_162 main_v587 (broadcastInDim S8192 ![] bcast_S_S8192 : (⟨S_, .i32⟩ : BufTy).Contents (Elt F) → (⟨S8192, .i32⟩ : BufTy).Contents (Elt F)),
    StableHlo.binary main_v15 main_v587 main_v588 (cmpi .slt : (⟨S8192, .i32⟩ : BufTy).Contents (Elt F) → (⟨S8192, .i32⟩ : BufTy).Contents (Elt F) → (⟨S8192, .i1⟩ : BufTy).Contents (Elt F)),
    StableHlo.nullary main_c_163 (constantI S_ 32 8192#32),
    StableHlo.unary main_c_163 main_v589 (broadcastInDim S8192 ![] bcast_S_S8192 : (⟨S_, .i32⟩ : BufTy).Contents (Elt F) → (⟨S8192, .i32⟩ : BufTy).Contents (Elt F)),
    StableHlo.binary main_v15 main_v589 main_v590 (addi : (⟨S8192, .i32⟩ : BufTy).Contents (Elt F) → (⟨S8192, .i32⟩ : BufTy).Contents (Elt F) → (⟨S8192, .i32⟩ : BufTy).Contents (Elt F)),
    StableHlo.ternary main_v588 main_v590 main_v15 main_v591 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v591 main_v592 (broadcastInDim S8192x1 ![0] bcast_S8192_S8192x1_0 : (⟨S8192, .i32⟩ : BufTy).Contents (Elt F) → (⟨S8192x1, .i32⟩ : BufTy).Contents (Elt F)),
    StableHlo.ternary main_v586 main_v592 main_v584 main_v593 ((fun x i u => Host.scatter scatter_S1x8192x1024_S8192x1_S1x8192x1024_02_1_1_1 (fun _ b => b) x i u) : (⟨S1x8192x1024, .f32⟩ : BufTy).Contents (Elt F) → (⟨S8192x1, .i32⟩ : BufTy).Contents (Elt F) → (⟨S1x8192x1024, .f32⟩ : BufTy).Contents (Elt F) → (⟨S1x8192x1024, .f32⟩ : BufTy).Contents (Elt F)),
    StableHlo.nullary main_cst_164 (constant S_ .f32 0x00000000#32),
    StableHlo.unary main_cst_164 main_v594 (broadcastInDim S1x8192x1024 ![] bcast_S_S1x8192x1024 : (⟨S_, .f32⟩ : BufTy).Contents (Elt F) → (⟨S1x8192x1024, .f32⟩ : BufTy).Contents (Elt F)),
    StableHlo.nullary main_c_165 (constantI S_ 32 0#32),
    StableHlo.unary main_c_165 main_v595 (broadcastInDim S8192 ![] bcast_S_S8192 : (⟨S_, .i32⟩ : BufTy).Contents (Elt F) → (⟨S8192, .i32⟩ : BufTy).Contents (Elt F)),
    StableHlo.binary main_v15 main_v595 main_v596 (cmpi .slt : (⟨S8192, .i32⟩ : BufTy).Contents (Elt F) → (⟨S8192, .i32⟩ : BufTy).Contents (Elt F) → (⟨S8192, .i1⟩ : BufTy).Contents (Elt F)),
    StableHlo.nullary main_c_166 (constantI S_ 32 8192#32),
    StableHlo.unary main_c_166 main_v597 (broadcastInDim S8192 ![] bcast_S_S8192 : (⟨S_, .i32⟩ : BufTy).Contents (Elt F) → (⟨S8192, .i32⟩ : BufTy).Contents (Elt F)),
    StableHlo.binary main_v15 main_v597 main_v598 (addi : (⟨S8192, .i32⟩ : BufTy).Contents (Elt F) → (⟨S8192, .i32⟩ : BufTy).Contents (Elt F) → (⟨S8192, .i32⟩ : BufTy).Contents (Elt F)),
    StableHlo.ternary main_v596 main_v598 main_v15 main_v599 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v599 main_v600 (broadcastInDim S8192x1 ![0] bcast_S8192_S8192x1_0 : (⟨S8192, .i32⟩ : BufTy).Contents (Elt F) → (⟨S8192x1, .i32⟩ : BufTy).Contents (Elt F)),
    StableHlo.ternary main_v594 main_v600 main_v585 main_v601 ((fun x i u => Host.scatter scatter_S1x8192x1024_S8192x1_S1x8192x1024_02_1_1_1 (fun _ b => b) x i u) : (⟨S1x8192x1024, .f32⟩ : BufTy).Contents (Elt F) → (⟨S8192x1, .i32⟩ : BufTy).Contents (Elt F) → (⟨S1x8192x1024, .f32⟩ : BufTy).Contents (Elt F) → (⟨S1x8192x1024, .f32⟩ : BufTy).Contents (Elt F)) ]

end Cert.ReferenceIdeal.Hand

end
-- ==== Proof.RStep.lean ====
import proofs.«105576_g23433341567538_cont_8to1_1409_2_alg».proof.Proof.ROps

noncomputable section

namespace Cert.ReferenceIdeal.Hand

open Cert.ReferenceIdeal Idealize.ShloMosaic Idealize.SL.Sem Idealize.ShloMosaic.StableHlo
open Facts₀ Facts

variable {F : FTy → Type} [FloatOps F]

abbrev splat5 (b : BitVec 32) : FVec F S1x512x16x16x64 .f32 :=
  broadcastInDim S1x512x16x16x64 ![] bcast_S_S1x512x16x16x64 (constant S_ .f32 b)

abbrev slotK (o : Fin S1x512x16x16x64.rank → Nat) (hs : S1x512x16x16x64.Slices o S1x512x1x16x64)
    (xi : FVec F S1x512x16x16x64 .f32) : FVec F S1x512x1x16x64 .f32 :=
  extractStridedSlice S1x512x1x16x64 o xi hs

def simR (o : Fin S1x512x16x16x64.rank → Nat) (hs : S1x512x16x16x64.Slices o S1x512x1x16x64)
    (wi wj : FVec F S16x64 .f32) (xi : FVec F S1x512x16x16x64 .f32) : FVec F S1x512x16x16 .f32 :=
  addf
    (Host.reduceAdd (mulf xi (broadcastInDim S1x512x16x16x64 ![0, 1, 2, 3, 4] bcast_S1x1x1x16x64_S1x512x16x16x64_0_1_2_3_4
        (broadcastInDim S1x1x1x16x64 ![3, 4] bcast_S16x64_S1x1x1x16x64_3_4 wi)))
      (constant S_ .f32 0x00000000#32) reducesTo_S1x512x16x16x64_S1x512x16x16_d4 h_S_)
    (broadcastInDim S1x512x16x16 ![0, 1, 2, 3] bcast_S1x512x1x16_S1x512x16x16_0_1_2_3
      (Host.reduceAdd (mulf (slotK o hs xi) (broadcastInDim S1x512x1x16x64 ![0, 1, 2, 3, 4] bcast_S1x1x1x16x64_S1x512x1x16x64_0_1_2_3_4
          (broadcastInDim S1x1x1x16x64 ![3, 4] bcast_S16x64_S1x1x1x16x64_3_4 wj)))
        (constant S_ .f32 0x00000000#32) reducesTo_S1x512x1x16x64_S1x512x1x16_d4 h_S_))

def preR (o : Fin S1x512x16x16x64.rank → Nat) (hs : S1x512x16x16x64.Slices o S1x512x1x16x64)
    (wi wj : FVec F S16x64 .f32) (xi : FVec F S1x512x16x16x64 .f32) : FVec F S1x512x16x16x64 .f32 :=
  addf (mulf (splat5 0x3F000000#32) xi)
    (mulf
      (broadcastInDim S1x512x16x16x64 ![0, 1, 2, 3, 4] bcast_S1x512x16x16x1_S1x512x16x16x64_0_1_2_3_4
        (mulf (broadcastInDim S1x512x16x16x1 ![] bcast_S_S1x512x16x16x1 (constant S_ .f32 0x3F000000#32))
          (broadcastInDim S1x512x16x16x1 ![0, 1, 2, 3] bcast_S1x512x16x16_S1x512x16x16x1_0_1_2_3 (simR o hs wi wj xi))))
      (broadcastInDim S1x512x16x16x64 ![0, 1, 2, 3, 4] bcast_S1x512x1x16x64_S1x512x16x16x64_0_1_2_3_4 (slotK o hs xi)))

def actR (T : FVec F S1x512x16x16x64 .f32) : FVec F S1x512x16x16x64 .f32 :=
  select (cmpf .oge T (splat5 0x00000000#32)) T (mulf (splat5 0x3C23D70A#32) T)

def stepA (o : Fin S1x512x16x16x64.rank → Nat) (hs : S1x512x16x16x64.Slices o S1x512x1x16x64)
    (wi wj : FVec F S16x64 .f32) (xi xav : FVec F S1x512x16x16x64 .f32) : FVec F S1x512x16x16x64 .f32 :=
  addf (mulf (splat5 0x3F666666#32) xav) (mulf (splat5 0x3DCCCCCD#32) (actR (preR o hs wi wj xi)))

def stepZ (o : Fin S1x512x16x16x64.rank → Nat) (hs : S1x512x16x16x64.Slices o S1x512x1x16x64)
    (wi wj : FVec F S16x64 .f32) (xi xav : FVec F S1x512x16x16x64 .f32) : FVec F S1x512x16x16x64 .f32 :=
  addf (mulf (splat5 0x3F666666#32) xi) (mulf (splat5 0x3DCCCCCD#32) (stepA o hs wi wj xi xav))

/-- What one update's operations do to the buffers: new states by the update function, six later-read buffers kept. -/
structure StepOf (o : Fin S1x512x16x16x64.rank → Nat) (hs : S1x512x16x16x64.Slices o S1x512x1x16x64)
    (V V' : Valuation τ sig (Elt F)) (z a z' a' : FVec F S1x512x16x16x64 .f32) : Prop where
  hz : z' = stepZ o hs (V (dr main_v17)) (V (dr main_v19)) z a
  ha : a' = stepA o hs (V (dr main_v17)) (V (dr main_v19)) z a
  k17 : V' (dr main_v17) = V (dr main_v17)
  k19 : V' (dr main_v19) = V (dr main_v19)
  k15 : V' (dr main_v15) = V (dr main_v15)
  k0 : V' (dr main_arg0) = V (dr main_arg0)
  k1 : V' (dr main_arg1) = V (dr main_arg1)
  k2 : V' (dr main_arg2) = V (dr main_arg2)

end Cert.ReferenceIdeal.Hand

end
-- ==== Proof.RStepValue.lean ====
import proofs.«105576_g23433341567538_cont_8to1_1409_2_alg».proof.Proof.Spec
import proofs.«105576_g23433341567538_cont_8to1_1409_2_alg».proof.Proof.Glue
import proofs.«105576_g23433341567538_cont_8to1_1409_2_alg».proof.Proof.RStep
import Idealize.ShloMosaic.Lib.IdealHost
import Idealize.ShloMosaic.Lib.Pipeline.Value
import Idealize.ShloMosaic.PureOps.Ideal.Laws

noncomputable section

namespace Cert.ReferenceIdeal.Hand

open Cert.ReferenceIdeal Idealize.ShloMosaic
open Facts₀ Facts
open Idealize.ShloMosaic.ValueIdx (ix2 ix4 ix5)
open Cert.Ncn

theorem cLeak_val : cLeak = (((10737418 : ℝ) / 1073741824 : ℝ) : EReal) := by
  simp [cLeak, Ideal.ofBits, Ideal.ieee, -EReal.coe_mul]; norm_num

theorem sel_eq_max (c : ℝ) (h0 : 0 < c) (h1 : c ≤ 1) (T : EReal) :
    (if 0 ≤ T then T else (c : EReal) * T) = max T ((c : EReal) * T) := by
  induction T using EReal.rec with
  | bot =>
    rw [if_neg (by simp), EReal.coe_mul_bot_of_pos h0, max_self]
  | coe t =>
    rw [← EReal.coe_mul]
    by_cases ht : 0 ≤ t
    · rw [if_pos (EReal.coe_nonneg.2 ht), max_eq_left (EReal.coe_le_coe_iff.2 (by nlinarith))]
    · rw [if_neg (fun hh => ht (EReal.coe_nonneg.1 hh)), max_eq_right (EReal.coe_le_coe_iff.2 (by nlinarith))]
  | top =>
    rw [if_pos le_top, max_eq_left le_top]

theorem select_eq_leaky (T : E) :
    Scalar.select (FloatOps.cmpf (F := Ideal) .oge T (Ideal.ofBits .f32 0x00000000#32)) T (cLeak * T) = leaky T := by
  show Scalar.select (Ideal.cmp .oge T (Ideal.ofBits .f32 0x00000000#32)) T (cLeak * T) = max T (cLeak * T)
  rw [Ideal.ofBits_zero_f32, cLeak_val, ← sel_eq_max _ (by norm_num) (by norm_num) T]
  unfold Ideal.cmp Scalar.select
  by_cases h : (0 : EReal) ≤ T
  · simp [h]
  · simp [h]

theorem splat5_apply (b : BitVec 32) (i : S1x512x16x16x64.Idx) :
    splat5 (F := Ideal) b i = Ideal.ofBits .f32 b := rfl

theorem slotK_apply (k : Fin 16) (hs : S1x512x16x16x64.Slices ![0, 0, k.val, 0, 0] S1x512x1x16x64)
    (xi : FVec Ideal S1x512x16x16x64 .f32) (g : Fin 512) (z : Fin 1) (h : Fin 16) (d : Fin 64) :
    slotK (F := Ideal) ![0, 0, k.val, 0, 0] hs xi (ix5 (0 : Fin 1) g z h d) = xi (ix5 (0 : Fin 1) g k h d) := by
  refine extractStridedSlice_apply _ xi hs _ _ (fun a => ?_)
  have hz : z.val = 0 := by have := z.isLt; omega
  match a with
  | ⟨0, _⟩ => rfl
  | ⟨1, _⟩ => show g.val = 0 + g.val; omega
  | ⟨2, _⟩ => show k.val = k.val + z.val; omega
  | ⟨3, _⟩ => show h.val = 0 + h.val; omega
  | ⟨4, _⟩ => show d.val = 0 + d.val; omega

theorem st5_hcol (Y : FVec Ideal S1x512x16x16x64 .f32) (g : Fin 512) (j : Fin 16) (h : Fin 16) (d : Fin 64) :
    st5 Y g j (hcol h d) = Y (ix5 (0 : Fin 1) g j h d) := by
  have e1 : headOf (hcol h d) = h := Fin.ext (by simp only [headOf, hcol]; omega)
  have e2 : (⟨(hcol h d).val % 64, Nat.mod_lt _ (by decide)⟩ : Fin 64) = d := Fin.ext (by simp only [hcol]; omega)
  show Y (ix5 (0 : Fin 1) g j (headOf (hcol h d)) ⟨(hcol h d).val % 64, Nat.mod_lt _ (by decide)⟩) = _
  rw [e1, e2]

theorem st5_apply (Y : FVec Ideal S1x512x16x16x64 .f32) (g : Fin 512) (j : Fin 16) (col : Fin 1024) :
    st5 Y g j col = Y (ix5 (0 : Fin 1) g j (headOf col) ⟨col.val % 64, Nat.mod_lt _ (by decide)⟩) := rfl

theorem bcW16_apply (w : FVec Ideal S16x64 .f32) (a : Fin 1) (g : Fin 512) (j : Fin 16) (h : Fin 16) (d : Fin 64) :
    broadcastInDim S1x512x16x16x64 ![0, 1, 2, 3, 4] bcast_S1x1x1x16x64_S1x512x16x16x64_0_1_2_3_4
      (broadcastInDim S1x1x1x16x64 ![3, 4] bcast_S16x64_S1x1x1x16x64_3_4 w) (ix5 a g j h d) = w (ix2 h d) := by
  refine (broadcastInDim_apply _ _ _ _ (ix5 (0 : Fin 1) (0 : Fin 1) (0 : Fin 1) h d) (fun a => ?_)).trans ?_
  · match a with
    | ⟨0, _⟩ => rfl
    | ⟨1, _⟩ => rfl
    | ⟨2, _⟩ => rfl
    | ⟨3, _⟩ => rfl
    | ⟨4, _⟩ => rfl
  · exact broadcastInDim_apply _ _ _ _ (ix2 h d) (fun a => match a with | ⟨0, _⟩ => rfl | ⟨1, _⟩ => rfl)

theorem bcW1_apply (w : FVec Ideal S16x64 .f32) (a : Fin 1) (g : Fin 512) (z : Fin 1) (h : Fin 16) (d : Fin 64) :
    broadcastInDim S1x512x1x16x64 ![0, 1, 2, 3, 4] bcast_S1x1x1x16x64_S1x512x1x16x64_0_1_2_3_4
      (broadcastInDim S1x1x1x16x64 ![3, 4] bcast_S16x64_S1x1x1x16x64_3_4 w) (ix5 a g z h d) = w (ix2 h d) := by
  refine (broadcastInDim_apply _ _ _ _ (ix5 (0 : Fin 1) (0 : Fin 1) (0 : Fin 1) h d) (fun a => ?_)).trans ?_
  · match a with
    | ⟨0, _⟩ => rfl
    | ⟨1, _⟩ => rfl
    | ⟨2, _⟩ => rfl
    | ⟨3, _⟩ => rfl
    | ⟨4, _⟩ => rfl
  · exact broadcastInDim_apply _ _ _ _ (ix2 h d) (fun a => match a with | ⟨0, _⟩ => rfl | ⟨1, _⟩ => rfl)

theorem reduce16_apply (x : FVec Ideal S1x512x16x16x64 .f32) (g : Fin 512) (j : Fin 16) (h : Fin 16) :
    Host.reduceAdd x (constant S_ .f32 0x00000000#32) reducesTo_S1x512x16x16x64_S1x512x16x16_d4 h_S_ (ix4 (0 : Fin 1) g j h)
      = ∑ d : Fin 64, x (ix5 (0 : Fin 1) g j h d) := by
  have hR : S1x512x16x16x64.Reduces [4] S1x512x16x16 := by decide
  rw [ValueIdx.hostReduceAdd_apply, Ideal.hostReduceAdd_single _ hR, ValueIdx.constant_apply, Ideal.ofBits_zero_f32, zero_add]
  refine Finset.sum_congr rfl (fun d _ => congrArg x ?_)
  funext a
  apply Fin.ext
  match a with
  | ⟨0, _⟩ => rfl
  | ⟨1, _⟩ => rfl
  | ⟨2, _⟩ => rfl
  | ⟨3, _⟩ => rfl
  | ⟨4, _⟩ => rfl

theorem reduce1_apply (x : FVec Ideal S1x512x1x16x64 .f32) (g : Fin 512) (z : Fin 1) (h : Fin 16) :
    Host.reduceAdd x (constant S_ .f32 0x00000000#32) reducesTo_S1x512x1x16x64_S1x512x1x16_d4 h_S_ (ix4 (0 : Fin 1) g z h)
      = ∑ d : Fin 64, x (ix5 (0 : Fin 1) g z h d) := by
  have hR : S1x512x1x16x64.Reduces [4] S1x512x1x16 := by decide
  rw [ValueIdx.hostReduceAdd_apply, Ideal.hostReduceAdd_single _ hR, ValueIdx.constant_apply, Ideal.ofBits_zero_f32, zero_add]
  refine Finset.sum_congr rfl (fun d _ => congrArg x ?_)
  funext a
  apply Fin.ext
  match a with
  | ⟨0, _⟩ => rfl
  | ⟨1, _⟩ => rfl
  | ⟨2, _⟩ => rfl
  | ⟨3, _⟩ => rfl
  | ⟨4, _⟩ => rfl

theorem simR_apply (k : Fin 16) (hs : S1x512x16x16x64.Slices ![0, 0, k.val, 0, 0] S1x512x1x16x64) (W : Fin 2048 → E)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (xi : FVec Ideal S1x512x16x16x64 .f32) (g : Fin 512) (j : Fin 16) (h : Fin 16) :
    simR (F := Ideal) ![0, 0, k.val, 0, 0] hs wiv wjv xi (ix4 (0 : Fin 1) g j h) = sim W (st5 xi) k g j h := by
  unfold simR sim
  rw [ValueIdx.addf_apply, reduce16_apply]
  rw [broadcastInDim_apply _ _ _ _ (ix4 (0 : Fin 1) g (0 : Fin 1) h)
    (fun a => match a with | ⟨0, _⟩ => rfl | ⟨1, _⟩ => rfl | ⟨2, _⟩ => rfl | ⟨3, _⟩ => rfl)]
  rw [reduce1_apply]
  congr 1
  · refine Finset.sum_congr rfl (fun d _ => ?_)
    rw [ValueIdx.mulf_apply, bcW16_apply, hwi, st5_hcol]
  · refine Finset.sum_congr rfl (fun d _ => ?_)
    rw [ValueIdx.mulf_apply, bcW1_apply, hwj, slotK_apply, st5_hcol]

theorem preR_apply (k : Fin 16) (hs : S1x512x16x16x64.Slices ![0, 0, k.val, 0, 0] S1x512x1x16x64) (W : Fin 2048 → E)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (xi : FVec Ideal S1x512x16x16x64 .f32) (g : Fin 512) (j : Fin 16) (h : Fin 16) (d : Fin 64) :
    preR (F := Ideal) ![0, 0, k.val, 0, 0] hs wiv wjv xi (ix5 (0 : Fin 1) g j h d)
      = cHalf * xi (ix5 (0 : Fin 1) g j h d) + (cHalf * sim W (st5 xi) k g j h) * xi (ix5 (0 : Fin 1) g k h d) := by
  unfold preR
  rw [ValueIdx.addf_apply, ValueIdx.mulf_apply, ValueIdx.mulf_apply, splat5_apply]
  rw [broadcastInDim_apply _ _ _ _ (ix5 (0 : Fin 1) g j h (0 : Fin 1))
    (fun a => match a with | ⟨0, _⟩ => rfl | ⟨1, _⟩ => rfl | ⟨2, _⟩ => rfl | ⟨3, _⟩ => rfl | ⟨4, _⟩ => rfl)]
  rw [ValueIdx.mulf_apply]
  rw [broadcastInDim_apply _ _ (simR (F := Ideal) ![0, 0, k.val, 0, 0] hs wiv wjv xi) _ (ix4 (0 : Fin 1) g j h)
    (fun a => match a with | ⟨0, _⟩ => rfl | ⟨1, _⟩ => rfl | ⟨2, _⟩ => rfl | ⟨3, _⟩ => rfl)]
  rw [simR_apply k hs W wiv wjv hwi hwj]
  rw [broadcastInDim_apply _ _ (slotK (F := Ideal) ![0, 0, k.val, 0, 0] hs xi) _ (ix5 (0 : Fin 1) g (0 : Fin 1) h d)
    (fun a => match a with | ⟨0, _⟩ => rfl | ⟨1, _⟩ => rfl | ⟨2, _⟩ => rfl | ⟨3, _⟩ => rfl | ⟨4, _⟩ => rfl)]
  rw [slotK_apply]
  rfl

theorem actR_apply (T : FVec Ideal S1x512x16x16x64 .f32) (i : S1x512x16x16x64.Idx) :
    actR (F := Ideal) T i = leaky (T i) := by
  unfold actR
  rw [ValueIdx.select_apply, ValueIdx.cmpf_apply, ValueIdx.mulf_apply, splat5_apply, splat5_apply]
  exact select_eq_leaky (T i)

theorem stepA_apply (k : Fin 16) (hs : S1x512x16x16x64.Slices ![0, 0, k.val, 0, 0] S1x512x1x16x64) (W : Fin 2048 → E)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (xi xav : FVec Ideal S1x512x16x16x64 .f32) (g : Fin 512) (j : Fin 16) (h : Fin 16) (d : Fin 64) :
    Hand.stepA (F := Ideal) ![0, 0, k.val, 0, 0] hs wiv wjv xi xav (ix5 (0 : Fin 1) g j h d)
      = cMom * xav (ix5 (0 : Fin 1) g j h d)
        + cTenth * leaky (cHalf * xi (ix5 (0 : Fin 1) g j h d) + (cHalf * sim W (st5 xi) k g j h) * xi (ix5 (0 : Fin 1) g k h d)) := by
  unfold Hand.stepA
  rw [ValueIdx.addf_apply, ValueIdx.mulf_apply, ValueIdx.mulf_apply, splat5_apply, splat5_apply, actR_apply,
    preR_apply k hs W wiv wjv hwi hwj]
  rfl

theorem stepA_eq (k : Fin 16) (hs : S1x512x16x16x64.Slices ![0, 0, k.val, 0, 0] S1x512x1x16x64) (W : Fin 2048 → E)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (xi xav : FVec Ideal S1x512x16x16x64 .f32) :
    st5 (Hand.stepA (F := Ideal) ![0, 0, k.val, 0, 0] hs wiv wjv xi xav) = Ncn.stepA W k (st5 xi) (st5 xav) := by
  funext g j col
  rw [st5_apply, stepA_apply k hs W wiv wjv hwi hwj]
  rfl

theorem stepZ_eq (k : Fin 16) (hs : S1x512x16x16x64.Slices ![0, 0, k.val, 0, 0] S1x512x1x16x64) (W : Fin 2048 → E)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (xi xav : FVec Ideal S1x512x16x16x64 .f32) :
    st5 (Hand.stepZ (F := Ideal) ![0, 0, k.val, 0, 0] hs wiv wjv xi xav) = Ncn.stepZ W k (st5 xi) (st5 xav) := by
  funext g j col
  rw [st5_apply]
  unfold Hand.stepZ
  rw [ValueIdx.addf_apply, ValueIdx.mulf_apply, ValueIdx.mulf_apply, splat5_apply, splat5_apply,
    stepA_apply k hs W wiv wjv hwi hwj]
  rfl

end Cert.ReferenceIdeal.Hand

end
-- ==== Proof.RPrePost.lean ====
import proofs.«105576_g23433341567538_cont_8to1_1409_2_alg».proof.Proof.Gen.ReferenceIdeal
import proofs.«105576_g23433341567538_cont_8to1_1409_2_alg».proof.Proof.Glue
import Idealize.ShloMosaic.Lib.Pipeline.Value
import Idealize.ShloMosaic.Lib.ReduceAll

noncomputable section

namespace Cert.ReferenceIdeal.Hand

open Cert.ReferenceIdeal Idealize.ShloMosaic
open Facts₀ Facts

section Defs

variable {F : FTy → Type} [FloatOps F]

def slotIota : IVec S512x16 32 :=
  broadcastInDim S512x16 ![0, 1] bcast_S1x16_S512x16_0_1
    (broadcastInDim S1x16 ![1] bcast_S16_S1x16_1 (iotaInDim S16 32 0))

def sumGJ : IVec S512x16 32 :=
  addi
    (broadcastInDim S512x16 ![0, 1] bcast_S512x1_S512x16_0_1
      (broadcastInDim S512x1 ![0] bcast_S512_S512x1_0 (iotaInDim S512 32 0)))
    (broadcastInDim S512x16 ![0, 1] bcast_S1x16_S512x16_0_1
      (muli (broadcastInDim S1x16 ![1] bcast_S16_S1x16_1 (iotaInDim S16 32 0))
        (broadcastInDim S1x16 ![] bcast_S_S1x16 (constantI S_ 32 2#32))))

def remDiv (m : IVec S_ 32) : IVec S_ 32 :=
  select (cmpi .eq (id m) (constantI S_ 32 0#32)) (constantI S_ 32 1#32) (id m)

def remFn (a : IVec S512x16 32) (m : IVec S_ 32) : IVec S512x16 32 :=
  select
    (andi
      (cmpi .ne
        (cmpi .slt (Host.remsi a (broadcastInDim S512x16 ![] bcast_S_S512x16 (remDiv m)))
          (broadcastInDim S512x16 ![] bcast_S_S512x16 (constantI S_ 32 0#32)))
        (broadcastInDim S512x16 ![] bcast_S_S512x16 (cmpi .slt (remDiv m) (constantI S_ 32 0#32))))
      (cmpi .ne (Host.remsi a (broadcastInDim S512x16 ![] bcast_S_S512x16 (remDiv m)))
        (broadcastInDim S512x16 ![] bcast_S_S512x16 (constantI S_ 32 0#32))))
    (addi (Host.remsi a (broadcastInDim S512x16 ![] bcast_S_S512x16 (remDiv m)))
      (broadcastInDim S512x16 ![] bcast_S_S512x16 (remDiv m)))
    (Host.remsi a (broadcastInDim S512x16 ![] bcast_S_S512x16 (remDiv m)))

def idxFn : IVec S8192 32 :=
  shapeCast S8192
    (addi
      (muli (remFn sumGJ (constantI S_ 32 512#32))
        (broadcastInDim S512x16 ![] bcast_S_S512x16 (constantI S_ 32 16#32)))
      slotIota)
    shapeCasts_S512x16_S8192

def wiFn (w : FVec F S2048 .f32) : FVec F S16x64 .f32 :=
  shapeCast S16x64 (extractStridedSlice S1024 ![0] w slices_S2048_S1024_0) shapeCasts_S1024_S16x64

def wjFn (w : FVec F S2048 .f32) : FVec F S16x64 .f32 :=
  shapeCast S16x64 (extractStridedSlice S1024 ![1024] w slices_S2048_S1024_1024) shapeCasts_S1024_S16x64

def wrapFn (idx : IVec S8192 32) : IVec S8192 32 :=
  select (cmpi .slt idx (broadcastInDim S8192 ![] bcast_S_S8192 (constantI S_ 32 0#32)))
    (addi idx (broadcastInDim S8192 ![] bcast_S_S8192 (constantI S_ 32 8192#32))) idx

def wrapCol (idx : IVec S8192 32) : IVec S8192x1 32 :=
  broadcastInDim S8192x1 ![0] bcast_S8192_S8192x1_0 (wrapFn idx)

def inRange (idx : IVec S8192 32) : IVec S8192 1 :=
  Host.reduce IntOp.andi
    (andi
      (cmpi .sge (wrapCol idx) (broadcastInDim S8192x1 ![] bcast_S_S8192x1 (constantI S_ 32 0#32)))
      (cmpi .sle (wrapCol idx)
        (broadcastInDim S8192x1 ![0, 1] bcast_S1x1_S8192x1_0_1
          (broadcastInDim S1x1 ![1] bcast_S1_S1x1_1 (constantI S1 32 8191#32)))))
    (constantI S_ 1 1#1) reducesTo_S8192x1_S8192_d1 h_S_

def takeFn (x : FVec F S1x8192x1024 .f32) (idx : IVec S8192 32) : FVec F S1x8192x1024 .f32 :=
  select (broadcastInDim S1x8192x1024 ![1] bcast_S8192_S1x8192x1024_1 (inRange idx))
    (Host.gather gather_S1x8192x1024_S8192x1_S1x8192x1024_02_1_n_n_1_1_111024 x (wrapCol idx))
    (broadcastInDim S1x8192x1024 ![] bcast_S_S1x8192x1024 (constant S_ .f32 0x7FC00000#32))

def gat5 (x : FVec F S1x8192x1024 .f32) : FVec F S1x512x16x16x64 .f32 :=
  shapeCast S1x512x16x16x64 (takeFn x idxFn) shapeCasts_S1x8192x1024_S1x512x16x16x64

def scatFn (idx : IVec S8192 32) (y : FVec F S1x512x16x16x64 .f32) : FVec F S1x8192x1024 .f32 :=
  Host.scatter scatter_S1x8192x1024_S8192x1_S1x8192x1024_02_1_1_1 (fun _ b => b)
    (broadcastInDim S1x8192x1024 ![] bcast_S_S1x8192x1024 (constant S_ .f32 0x00000000#32))
    (wrapCol idx)
    (shapeCast S1x8192x1024 y shapeCasts_S1x512x16x16x64_S1x8192x1024)

end Defs

open Idealize.ShloMosaic.ValueIdx
open Cert.Ncn

theorem remWord (x : BitVec 32) (hx : x.toNat < 2 ^ 31) :
    Scalar.select
      (IntOp.andi
        (IntOp.cmpi .ne (IntOp.cmpi .slt (IntOp.remsi .host x 512#32) 0#32) (IntOp.cmpi .slt 512#32 0#32))
        (IntOp.cmpi .ne (IntOp.remsi .host x 512#32) 0#32))
      (IntOp.addi (IntOp.remsi .host x 512#32) 512#32)
      (IntOp.remsi .host x 512#32) = BitVec.ofNat 32 (x.toNat % 512) := by
  have hm : (IntOp.remsi .host x 512#32).toNat = x.toNat % 512 :=
    IntOp.toNat_remsi .host (by omega) 512 (by decide) (by decide)
  have hlt : ¬ IntOp.cmpi .slt (IntOp.remsi .host x 512#32) 0#32 = 1#1 := by
    intro h
    rw [IntOp.cmpi_slt] at h
    have h1 : (IntOp.remsi .host x 512#32).toInt = ((IntOp.remsi .host x 512#32).toNat : Int) :=
      BitVec.toInt_eq_toNat_of_lt (by omega)
    have h0 : (0#32 : BitVec 32).toInt = 0 := by decide
    omega
  rw [eq_zero_of_ne_one hlt, show IntOp.cmpi .slt 512#32 0#32 = 0#1 from by decide,
    show IntOp.cmpi .ne 0#1 0#1 = 0#1 from by decide,
    show ∀ c : BitVec 1, IntOp.andi 0#1 c = 0#1 from by decide, select_zero]
  apply BitVec.eq_of_toNat_eq
  rw [hm, BitVec.toNat_ofNat]
  omega

theorem remDiv_512 (k : S_.Idx) : remDiv (constantI S_ 32 512#32) k = 512#32 := rfl

theorem remFn_apply (a : IVec S512x16 32) (i : S512x16.Idx) (hx : (a i).toNat < 2 ^ 31) :
    remFn a (constantI S_ 32 512#32) i = BitVec.ofNat 32 ((a i).toNat % 512) := by
  rw [← remWord (a i) hx]
  simp only [remFn, select, andi, cmpi, addi, Host.remsi, broadcastInDim, remDiv_512, constantI]

theorem slotIota_apply (g : Fin 512) (j : Fin 16) : slotIota (ix2 g j) = BitVec.ofNat 32 j.val := by
  unfold slotIota
  rw [broadcastInDim_apply _ _ _ (ix2 g j) (ix2 (0 : Fin 1) j) (fun a => by
        match a with
        | ⟨0, _⟩ => rfl
        | ⟨1, _⟩ => rfl),
    broadcastInDim_apply _ _ _ (ix2 (0 : Fin 1) j) (ix1 j) (fun a => by
        match a with
        | ⟨0, _⟩ => rfl)]
  rfl

theorem sumGJ_apply (g : Fin 512) (j : Fin 16) : sumGJ (ix2 g j) = BitVec.ofNat 32 (g.val + 2 * j.val) := by
  have e1 : broadcastInDim S512x16 ![0, 1] bcast_S512x1_S512x16_0_1
      (broadcastInDim S512x1 ![0] bcast_S512_S512x1_0 (iotaInDim S512 32 0)) (ix2 g j) = BitVec.ofNat 32 g.val := by
    rw [broadcastInDim_apply _ _ _ (ix2 g j) (ix2 g (0 : Fin 1)) (fun a => by
          match a with
          | ⟨0, _⟩ => rfl
          | ⟨1, _⟩ => rfl),
      broadcastInDim_apply _ _ _ (ix2 g (0 : Fin 1)) (ix1 g) (fun a => by
          match a with
          | ⟨0, _⟩ => rfl)]
    rfl
  have e2 : broadcastInDim S512x16 ![0, 1] bcast_S1x16_S512x16_0_1
      (muli (broadcastInDim S1x16 ![1] bcast_S16_S1x16_1 (iotaInDim S16 32 0))
        (broadcastInDim S1x16 ![] bcast_S_S1x16 (constantI S_ 32 2#32))) (ix2 g j)
      = IntOp.muli (BitVec.ofNat 32 j.val) 2#32 := by
    rw [broadcastInDim_apply _ _ _ (ix2 g j) (ix2 (0 : Fin 1) j) (fun a => by
          match a with
          | ⟨0, _⟩ => rfl
          | ⟨1, _⟩ => rfl)]
    show IntOp.muli (broadcastInDim S1x16 ![1] bcast_S16_S1x16_1 (iotaInDim S16 32 0) (ix2 (0 : Fin 1) j)) 2#32 = _
    rw [broadcastInDim_apply _ _ _ (ix2 (0 : Fin 1) j) (ix1 j) (fun a => by
          match a with
          | ⟨0, _⟩ => rfl)]
    rfl
  show IntOp.addi _ _ = _
  rw [e1, e2]
  have hg := g.isLt
  have hj := j.isLt
  apply BitVec.eq_of_toNat_eq
  simp only [IntOp.addi, IntOp.muli, BitVec.toNat_add, BitVec.toNat_mul, BitVec.toNat_ofNat]
  omega

theorem idxFn_apply (r : Fin 8192) :
    idxFn (ix1 r) = BitVec.ofNat 32
      (rowOf ⟨r.val / 16, by omega⟩ ⟨r.val % 16, Nat.mod_lt _ (by decide)⟩).val := by
  have hr := r.isLt
  unfold idxFn
  rw [shapeCast_apply _ _ (ix1 r)
    (ix2 (⟨r.val / 16, by omega⟩ : Fin 512) (⟨r.val % 16, Nat.mod_lt _ (by decide)⟩ : Fin 16)) (by
      rw [Shape.rowMajor_val_two, Shape.rowMajor_val_one]
      show r.val / 16 * 16 + r.val % 16 = r.val
      omega)]
  show IntOp.addi (IntOp.muli (remFn sumGJ (constantI S_ 32 512#32) (ix2 _ _)) 16#32) (slotIota (ix2 _ _)) = _
  rw [remFn_apply _ _ (by rw [sumGJ_apply, BitVec.toNat_ofNat]; omega), sumGJ_apply, slotIota_apply]
  have e : (BitVec.ofNat 32 (r.val / 16 + 2 * (r.val % 16))).toNat = r.val / 16 + 2 * (r.val % 16) := by
    rw [BitVec.toNat_ofNat]; omega
  rw [e]
  show BitVec.ofNat 32 ((r.val / 16 + 2 * (r.val % 16)) % 512) * 16#32 + BitVec.ofNat 32 (r.val % 16)
    = BitVec.ofNat 32 ((r.val / 16 + 2 * (r.val % 16)) % 512 * 16 + r.val % 16)
  rw [BitVec.ofNat_add, BitVec.ofNat_mul]

theorem wiFn_eq (w : FVec Ideal S2048 .f32) :
    ∀ (h : Fin 16) (d : Fin 64), wiFn w (ix2 h d) = wi (vec w) (hcol h d) := by
  intro h d
  have hh := h.isLt
  have hd := d.isLt
  unfold wiFn
  rw [shapeCast_apply _ _ (ix2 h d) (ix1 (⟨h.val * 64 + d.val, by omega⟩ : Fin 1024)) (by
      rw [Shape.rowMajor_val_two, Shape.rowMajor_val_one]; rfl),
    extractStridedSlice_apply _ _ _ (ix1 (⟨h.val * 64 + d.val, by omega⟩ : Fin 1024))
      (ix1 (⟨h.val * 64 + d.val, by omega⟩ : Fin 2048)) (fun a => by
        match a with
        | ⟨0, _⟩ => show h.val * 64 + d.val = 0 + (h.val * 64 + d.val); omega)]
  rfl

theorem wjFn_eq (w : FVec Ideal S2048 .f32) :
    ∀ (h : Fin 16) (d : Fin 64), wjFn w (ix2 h d) = wj (vec w) (hcol h d) := by
  intro h d
  have hh := h.isLt
  have hd := d.isLt
  unfold wjFn
  rw [shapeCast_apply _ _ (ix2 h d) (ix1 (⟨h.val * 64 + d.val, by omega⟩ : Fin 1024)) (by
      rw [Shape.rowMajor_val_two, Shape.rowMajor_val_one]; rfl),
    extractStridedSlice_apply _ _ _ (ix1 (⟨h.val * 64 + d.val, by omega⟩ : Fin 1024))
      (ix1 (⟨1024 + (h.val * 64 + d.val), by omega⟩ : Fin 2048)) (fun a => by
        match a with
        | ⟨0, _⟩ => rfl)]
  rfl

def rowAt (r : Fin 8192) : Fin 8192 :=
  rowOf ⟨r.val / 16, by omega⟩ ⟨r.val % 16, Nat.mod_lt _ (by decide)⟩

theorem toInt_ofNat_row (n : Fin 8192) : (BitVec.ofNat 32 n.val).toInt = (n.val : Int) := by
  have hn := n.isLt
  have h1 : (BitVec.ofNat 32 n.val).toNat = n.val := by rw [BitVec.toNat_ofNat]; omega
  rw [BitVec.toInt_eq_toNat_of_lt (by omega), h1]

theorem wrapFn_idxFn (r : Fin 8192) : wrapFn idxFn (ix1 r) = BitVec.ofNat 32 (rowAt r).val := by
  have hn : ¬ IntOp.cmpi .slt (idxFn (ix1 r)) 0#32 = 1#1 := by
    rw [IntOp.cmpi_slt, idxFn_apply, toInt_ofNat_row, show (0#32 : BitVec 32).toInt = 0 from by decide]
    omega
  show Scalar.select (IntOp.cmpi .slt (idxFn (ix1 r)) 0#32) _ (idxFn (ix1 r)) = _
  rw [eq_zero_of_ne_one hn, select_zero, idxFn_apply]
  rfl

theorem wrapCol_idxFn (r : Fin 8192) (z : Fin 1) : wrapCol idxFn (ix2 r z) = BitVec.ofNat 32 (rowAt r).val := by
  unfold wrapCol
  rw [broadcastInDim_apply _ _ _ (ix2 r z) (ix1 r) (fun a => by
        match a with
        | ⟨0, _⟩ => rfl)]
  exact wrapFn_idxFn r

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem inRange_idxFn (j : S8192.Idx) : inRange idxFn j = 1#1 := by
  unfold inRange
  rw [Host.reduce_eq_foldl]
  refine foldl_andi_one _ _ fun i _ => ?_
  obtain ⟨r, z, rfl⟩ : ∃ r z, i = ix2 r z := ⟨i 0, i 1, eq_ix2 i⟩
  show IntOp.andi (IntOp.cmpi .sge (wrapCol idxFn (ix2 r z)) 0#32)
    (IntOp.cmpi .sle (wrapCol idxFn (ix2 r z)) 8191#32) = 1#1
  have hn := (rowAt r).isLt
  rw [wrapCol_idxFn, IntOp.andi_eq_one, IntOp.cmpi_sge, IntOp.cmpi_sle, toInt_ofNat_row,
    show (0#32 : BitVec 32).toInt = 0 from by decide, show (8191#32 : BitVec 32).toInt = 8191 from by decide]
  omega

theorem gather_rows_apply {α : Type} (x : S1x8192x1024.Idx → α) (idx : IVec S8192x1 32) (r : Fin 8192) (c : Fin 1024)
    (k : Fin 8192) (hk : k.val = min (idx (ix2 r (0 : Fin 1))).toInt.toNat 8191) :
    Host.gather gather_S1x8192x1024_S8192x1_S1x8192x1024_02_1_n_n_1_1_111024 x idx (ix3 (0 : Fin 1) r c)
      = x (ix3 (0 : Fin 1) k c) := by
  unfold Host.gather
  congr 1
  funext a
  apply Fin.ext
  match a with
  | ⟨0, _⟩ => rfl
  | ⟨1, _⟩ =>
    show gather_S1x8192x1024_S8192x1_S1x8192x1024_02_1_n_n_1_1_111024.start (ix3 (0 : Fin 1) r c) idx 1
      + gather_S1x8192x1024_S8192x1_S1x8192x1024_02_1_n_n_1_1_111024.batchCoord (ix3 (0 : Fin 1) r c) 1
      + gather_S1x8192x1024_S8192x1_S1x8192x1024_02_1_n_n_1_1_111024.offCoord (ix3 (0 : Fin 1) r c) 1 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 3) ∈ gather_S1x8192x1024_S8192x1_S1x8192x1024_02_1_n_n_1_1_111024.startIndexMap
      from List.mem_singleton.mpr rfl)]
    have hsi : gather_S1x8192x1024_S8192x1_S1x8192x1024_02_1_n_n_1_1_111024.siIdx (ix3 (0 : Fin 1) r c)
        ⟨List.idxOf (1 : Fin 3) gather_S1x8192x1024_S8192x1_S1x8192x1024_02_1_n_n_1_1_111024.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, hk]
    rfl
  | ⟨2, _⟩ =>
    show gather_S1x8192x1024_S8192x1_S1x8192x1024_02_1_n_n_1_1_111024.start (ix3 (0 : Fin 1) r c) idx 2
      + gather_S1x8192x1024_S8192x1_S1x8192x1024_02_1_n_n_1_1_111024.batchCoord (ix3 (0 : Fin 1) r c) 2
      + gather_S1x8192x1024_S8192x1_S1x8192x1024_02_1_n_n_1_1_111024.offCoord (ix3 (0 : Fin 1) r c) 2 = c.val
    rw [GatherDims.batchCoord_eq_zero _ _ _ List.not_mem_nil]
    unfold GatherDims.start
    rw [dif_neg (show (2 : Fin 3) ∉ gather_S1x8192x1024_S8192x1_S1x8192x1024_02_1_n_n_1_1_111024.startIndexMap
      from by decide)]
    unfold GatherDims.offCoord
    rw [dif_pos (show (2 : Fin 3) ∈ gather_S1x8192x1024_S8192x1_S1x8192x1024_02_1_n_n_1_1_111024.sKept
      from by decide)]
    show 0 + 0 + c.val = c.val
    omega

theorem rowAt_mk (g : Fin 512) (j : Fin 16) (h : 16 * g.val + j.val < 8192) :
    rowAt ⟨16 * g.val + j.val, h⟩ = rowOf g j := by
  have hg := g.isLt
  have hj := j.isLt
  have e1 : (⟨(16 * g.val + j.val) / 16, by omega⟩ : Fin 512) = g :=
    Fin.ext (show (16 * g.val + j.val) / 16 = g.val by omega)
  have e2 : (⟨(16 * g.val + j.val) % 16, Nat.mod_lt _ (by decide)⟩ : Fin 16) = j :=
    Fin.ext (show (16 * g.val + j.val) % 16 = j.val by omega)
  show rowOf ⟨(16 * g.val + j.val) / 16, _⟩ ⟨(16 * g.val + j.val) % 16, _⟩ = rowOf g j
  rw [e1, e2]

theorem takeFn_idxFn (x : FVec Ideal S1x8192x1024 .f32) (r : Fin 8192) (c : Fin 1024) :
    takeFn x idxFn (ix3 (0 : Fin 1) r c) = x (ix3 (0 : Fin 1) (rowAt r) c) := by
  show Scalar.select
      (broadcastInDim S1x8192x1024 ![1] bcast_S8192_S1x8192x1024_1 (inRange idxFn) (ix3 (0 : Fin 1) r c))
      (Host.gather gather_S1x8192x1024_S8192x1_S1x8192x1024_02_1_n_n_1_1_111024 x (wrapCol idxFn) (ix3 (0 : Fin 1) r c))
      _ = _
  rw [show broadcastInDim S1x8192x1024 ![1] bcast_S8192_S1x8192x1024_1 (inRange idxFn) (ix3 (0 : Fin 1) r c) = 1#1
      from inRange_idxFn _, select_one]
  refine gather_rows_apply x _ r c (rowAt r) ?_
  have hn := (rowAt r).isLt
  rw [wrapCol_idxFn, toInt_ofNat_row]
  omega

theorem gat5_eq (x : FVec Ideal S1x8192x1024 .f32) : st5 (gat5 x) = gat (mat x) := by
  funext g j col
  have hg := g.isLt
  have hj := j.isLt
  have hc := col.isLt
  show gat5 x (ix5 (0 : Fin 1) g j (headOf col) ⟨col.val % 64, Nat.mod_lt _ (by decide)⟩) = x (ix3 (0 : Fin 1) (rowOf g j) col)
  unfold gat5
  rw [shapeCast_apply _ _ _ (ix3 (0 : Fin 1) (⟨16 * g.val + j.val, by omega⟩ : Fin 8192) col) (by
      rw [Shape.rowMajor_val_three, Shape.rowMajor_val_five]
      show (0 * 8192 + (16 * g.val + j.val)) * 1024 + col.val
        = (((0 * 512 + g.val) * 16 + j.val) * 16 + col.val / 64) * 64 + col.val % 64
      omega),
    takeFn_idxFn]
  rw [rowAt_mk]

section Scatter
variable {α : Type} {s si u : Shape} {w : Nat}

def scatStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (scatStep d idx upd) x := rfl

theorem scatStep_hit (d : ScatterDims s si u) (idx : IVec si w) (upd : u.Idx → α) (r : s.Idx → α) (n : Fin u.numel)
    (i : s.Idx) (h : d.resultIdx? (u.rowMajor.symm n) idx = some i) :
    scatStep d idx upd r n i = upd (u.rowMajor.symm n) := by
  simp only [scatStep, h, if_true]

theorem scatStep_miss (d : ScatterDims s si u) (idx : IVec si w) (upd : u.Idx → α) (r : s.Idx → α) (n : Fin u.numel)
    (i : s.Idx) (h : ¬ d.resultIdx? (u.rowMajor.symm n) idx = some i) :
    scatStep d idx upd r n i = r i := by
  unfold scatStep
  generalize d.resultIdx? (u.rowMajor.symm n) idx = q at h
  cases q with
  | none => rfl
  | some i' =>
    show (if i = i' then _ else r i) = r i
    rw [if_neg]
    intro e
    subst e
    exact h rfl

theorem foldl_scatStep_miss (d : ScatterDims s si u) (idx : IVec si w) (upd : u.Idx → α) (i : s.Idx) :
    ∀ (l : List (Fin u.numel)) (r : s.Idx → α), (∀ n ∈ l, ¬ d.resultIdx? (u.rowMajor.symm n) idx = some i) →
      l.foldl (scatStep d idx upd) r i = r i
  | [], _, _ => rfl
  | a :: t, r, h => by
    rw [List.foldl_cons, foldl_scatStep_miss d idx upd i t _ fun n hn => h n (List.mem_cons_of_mem _ hn),
      scatStep_miss d idx upd r a i (h a List.mem_cons_self)]

theorem foldl_scatStep_hit (d : ScatterDims s si u) (idx : IVec si w) (upd : u.Idx → α) (i : s.Idx) (m₀ : u.Idx)
    (hu : ∀ m, d.resultIdx? m idx = some i → m = m₀) :
    ∀ (l : List (Fin u.numel)) (r : s.Idx → α), (∃ n ∈ l, d.resultIdx? (u.rowMajor.symm n) idx = some i) →
      l.foldl (scatStep d idx upd) r i = upd m₀
  | [], _, h => by obtain ⟨n, hn, _⟩ := h; exact absurd hn List.not_mem_nil
  | a :: t, r, h => by
    rw [List.foldl_cons]
    by_cases ht : ∃ n ∈ t, d.resultIdx? (u.rowMajor.symm n) idx = some i
    · exact foldl_scatStep_hit d idx upd i m₀ hu t _ ht
    · have ha : d.resultIdx? (u.rowMajor.symm a) idx = some i := by
        obtain ⟨n, hn, hh⟩ := h
        rcases List.mem_cons.1 hn with rfl | hn
        · exact hh
        · exact absurd ⟨n, hn, hh⟩ ht
      rw [foldl_scatStep_miss d idx upd i t _ fun n hn hh => ht ⟨n, hn, hh⟩, scatStep_hit d idx upd r a i ha, hu _ ha]

theorem scatter_set_apply (d : ScatterDims s si u) (x : s.Idx → α) (idx : IVec si w) (upd : u.Idx → α) (i : s.Idx)
    (m₀ : u.Idx) (h₀ : d.resultIdx? m₀ idx = some i) (hu : ∀ m, d.resultIdx? m idx = some i → m = m₀) :
    Host.scatter d (fun _ b => b) x idx upd i = upd m₀ := by
  rw [scatter_eq_foldl]
  refine foldl_scatStep_hit d idx upd i m₀ hu _ _ ⟨u.rowMajor m₀, List.mem_finRange _, ?_⟩
  rw [Equiv.symm_apply_apply]
  exact h₀

theorem resultIdx?_eq_some_iff (d : ScatterDims s si u) (idx : IVec si w) (m : u.Idx) (i : s.Idx) :
    d.resultIdx? m idx = some i ↔ ∀ a, d.start m idx a + (d.window m a : Int) = ((i a).val : Int) := by
  unfold ScatterDims.resultIdx?
  constructor
  · intro h a
    split at h
    · next hh =>
      have e := congrFun (Option.some.inj h) a
      have e' : (d.start m idx a + (d.window m a : Int)).toNat = (i a).val := congrArg Fin.val e
      have := (hh a).1
      omega
    · exact absurd h (by simp)
  · intro h
    have hh : ∀ a, 0 ≤ d.start m idx a + (d.window m a : Int) ∧ d.start m idx a + (d.window m a : Int) < s.size a := by
      intro a
      have := (i a).isLt
      rw [h a]
      omega
    rw [dif_pos hh]
    congr 1
    funext a
    apply Fin.ext
    show (d.start m idx a + (d.window m a : Int)).toNat = (i a).val
    rw [h a]
    omega

end Scatter

theorem rowScatter_lands (idx : IVec S8192x1 32) (z : Fin 1) (r : Fin 8192) (c : Fin 1024) (z' : Fin 1) (r' : Fin 8192)
    (c' : Fin 1024) :
    scatter_S1x8192x1024_S8192x1_S1x8192x1024_02_1_1_1.resultIdx? (ix3 z r c) idx = some (ix3 z' r' c')
      ↔ (idx (ix2 r (0 : Fin 1))).toInt = (r'.val : Int) ∧ c = c' := by
  have s0 : scatter_S1x8192x1024_S8192x1_S1x8192x1024_02_1_1_1.start (ix3 z r c) idx 0 = 0 := by
    unfold ScatterDims.start; rw [dif_neg (by decide)]
  have w0 : scatter_S1x8192x1024_S8192x1_S1x8192x1024_02_1_1_1.window (ix3 z r c) 0 = z.val := by
    unfold ScatterDims.window; rw [dif_pos (by decide)]; rfl
  have s2 : scatter_S1x8192x1024_S8192x1_S1x8192x1024_02_1_1_1.start (ix3 z r c) idx 2 = 0 := by
    unfold ScatterDims.start; rw [dif_neg (by decide)]
  have w2 : scatter_S1x8192x1024_S8192x1_S1x8192x1024_02_1_1_1.window (ix3 z r c) 2 = c.val := by
    unfold ScatterDims.window; rw [dif_pos (by decide)]; rfl
  have w1 : scatter_S1x8192x1024_S8192x1_S1x8192x1024_02_1_1_1.window (ix3 z r c) 1 = 0 := by
    unfold ScatterDims.window; rw [dif_neg (by decide)]
  have s1 : scatter_S1x8192x1024_S8192x1_S1x8192x1024_02_1_1_1.start (ix3 z r c) idx 1
      = (idx (ix2 r (0 : Fin 1))).toInt := by
    unfold ScatterDims.start
    rw [dif_pos (show (1 : Fin 3) ∈ scatter_S1x8192x1024_S8192x1_S1x8192x1024_02_1_1_1.scatterDimsToOperandDims
      from List.mem_singleton.mpr rfl)]
    have hsi : scatter_S1x8192x1024_S8192x1_S1x8192x1024_02_1_1_1.siIdx (ix3 z r c)
        ⟨List.idxOf (1 : Fin 3) scatter_S1x8192x1024_S8192x1_S1x8192x1024_02_1_1_1.scatterDimsToOperandDims,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
  have hz : z.val = 0 := by omega
  have hz' : z'.val = 0 := by omega
  rw [resultIdx?_eq_some_iff]
  constructor
  · intro h
    have h1 : scatter_S1x8192x1024_S8192x1_S1x8192x1024_02_1_1_1.start (ix3 z r c) idx 1
        + (scatter_S1x8192x1024_S8192x1_S1x8192x1024_02_1_1_1.window (ix3 z r c) 1 : Int) = (r'.val : Int) := h 1
    have h2 : scatter_S1x8192x1024_S8192x1_S1x8192x1024_02_1_1_1.start (ix3 z r c) idx 2
        + (scatter_S1x8192x1024_S8192x1_S1x8192x1024_02_1_1_1.window (ix3 z r c) 2 : Int) = (c'.val : Int) := h 2
    rw [s1, w1] at h1
    rw [s2, w2] at h2
    exact ⟨by omega, Fin.ext (by omega)⟩
  · rintro ⟨h1, h2⟩ a
    match a with
    | ⟨0, _⟩ =>
      show scatter_S1x8192x1024_S8192x1_S1x8192x1024_02_1_1_1.start (ix3 z r c) idx 0
        + (scatter_S1x8192x1024_S8192x1_S1x8192x1024_02_1_1_1.window (ix3 z r c) 0 : Int) = (z'.val : Int)
      rw [s0, w0]; omega
    | ⟨1, _⟩ =>
      show scatter_S1x8192x1024_S8192x1_S1x8192x1024_02_1_1_1.start (ix3 z r c) idx 1
        + (scatter_S1x8192x1024_S8192x1_S1x8192x1024_02_1_1_1.window (ix3 z r c) 1 : Int) = (r'.val : Int)
      rw [s1, w1]; omega
    | ⟨2, _⟩ =>
      show scatter_S1x8192x1024_S8192x1_S1x8192x1024_02_1_1_1.start (ix3 z r c) idx 2
        + (scatter_S1x8192x1024_S8192x1_S1x8192x1024_02_1_1_1.window (ix3 z r c) 2 : Int) = (c'.val : Int)
      rw [s2, w2, h2]; omega

theorem rowAt_eq_iff (r i : Fin 8192) : rowAt r = i ↔ r.val = 16 * (groupOf i).val + (slotOf i).val := by
  have hr := r.isLt
  constructor
  · intro h
    have hg : groupOf i = ⟨r.val / 16, by omega⟩ := by rw [← h]; exact groupOf_rowOf _ _
    have hs : slotOf i = ⟨r.val % 16, Nat.mod_lt _ (by decide)⟩ := by rw [← h]; exact slotOf_rowOf _ _
    rw [hg, hs]
    show r.val = 16 * (r.val / 16) + r.val % 16
    omega
  · intro h
    have e : r = ⟨16 * (groupOf i).val + (slotOf i).val, by omega⟩ := Fin.ext h
    rw [e, rowAt_mk, rowOf_groupOf]

theorem scatFn_eq (y : FVec Ideal S1x512x16x16x64 .f32) :
    ∀ i : S1x8192x1024.Idx, scatFn idxFn y i = sct (st5 y) (i 1) (i 2) := by
  intro i
  obtain ⟨z', r', c', rfl⟩ : ∃ (z' : Fin 1) (r' : Fin 8192) (c' : Fin 1024), i = ix3 z' r' c' :=
    ⟨i 0, i 1, i 2, eq_ix3 i⟩
  show scatFn idxFn y (ix3 z' r' c') = sct (st5 y) r' c'
  have hg := (groupOf r').isLt
  have hs := (slotOf r').isLt
  have hc := c'.isLt
  unfold scatFn
  rw [scatter_set_apply _ _ _ _ (ix3 z' r' c')
    (ix3 (0 : Fin 1) (⟨16 * (groupOf r').val + (slotOf r').val, by omega⟩ : Fin 8192) c')
    ((rowScatter_lands _ _ _ _ _ _ _).2 ⟨by
        rw [wrapCol_idxFn, toInt_ofNat_row, rowAt_mk, rowOf_groupOf], rfl⟩)
    (fun m hm => by
      obtain ⟨z, r, c, rfl⟩ : ∃ (z : Fin 1) (r : Fin 8192) (c : Fin 1024), m = ix3 z r c :=
        ⟨m 0, m 1, m 2, eq_ix3 m⟩
      obtain ⟨h1, h2⟩ := (rowScatter_lands _ _ _ _ _ _ _).1 hm
      rw [wrapCol_idxFn, toInt_ofNat_row] at h1
      have h3 : rowAt r = r' := Fin.ext (by omega)
      have h4 := (rowAt_eq_iff _ _).1 h3
      have e1 : z = 0 := Subsingleton.elim _ _
      have e2 : r = ⟨16 * (groupOf r').val + (slotOf r').val, by omega⟩ := Fin.ext h4
      rw [e1, e2, h2])]
  rw [shapeCast_apply _ _ _
    (ix5 (0 : Fin 1) (groupOf r') (slotOf r') (headOf c') (⟨c'.val % 64, Nat.mod_lt _ (by decide)⟩ : Fin 64)) (by
      rw [Shape.rowMajor_val_three, Shape.rowMajor_val_five]
      show (((0 * 512 + (groupOf r').val) * 16 + (slotOf r').val) * 16 + c'.val / 64) * 64 + c'.val % 64
        = (0 * 8192 + (16 * (groupOf r').val + (slotOf r').val)) * 1024 + c'.val
      omega)]
  rfl

end Cert.ReferenceIdeal.Hand

end
-- ==== Proof.RPre.lean ====
import proofs.«105576_g23433341567538_cont_8to1_1409_2_alg».proof.Proof.ROps
import proofs.«105576_g23433341567538_cont_8to1_1409_2_alg».proof.Proof.RPrePost
import Idealize.ShloMosaic.Lib.StableHlo.Run

noncomputable section

namespace Cert.ReferenceIdeal.Hand

open Cert.ReferenceIdeal Idealize.ShloMosaic Idealize.SL.Sem Idealize.ShloMosaic.StableHlo
open Facts₀ Facts

variable {F : FTy → Type} [FloatOps F]

abbrev opsPreA : List (HloOp τ sig (Elt F)) := opsPre.take 39

abbrev opsPreB : List (HloOp τ sig (Elt F)) := (opsPre.drop 39).take 4

abbrev opsPreC : List (HloOp τ sig (Elt F)) := (opsPre.drop 43).take 24

abbrev opsPreD : List (HloOp τ sig (Elt F)) := opsPre.drop 67

theorem opsPre_cut : opsPre (F := F) = opsPreA ++ (opsPreB ++ (opsPreC ++ opsPreD)) := rfl

theorem after_app (l₁ l₂ : List (HloOp τ sig (Elt F))) (V : Valuation τ sig (Elt F)) :
    after (l₁ ++ l₂) V = after l₂ (after l₁ V) := by
  induction l₁ generalizing V with
  | nil => rfl
  | cons op l ih => exact ih _

theorem after_opsPre (V : Valuation τ sig (Elt F)) :
    after opsPre V = after opsPreD (after opsPreC (after opsPreB (after opsPreA V))) := by
  rw [opsPre_cut, after_app, after_app, after_app]

theorem preA_v15 (W : Valuation τ sig (Elt F)) :
    after opsPreA W (dr main_v15) = idxFn := by
  simp only [opsPreA, opsPre, List.drop_succ_cons, List.drop_zero, List.take_succ_cons, List.take_zero]
  after_results_simp
  simp only [TRef.ofBuf, TRef.toBuf, cast_cast, cast_eq]
  rfl

theorem preA_arg0 (W : Valuation τ sig (Elt F)) :
    after opsPreA W (dr main_arg0) = W (dr main_arg0) := by
  simp only [opsPreA, opsPre, List.drop_succ_cons, List.drop_zero, List.take_succ_cons, List.take_zero]
  after_results_simp

theorem preA_arg1 (W : Valuation τ sig (Elt F)) :
    after opsPreA W (dr main_arg1) = W (dr main_arg1) := by
  simp only [opsPreA, opsPre, List.drop_succ_cons, List.drop_zero, List.take_succ_cons, List.take_zero]
  after_results_simp

theorem preA_arg2 (W : Valuation τ sig (Elt F)) :
    after opsPreA W (dr main_arg2) = W (dr main_arg2) := by
  simp only [opsPreA, opsPre, List.drop_succ_cons, List.drop_zero, List.take_succ_cons, List.take_zero]
  after_results_simp

theorem preB_v17 (W : Valuation τ sig (Elt F)) :
    after opsPreB W (dr main_v17) = wiFn (W (dr main_arg2)) := by
  simp only [opsPreB, opsPre, List.drop_succ_cons, List.drop_zero, List.take_succ_cons, List.take_zero]
  after_results_simp
  rfl

theorem preB_v19 (W : Valuation τ sig (Elt F)) :
    after opsPreB W (dr main_v19) = wjFn (W (dr main_arg2)) := by
  simp only [opsPreB, opsPre, List.drop_succ_cons, List.drop_zero, List.take_succ_cons, List.take_zero]
  after_results_simp
  rfl

theorem preB_v15 (W : Valuation τ sig (Elt F)) :
    after opsPreB W (dr main_v15) = W (dr main_v15) := by
  simp only [opsPreB, opsPre, List.drop_succ_cons, List.drop_zero, List.take_succ_cons, List.take_zero]
  after_results_simp

theorem preB_arg0 (W : Valuation τ sig (Elt F)) :
    after opsPreB W (dr main_arg0) = W (dr main_arg0) := by
  simp only [opsPreB, opsPre, List.drop_succ_cons, List.drop_zero, List.take_succ_cons, List.take_zero]
  after_results_simp

theorem preB_arg1 (W : Valuation τ sig (Elt F)) :
    after opsPreB W (dr main_arg1) = W (dr main_arg1) := by
  simp only [opsPreB, opsPre, List.drop_succ_cons, List.drop_zero, List.take_succ_cons, List.take_zero]
  after_results_simp

theorem preB_arg2 (W : Valuation τ sig (Elt F)) :
    after opsPreB W (dr main_arg2) = W (dr main_arg2) := by
  simp only [opsPreB, opsPre, List.drop_succ_cons, List.drop_zero, List.take_succ_cons, List.take_zero]
  after_results_simp

theorem preC_v21 (W : Valuation τ sig (Elt F)) :
    after opsPreC W (dr main_v21) = shapeCast S1x512x16x16x64 (takeFn (W (dr main_arg0)) (W (dr main_v15))) shapeCasts_S1x8192x1024_S1x512x16x16x64 := by
  simp only [opsPreC, opsPre, List.drop_succ_cons, List.drop_zero, List.take_succ_cons, List.take_zero]
  after_results_simp
  simp only [TRef.ofBuf, TRef.toBuf, cast_cast, cast_eq]
  rfl

theorem preC_v15 (W : Valuation τ sig (Elt F)) :
    after opsPreC W (dr main_v15) = W (dr main_v15) := by
  simp only [opsPreC, opsPre, List.drop_succ_cons, List.drop_zero, List.take_succ_cons, List.take_zero]
  after_results_simp

theorem preC_v17 (W : Valuation τ sig (Elt F)) :
    after opsPreC W (dr main_v17) = W (dr main_v17) := by
  simp only [opsPreC, opsPre, List.drop_succ_cons, List.drop_zero, List.take_succ_cons, List.take_zero]
  after_results_simp

theorem preC_v19 (W : Valuation τ sig (Elt F)) :
    after opsPreC W (dr main_v19) = W (dr main_v19) := by
  simp only [opsPreC, opsPre, List.drop_succ_cons, List.drop_zero, List.take_succ_cons, List.take_zero]
  after_results_simp

theorem preC_arg0 (W : Valuation τ sig (Elt F)) :
    after opsPreC W (dr main_arg0) = W (dr main_arg0) := by
  simp only [opsPreC, opsPre, List.drop_succ_cons, List.drop_zero, List.take_succ_cons, List.take_zero]
  after_results_simp

theorem preC_arg1 (W : Valuation τ sig (Elt F)) :
    after opsPreC W (dr main_arg1) = W (dr main_arg1) := by
  simp only [opsPreC, opsPre, List.drop_succ_cons, List.drop_zero, List.take_succ_cons, List.take_zero]
  after_results_simp

theorem preC_arg2 (W : Valuation τ sig (Elt F)) :
    after opsPreC W (dr main_arg2) = W (dr main_arg2) := by
  simp only [opsPreC, opsPre, List.drop_succ_cons, List.drop_zero, List.take_succ_cons, List.take_zero]
  after_results_simp

theorem preD_v23 (W : Valuation τ sig (Elt F)) :
    after opsPreD W (dr main_v23) = shapeCast S1x512x16x16x64 (takeFn (W (dr main_arg1)) (W (dr main_v15))) shapeCasts_S1x8192x1024_S1x512x16x16x64 := by
  simp only [opsPreD, opsPre, List.drop_succ_cons, List.drop_zero, List.take_succ_cons, List.take_zero]
  after_results_simp
  simp only [TRef.ofBuf, TRef.toBuf, cast_cast, cast_eq]
  rfl

theorem preD_v15 (W : Valuation τ sig (Elt F)) :
    after opsPreD W (dr main_v15) = W (dr main_v15) := by
  simp only [opsPreD, opsPre, List.drop_succ_cons, List.drop_zero, List.take_succ_cons, List.take_zero]
  after_results_simp

theorem preD_v17 (W : Valuation τ sig (Elt F)) :
    after opsPreD W (dr main_v17) = W (dr main_v17) := by
  simp only [opsPreD, opsPre, List.drop_succ_cons, List.drop_zero, List.take_succ_cons, List.take_zero]
  after_results_simp

theorem preD_v19 (W : Valuation τ sig (Elt F)) :
    after opsPreD W (dr main_v19) = W (dr main_v19) := by
  simp only [opsPreD, opsPre, List.drop_succ_cons, List.drop_zero, List.take_succ_cons, List.take_zero]
  after_results_simp

theorem preD_v21 (W : Valuation τ sig (Elt F)) :
    after opsPreD W (dr main_v21) = W (dr main_v21) := by
  simp only [opsPreD, opsPre, List.drop_succ_cons, List.drop_zero, List.take_succ_cons, List.take_zero]
  after_results_simp

theorem preD_arg0 (W : Valuation τ sig (Elt F)) :
    after opsPreD W (dr main_arg0) = W (dr main_arg0) := by
  simp only [opsPreD, opsPre, List.drop_succ_cons, List.drop_zero, List.take_succ_cons, List.take_zero]
  after_results_simp

theorem preD_arg1 (W : Valuation τ sig (Elt F)) :
    after opsPreD W (dr main_arg1) = W (dr main_arg1) := by
  simp only [opsPreD, opsPre, List.drop_succ_cons, List.drop_zero, List.take_succ_cons, List.take_zero]
  after_results_simp

theorem preD_arg2 (W : Valuation τ sig (Elt F)) :
    after opsPreD W (dr main_arg2) = W (dr main_arg2) := by
  simp only [opsPreD, opsPre, List.drop_succ_cons, List.drop_zero, List.take_succ_cons, List.take_zero]
  after_results_simp

theorem pre_v15 (V : Valuation τ sig (Elt F)) :
    after opsPre V (dr main_v15) = idxFn := by
  rw [after_opsPre, preD_v15, preC_v15, preB_v15, preA_v15]

theorem pre_v17 (V : Valuation τ sig (Elt F)) :
    after opsPre V (dr main_v17) = wiFn (V (dr main_arg2)) := by
  rw [after_opsPre, preD_v17, preC_v17, preB_v17, preA_arg2]

theorem pre_v19 (V : Valuation τ sig (Elt F)) :
    after opsPre V (dr main_v19) = wjFn (V (dr main_arg2)) := by
  rw [after_opsPre, preD_v19, preC_v19, preB_v19, preA_arg2]

theorem pre_v21 (V : Valuation τ sig (Elt F)) :
    after opsPre V (dr main_v21) = gat5 (V (dr main_arg0)) := by
  rw [after_opsPre, preD_v21, preC_v21, preB_arg0, preA_arg0, preB_v15, preA_v15]
  rfl

theorem pre_v23 (V : Valuation τ sig (Elt F)) :
    after opsPre V (dr main_v23) = gat5 (V (dr main_arg1)) := by
  rw [after_opsPre, preD_v23, preC_arg1, preB_arg1, preA_arg1, preC_v15, preB_v15, preA_v15]
  rfl

theorem pre_arg0 (V : Valuation τ sig (Elt F)) :
    after opsPre V (dr main_arg0) = V (dr main_arg0) := by
  rw [after_opsPre, preD_arg0, preC_arg0, preB_arg0, preA_arg0]

theorem pre_arg1 (V : Valuation τ sig (Elt F)) :
    after opsPre V (dr main_arg1) = V (dr main_arg1) := by
  rw [after_opsPre, preD_arg1, preC_arg1, preB_arg1, preA_arg1]

theorem pre_arg2 (V : Valuation τ sig (Elt F)) :
    after opsPre V (dr main_arg2) = V (dr main_arg2) := by
  rw [after_opsPre, preD_arg2, preC_arg2, preB_arg2, preA_arg2]

end Cert.ReferenceIdeal.Hand

end
-- ==== Proof.RPost.lean ====
import proofs.«105576_g23433341567538_cont_8to1_1409_2_alg».proof.Proof.ROps
import proofs.«105576_g23433341567538_cont_8to1_1409_2_alg».proof.Proof.RPrePost
import Idealize.ShloMosaic.Lib.StableHlo.Run

noncomputable section

namespace Cert.ReferenceIdeal.Hand

open Cert.ReferenceIdeal Idealize.ShloMosaic Idealize.SL.Sem Idealize.ShloMosaic.StableHlo
open Facts₀ Facts

variable {F : FTy → Type} [FloatOps F]

theorem post_v593 (V : Valuation τ sig (Elt F)) :
    after opsPost V (dr main_v593) = scatFn (V (dr main_v15)) (V (dr main_v583)) := by
  after_results_simp
  rfl

theorem post_v601 (V : Valuation τ sig (Elt F)) :
    after opsPost V (dr main_v601) = scatFn (V (dr main_v15)) (V (dr main_v578)) := by
  after_results_simp
  rfl

theorem post_arg0 (V : Valuation τ sig (Elt F)) :
    after opsPost V (dr main_arg0) = V (dr main_arg0) := by
  after_results_simp

theorem post_arg1 (V : Valuation τ sig (Elt F)) :
    after opsPost V (dr main_arg1) = V (dr main_arg1) := by
  after_results_simp

theorem post_arg2 (V : Valuation τ sig (Elt F)) :
    after opsPost V (dr main_arg2) = V (dr main_arg2) := by
  after_results_simp

end Cert.ReferenceIdeal.Hand

end
-- ==== Proof.RStepTable.lean ====
import proofs.«105576_g23433341567538_cont_8to1_1409_2_alg».proof.Proof.ROps

noncomputable section

namespace Cert.ReferenceIdeal.Hand

open Cert.ReferenceIdeal Idealize.ShloMosaic Idealize.SL.Sem Idealize.ShloMosaic.StableHlo
open Facts₀ Facts

variable {F : FTy → Type} [FloatOps F]

abbrev opsStep0 : List (HloOp τ sig (Elt F)) :=
  stepOps ![0, 0, 0, 0, 0] slices_S1x512x16x16x64_S1x512x1x16x64_0_0_0_0_0 (.of main_v17) (.of main_v19) (.of main_v21) (.of main_v23) (.of main_v24) (.of main_v25) (.of main_v26) (.of main_v27) (.of main_cst) (.of main_v28) (.of main_v29) (.of main_v30) (.of main_v31) (.of main_cst_2) (.of main_v32) (.of main_v33) (.of main_v34) (.of main_cst_3) (.of main_v35) (.of main_v36) (.of main_v37) (.of main_cst_4) (.of main_v38) (.of main_v39) (.of main_v40) (.of main_v41) (.of main_v42) (.of main_v43) (.of main_cst_5) (.of main_v44) (.of main_v45) (.of main_cst_6) (.of main_v46) (.of main_v47) main_call3.v0 (.of main_cst_7) (.of main_v49) (.of main_v50) (.of main_cst_8) (.of main_v51) (.of main_v52) (.of main_v53) (.of main_cst_9) (.of main_v54) (.of main_v55) (.of main_cst_10) (.of main_v56) (.of main_v57) (.of main_v58)

abbrev opsStep1 : List (HloOp τ sig (Elt F)) :=
  stepOps ![0, 0, 1, 0, 0] slices_S1x512x16x16x64_S1x512x1x16x64_0_0_1_0_0 (.of main_v17) (.of main_v19) (.of main_v58) (.of main_v53) (.of main_v59) (.of main_v60) (.of main_v61) (.of main_v62) (.of main_cst_11) (.of main_v63) (.of main_v64) (.of main_v65) (.of main_v66) (.of main_cst_12) (.of main_v67) (.of main_v68) (.of main_v69) (.of main_cst_13) (.of main_v70) (.of main_v71) (.of main_v72) (.of main_cst_14) (.of main_v73) (.of main_v74) (.of main_v75) (.of main_v76) (.of main_v77) (.of main_v78) (.of main_cst_15) (.of main_v79) (.of main_v80) (.of main_cst_16) (.of main_v81) (.of main_v82) main_call4.v0 (.of main_cst_17) (.of main_v84) (.of main_v85) (.of main_cst_18) (.of main_v86) (.of main_v87) (.of main_v88) (.of main_cst_19) (.of main_v89) (.of main_v90) (.of main_cst_20) (.of main_v91) (.of main_v92) (.of main_v93)

abbrev opsStep2 : List (HloOp τ sig (Elt F)) :=
  stepOps ![0, 0, 2, 0, 0] slices_S1x512x16x16x64_S1x512x1x16x64_0_0_2_0_0 (.of main_v17) (.of main_v19) (.of main_v93) (.of main_v88) (.of main_v94) (.of main_v95) (.of main_v96) (.of main_v97) (.of main_cst_21) (.of main_v98) (.of main_v99) (.of main_v100) (.of main_v101) (.of main_cst_22) (.of main_v102) (.of main_v103) (.of main_v104) (.of main_cst_23) (.of main_v105) (.of main_v106) (.of main_v107) (.of main_cst_24) (.of main_v108) (.of main_v109) (.of main_v110) (.of main_v111) (.of main_v112) (.of main_v113) (.of main_cst_25) (.of main_v114) (.of main_v115) (.of main_cst_26) (.of main_v116) (.of main_v117) main_call5.v0 (.of main_cst_27) (.of main_v119) (.of main_v120) (.of main_cst_28) (.of main_v121) (.of main_v122) (.of main_v123) (.of main_cst_29) (.of main_v124) (.of main_v125) (.of main_cst_30) (.of main_v126) (.of main_v127) (.of main_v128)

abbrev opsStep3 : List (HloOp τ sig (Elt F)) :=
  stepOps ![0, 0, 3, 0, 0] slices_S1x512x16x16x64_S1x512x1x16x64_0_0_3_0_0 (.of main_v17) (.of main_v19) (.of main_v128) (.of main_v123) (.of main_v129) (.of main_v130) (.of main_v131) (.of main_v132) (.of main_cst_31) (.of main_v133) (.of main_v134) (.of main_v135) (.of main_v136) (.of main_cst_32) (.of main_v137) (.of main_v138) (.of main_v139) (.of main_cst_33) (.of main_v140) (.of main_v141) (.of main_v142) (.of main_cst_34) (.of main_v143) (.of main_v144) (.of main_v145) (.of main_v146) (.of main_v147) (.of main_v148) (.of main_cst_35) (.of main_v149) (.of main_v150) (.of main_cst_36) (.of main_v151) (.of main_v152) main_call6.v0 (.of main_cst_37) (.of main_v154) (.of main_v155) (.of main_cst_38) (.of main_v156) (.of main_v157) (.of main_v158) (.of main_cst_39) (.of main_v159) (.of main_v160) (.of main_cst_40) (.of main_v161) (.of main_v162) (.of main_v163)

abbrev opsStep4 : List (HloOp τ sig (Elt F)) :=
  stepOps ![0, 0, 4, 0, 0] slices_S1x512x16x16x64_S1x512x1x16x64_0_0_4_0_0 (.of main_v17) (.of main_v19) (.of main_v163) (.of main_v158) (.of main_v164) (.of main_v165) (.of main_v166) (.of main_v167) (.of main_cst_41) (.of main_v168) (.of main_v169) (.of main_v170) (.of main_v171) (.of main_cst_42) (.of main_v172) (.of main_v173) (.of main_v174) (.of main_cst_43) (.of main_v175) (.of main_v176) (.of main_v177) (.of main_cst_44) (.of main_v178) (.of main_v179) (.of main_v180) (.of main_v181) (.of main_v182) (.of main_v183) (.of main_cst_45) (.of main_v184) (.of main_v185) (.of main_cst_46) (.of main_v186) (.of main_v187) main_call7.v0 (.of main_cst_47) (.of main_v189) (.of main_v190) (.of main_cst_48) (.of main_v191) (.of main_v192) (.of main_v193) (.of main_cst_49) (.of main_v194) (.of main_v195) (.of main_cst_50) (.of main_v196) (.of main_v197) (.of main_v198)

abbrev opsStep5 : List (HloOp τ sig (Elt F)) :=
  stepOps ![0, 0, 5, 0, 0] slices_S1x512x16x16x64_S1x512x1x16x64_0_0_5_0_0 (.of main_v17) (.of main_v19) (.of main_v198) (.of main_v193) (.of main_v199) (.of main_v200) (.of main_v201) (.of main_v202) (.of main_cst_51) (.of main_v203) (.of main_v204) (.of main_v205) (.of main_v206) (.of main_cst_52) (.of main_v207) (.of main_v208) (.of main_v209) (.of main_cst_53) (.of main_v210) (.of main_v211) (.of main_v212) (.of main_cst_54) (.of main_v213) (.of main_v214) (.of main_v215) (.of main_v216) (.of main_v217) (.of main_v218) (.of main_cst_55) (.of main_v219) (.of main_v220) (.of main_cst_56) (.of main_v221) (.of main_v222) main_call8.v0 (.of main_cst_57) (.of main_v224) (.of main_v225) (.of main_cst_58) (.of main_v226) (.of main_v227) (.of main_v228) (.of main_cst_59) (.of main_v229) (.of main_v230) (.of main_cst_60) (.of main_v231) (.of main_v232) (.of main_v233)

abbrev opsStep6 : List (HloOp τ sig (Elt F)) :=
  stepOps ![0, 0, 6, 0, 0] slices_S1x512x16x16x64_S1x512x1x16x64_0_0_6_0_0 (.of main_v17) (.of main_v19) (.of main_v233) (.of main_v228) (.of main_v234) (.of main_v235) (.of main_v236) (.of main_v237) (.of main_cst_61) (.of main_v238) (.of main_v239) (.of main_v240) (.of main_v241) (.of main_cst_62) (.of main_v242) (.of main_v243) (.of main_v244) (.of main_cst_63) (.of main_v245) (.of main_v246) (.of main_v247) (.of main_cst_64) (.of main_v248) (.of main_v249) (.of main_v250) (.of main_v251) (.of main_v252) (.of main_v253) (.of main_cst_65) (.of main_v254) (.of main_v255) (.of main_cst_66) (.of main_v256) (.of main_v257) main_call9.v0 (.of main_cst_67) (.of main_v259) (.of main_v260) (.of main_cst_68) (.of main_v261) (.of main_v262) (.of main_v263) (.of main_cst_69) (.of main_v264) (.of main_v265) (.of main_cst_70) (.of main_v266) (.of main_v267) (.of main_v268)

abbrev opsStep7 : List (HloOp τ sig (Elt F)) :=
  stepOps ![0, 0, 7, 0, 0] slices_S1x512x16x16x64_S1x512x1x16x64_0_0_7_0_0 (.of main_v17) (.of main_v19) (.of main_v268) (.of main_v263) (.of main_v269) (.of main_v270) (.of main_v271) (.of main_v272) (.of main_cst_71) (.of main_v273) (.of main_v274) (.of main_v275) (.of main_v276) (.of main_cst_72) (.of main_v277) (.of main_v278) (.of main_v279) (.of main_cst_73) (.of main_v280) (.of main_v281) (.of main_v282) (.of main_cst_74) (.of main_v283) (.of main_v284) (.of main_v285) (.of main_v286) (.of main_v287) (.of main_v288) (.of main_cst_75) (.of main_v289) (.of main_v290) (.of main_cst_76) (.of main_v291) (.of main_v292) main_call10.v0 (.of main_cst_77) (.of main_v294) (.of main_v295) (.of main_cst_78) (.of main_v296) (.of main_v297) (.of main_v298) (.of main_cst_79) (.of main_v299) (.of main_v300) (.of main_cst_80) (.of main_v301) (.of main_v302) (.of main_v303)

abbrev opsStep8 : List (HloOp τ sig (Elt F)) :=
  stepOps ![0, 0, 8, 0, 0] slices_S1x512x16x16x64_S1x512x1x16x64_0_0_8_0_0 (.of main_v17) (.of main_v19) (.of main_v303) (.of main_v298) (.of main_v304) (.of main_v305) (.of main_v306) (.of main_v307) (.of main_cst_81) (.of main_v308) (.of main_v309) (.of main_v310) (.of main_v311) (.of main_cst_82) (.of main_v312) (.of main_v313) (.of main_v314) (.of main_cst_83) (.of main_v315) (.of main_v316) (.of main_v317) (.of main_cst_84) (.of main_v318) (.of main_v319) (.of main_v320) (.of main_v321) (.of main_v322) (.of main_v323) (.of main_cst_85) (.of main_v324) (.of main_v325) (.of main_cst_86) (.of main_v326) (.of main_v327) main_call11.v0 (.of main_cst_87) (.of main_v329) (.of main_v330) (.of main_cst_88) (.of main_v331) (.of main_v332) (.of main_v333) (.of main_cst_89) (.of main_v334) (.of main_v335) (.of main_cst_90) (.of main_v336) (.of main_v337) (.of main_v338)

abbrev opsStep9 : List (HloOp τ sig (Elt F)) :=
  stepOps ![0, 0, 9, 0, 0] slices_S1x512x16x16x64_S1x512x1x16x64_0_0_9_0_0 (.of main_v17) (.of main_v19) (.of main_v338) (.of main_v333) (.of main_v339) (.of main_v340) (.of main_v341) (.of main_v342) (.of main_cst_91) (.of main_v343) (.of main_v344) (.of main_v345) (.of main_v346) (.of main_cst_92) (.of main_v347) (.of main_v348) (.of main_v349) (.of main_cst_93) (.of main_v350) (.of main_v351) (.of main_v352) (.of main_cst_94) (.of main_v353) (.of main_v354) (.of main_v355) (.of main_v356) (.of main_v357) (.of main_v358) (.of main_cst_95) (.of main_v359) (.of main_v360) (.of main_cst_96) (.of main_v361) (.of main_v362) main_call12.v0 (.of main_cst_97) (.of main_v364) (.of main_v365) (.of main_cst_98) (.of main_v366) (.of main_v367) (.of main_v368) (.of main_cst_99) (.of main_v369) (.of main_v370) (.of main_cst_100) (.of main_v371) (.of main_v372) (.of main_v373)

abbrev opsStep10 : List (HloOp τ sig (Elt F)) :=
  stepOps ![0, 0, 10, 0, 0] slices_S1x512x16x16x64_S1x512x1x16x64_0_0_10_0_0 (.of main_v17) (.of main_v19) (.of main_v373) (.of main_v368) (.of main_v374) (.of main_v375) (.of main_v376) (.of main_v377) (.of main_cst_101) (.of main_v378) (.of main_v379) (.of main_v380) (.of main_v381) (.of main_cst_102) (.of main_v382) (.of main_v383) (.of main_v384) (.of main_cst_103) (.of main_v385) (.of main_v386) (.of main_v387) (.of main_cst_104) (.of main_v388) (.of main_v389) (.of main_v390) (.of main_v391) (.of main_v392) (.of main_v393) (.of main_cst_105) (.of main_v394) (.of main_v395) (.of main_cst_106) (.of main_v396) (.of main_v397) main_call13.v0 (.of main_cst_107) (.of main_v399) (.of main_v400) (.of main_cst_108) (.of main_v401) (.of main_v402) (.of main_v403) (.of main_cst_109) (.of main_v404) (.of main_v405) (.of main_cst_110) (.of main_v406) (.of main_v407) (.of main_v408)

abbrev opsStep11 : List (HloOp τ sig (Elt F)) :=
  stepOps ![0, 0, 11, 0, 0] slices_S1x512x16x16x64_S1x512x1x16x64_0_0_11_0_0 (.of main_v17) (.of main_v19) (.of main_v408) (.of main_v403) (.of main_v409) (.of main_v410) (.of main_v411) (.of main_v412) (.of main_cst_111) (.of main_v413) (.of main_v414) (.of main_v415) (.of main_v416) (.of main_cst_112) (.of main_v417) (.of main_v418) (.of main_v419) (.of main_cst_113) (.of main_v420) (.of main_v421) (.of main_v422) (.of main_cst_114) (.of main_v423) (.of main_v424) (.of main_v425) (.of main_v426) (.of main_v427) (.of main_v428) (.of main_cst_115) (.of main_v429) (.of main_v430) (.of main_cst_116) (.of main_v431) (.of main_v432) main_call14.v0 (.of main_cst_117) (.of main_v434) (.of main_v435) (.of main_cst_118) (.of main_v436) (.of main_v437) (.of main_v438) (.of main_cst_119) (.of main_v439) (.of main_v440) (.of main_cst_120) (.of main_v441) (.of main_v442) (.of main_v443)

abbrev opsStep12 : List (HloOp τ sig (Elt F)) :=
  stepOps ![0, 0, 12, 0, 0] slices_S1x512x16x16x64_S1x512x1x16x64_0_0_12_0_0 (.of main_v17) (.of main_v19) (.of main_v443) (.of main_v438) (.of main_v444) (.of main_v445) (.of main_v446) (.of main_v447) (.of main_cst_121) (.of main_v448) (.of main_v449) (.of main_v450) (.of main_v451) (.of main_cst_122) (.of main_v452) (.of main_v453) (.of main_v454) (.of main_cst_123) (.of main_v455) (.of main_v456) (.of main_v457) (.of main_cst_124) (.of main_v458) (.of main_v459) (.of main_v460) (.of main_v461) (.of main_v462) (.of main_v463) (.of main_cst_125) (.of main_v464) (.of main_v465) (.of main_cst_126) (.of main_v466) (.of main_v467) main_call15.v0 (.of main_cst_127) (.of main_v469) (.of main_v470) (.of main_cst_128) (.of main_v471) (.of main_v472) (.of main_v473) (.of main_cst_129) (.of main_v474) (.of main_v475) (.of main_cst_130) (.of main_v476) (.of main_v477) (.of main_v478)

abbrev opsStep13 : List (HloOp τ sig (Elt F)) :=
  stepOps ![0, 0, 13, 0, 0] slices_S1x512x16x16x64_S1x512x1x16x64_0_0_13_0_0 (.of main_v17) (.of main_v19) (.of main_v478) (.of main_v473) (.of main_v479) (.of main_v480) (.of main_v481) (.of main_v482) (.of main_cst_131) (.of main_v483) (.of main_v484) (.of main_v485) (.of main_v486) (.of main_cst_132) (.of main_v487) (.of main_v488) (.of main_v489) (.of main_cst_133) (.of main_v490) (.of main_v491) (.of main_v492) (.of main_cst_134) (.of main_v493) (.of main_v494) (.of main_v495) (.of main_v496) (.of main_v497) (.of main_v498) (.of main_cst_135) (.of main_v499) (.of main_v500) (.of main_cst_136) (.of main_v501) (.of main_v502) main_call16.v0 (.of main_cst_137) (.of main_v504) (.of main_v505) (.of main_cst_138) (.of main_v506) (.of main_v507) (.of main_v508) (.of main_cst_139) (.of main_v509) (.of main_v510) (.of main_cst_140) (.of main_v511) (.of main_v512) (.of main_v513)

abbrev opsStep14 : List (HloOp τ sig (Elt F)) :=
  stepOps ![0, 0, 14, 0, 0] slices_S1x512x16x16x64_S1x512x1x16x64_0_0_14_0_0 (.of main_v17) (.of main_v19) (.of main_v513) (.of main_v508) (.of main_v514) (.of main_v515) (.of main_v516) (.of main_v517) (.of main_cst_141) (.of main_v518) (.of main_v519) (.of main_v520) (.of main_v521) (.of main_cst_142) (.of main_v522) (.of main_v523) (.of main_v524) (.of main_cst_143) (.of main_v525) (.of main_v526) (.of main_v527) (.of main_cst_144) (.of main_v528) (.of main_v529) (.of main_v530) (.of main_v531) (.of main_v532) (.of main_v533) (.of main_cst_145) (.of main_v534) (.of main_v535) (.of main_cst_146) (.of main_v536) (.of main_v537) main_call17.v0 (.of main_cst_147) (.of main_v539) (.of main_v540) (.of main_cst_148) (.of main_v541) (.of main_v542) (.of main_v543) (.of main_cst_149) (.of main_v544) (.of main_v545) (.of main_cst_150) (.of main_v546) (.of main_v547) (.of main_v548)

abbrev opsStep15 : List (HloOp τ sig (Elt F)) :=
  stepOps ![0, 0, 15, 0, 0] slices_S1x512x16x16x64_S1x512x1x16x64_0_0_15_0_0 (.of main_v17) (.of main_v19) (.of main_v548) (.of main_v543) (.of main_v549) (.of main_v550) (.of main_v551) (.of main_v552) (.of main_cst_151) (.of main_v553) (.of main_v554) (.of main_v555) (.of main_v556) (.of main_cst_152) (.of main_v557) (.of main_v558) (.of main_v559) (.of main_cst_153) (.of main_v560) (.of main_v561) (.of main_v562) (.of main_cst_154) (.of main_v563) (.of main_v564) (.of main_v565) (.of main_v566) (.of main_v567) (.of main_v568) (.of main_cst_155) (.of main_v569) (.of main_v570) (.of main_cst_156) (.of main_v571) (.of main_v572) main_call18.v0 (.of main_cst_157) (.of main_v574) (.of main_v575) (.of main_cst_158) (.of main_v576) (.of main_v577) (.of main_v578) (.of main_cst_159) (.of main_v579) (.of main_v580) (.of main_cst_160) (.of main_v581) (.of main_v582) (.of main_v583)

abbrev ops : List (HloOp τ sig (Elt F)) :=
  opsPre ++ (opsStep0 ++ (opsStep1 ++ (opsStep2 ++ (opsStep3 ++ (opsStep4 ++ (opsStep5 ++ (opsStep6 ++ (opsStep7 ++ (opsStep8 ++ (opsStep9 ++ (opsStep10 ++ (opsStep11 ++ (opsStep12 ++ (opsStep13 ++ (opsStep14 ++ (opsStep15 ++ opsPost))))))))))))))))

end Cert.ReferenceIdeal.Hand

end
-- ==== Proof.RStepFacts.lean ====
import proofs.«105576_g23433341567538_cont_8to1_1409_2_alg».proof.Proof.RStepTable
import proofs.«105576_g23433341567538_cont_8to1_1409_2_alg».proof.Proof.RStep
import Idealize.ShloMosaic.Lib.StableHlo.Run

noncomputable section

namespace Cert.ReferenceIdeal.Hand

open Cert.ReferenceIdeal Idealize.ShloMosaic Idealize.SL.Sem Idealize.ShloMosaic.StableHlo
open Facts₀ Facts

variable {F : FTy → Type} [FloatOps F]

theorem step0 (V : Valuation τ sig (Elt F)) :
    StepOf ![0, 0, 0, 0, 0] slices_S1x512x16x16x64_S1x512x1x16x64_0_0_0_0_0 V (after opsStep0 V)
      (V (dr main_v21)) (V (dr main_v23)) (after opsStep0 V (dr main_v58)) (after opsStep0 V (dr main_v53)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step1 (V : Valuation τ sig (Elt F)) :
    StepOf ![0, 0, 1, 0, 0] slices_S1x512x16x16x64_S1x512x1x16x64_0_0_1_0_0 V (after opsStep1 V)
      (V (dr main_v58)) (V (dr main_v53)) (after opsStep1 V (dr main_v93)) (after opsStep1 V (dr main_v88)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step2 (V : Valuation τ sig (Elt F)) :
    StepOf ![0, 0, 2, 0, 0] slices_S1x512x16x16x64_S1x512x1x16x64_0_0_2_0_0 V (after opsStep2 V)
      (V (dr main_v93)) (V (dr main_v88)) (after opsStep2 V (dr main_v128)) (after opsStep2 V (dr main_v123)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step3 (V : Valuation τ sig (Elt F)) :
    StepOf ![0, 0, 3, 0, 0] slices_S1x512x16x16x64_S1x512x1x16x64_0_0_3_0_0 V (after opsStep3 V)
      (V (dr main_v128)) (V (dr main_v123)) (after opsStep3 V (dr main_v163)) (after opsStep3 V (dr main_v158)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step4 (V : Valuation τ sig (Elt F)) :
    StepOf ![0, 0, 4, 0, 0] slices_S1x512x16x16x64_S1x512x1x16x64_0_0_4_0_0 V (after opsStep4 V)
      (V (dr main_v163)) (V (dr main_v158)) (after opsStep4 V (dr main_v198)) (after opsStep4 V (dr main_v193)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step5 (V : Valuation τ sig (Elt F)) :
    StepOf ![0, 0, 5, 0, 0] slices_S1x512x16x16x64_S1x512x1x16x64_0_0_5_0_0 V (after opsStep5 V)
      (V (dr main_v198)) (V (dr main_v193)) (after opsStep5 V (dr main_v233)) (after opsStep5 V (dr main_v228)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step6 (V : Valuation τ sig (Elt F)) :
    StepOf ![0, 0, 6, 0, 0] slices_S1x512x16x16x64_S1x512x1x16x64_0_0_6_0_0 V (after opsStep6 V)
      (V (dr main_v233)) (V (dr main_v228)) (after opsStep6 V (dr main_v268)) (after opsStep6 V (dr main_v263)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step7 (V : Valuation τ sig (Elt F)) :
    StepOf ![0, 0, 7, 0, 0] slices_S1x512x16x16x64_S1x512x1x16x64_0_0_7_0_0 V (after opsStep7 V)
      (V (dr main_v268)) (V (dr main_v263)) (after opsStep7 V (dr main_v303)) (after opsStep7 V (dr main_v298)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step8 (V : Valuation τ sig (Elt F)) :
    StepOf ![0, 0, 8, 0, 0] slices_S1x512x16x16x64_S1x512x1x16x64_0_0_8_0_0 V (after opsStep8 V)
      (V (dr main_v303)) (V (dr main_v298)) (after opsStep8 V (dr main_v338)) (after opsStep8 V (dr main_v333)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step9 (V : Valuation τ sig (Elt F)) :
    StepOf ![0, 0, 9, 0, 0] slices_S1x512x16x16x64_S1x512x1x16x64_0_0_9_0_0 V (after opsStep9 V)
      (V (dr main_v338)) (V (dr main_v333)) (after opsStep9 V (dr main_v373)) (after opsStep9 V (dr main_v368)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step10 (V : Valuation τ sig (Elt F)) :
    StepOf ![0, 0, 10, 0, 0] slices_S1x512x16x16x64_S1x512x1x16x64_0_0_10_0_0 V (after opsStep10 V)
      (V (dr main_v373)) (V (dr main_v368)) (after opsStep10 V (dr main_v408)) (after opsStep10 V (dr main_v403)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step11 (V : Valuation τ sig (Elt F)) :
    StepOf ![0, 0, 11, 0, 0] slices_S1x512x16x16x64_S1x512x1x16x64_0_0_11_0_0 V (after opsStep11 V)
      (V (dr main_v408)) (V (dr main_v403)) (after opsStep11 V (dr main_v443)) (after opsStep11 V (dr main_v438)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step12 (V : Valuation τ sig (Elt F)) :
    StepOf ![0, 0, 12, 0, 0] slices_S1x512x16x16x64_S1x512x1x16x64_0_0_12_0_0 V (after opsStep12 V)
      (V (dr main_v443)) (V (dr main_v438)) (after opsStep12 V (dr main_v478)) (after opsStep12 V (dr main_v473)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step13 (V : Valuation τ sig (Elt F)) :
    StepOf ![0, 0, 13, 0, 0] slices_S1x512x16x16x64_S1x512x1x16x64_0_0_13_0_0 V (after opsStep13 V)
      (V (dr main_v478)) (V (dr main_v473)) (after opsStep13 V (dr main_v513)) (after opsStep13 V (dr main_v508)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step14 (V : Valuation τ sig (Elt F)) :
    StepOf ![0, 0, 14, 0, 0] slices_S1x512x16x16x64_S1x512x1x16x64_0_0_14_0_0 V (after opsStep14 V)
      (V (dr main_v513)) (V (dr main_v508)) (after opsStep14 V (dr main_v548)) (after opsStep14 V (dr main_v543)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

theorem step15 (V : Valuation τ sig (Elt F)) :
    StepOf ![0, 0, 15, 0, 0] slices_S1x512x16x16x64_S1x512x1x16x64_0_0_15_0_0 V (after opsStep15 V)
      (V (dr main_v548)) (V (dr main_v543)) (after opsStep15 V (dr main_v583)) (after opsStep15 V (dr main_v578)) :=
  ⟨by after_results_simp; rfl, by after_results_simp; rfl, stepOps_keeps (by decide) V, stepOps_keeps (by decide) V,
    stepOps_keeps (by decide) V, stepOps_keeps (by decide) V, stepOps_keeps (by decide) V, stepOps_keeps (by decide) V⟩

end Cert.ReferenceIdeal.Hand

end
-- ==== Proof.RSub.lean ====
import proofs.«105576_g23433341567538_cont_8to1_1409_2_alg».proof.Proof.RStepTable
import Idealize.ShloMosaic.Lib.StableHlo.Run

noncomputable section

namespace Cert.ReferenceIdeal.Hand

open Cert.ReferenceIdeal Idealize.ShloMosaic Idealize.SL.Sem Idealize.ShloMosaic.StableHlo
open Facts₀ Facts

variable {F : FTy → Type} [FloatOps F]

theorem opsPre_sub : (opsPre : List (HloOp τ sig (Elt F))).Forall fun op => op.bufs ⊆ tcRefs τ sig :=
  ⟨nullary_bufs_sub .., nullary_bufs_sub .., unary_bufs_sub .., unary_bufs_sub .., nullary_bufs_sub .., unary_bufs_sub .., binary_bufs_sub .., unary_bufs_sub ..,
    unary_bufs_sub .., binary_bufs_sub .., nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., binary_bufs_sub .., reshape_bufs_sub .., unary_bufs_sub ..,
    reshape_bufs_sub .., unary_bufs_sub .., reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub .., nullary_bufs_sub ..,
    unary_bufs_sub .., ternary_bufs_sub .., reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub .., nullary_bufs_sub ..,
    unary_bufs_sub .., ternary_bufs_sub .., reshape_bufs_sub ..⟩

theorem opsPre_fresh : ∀ op ∈ (opsPre : List (HloOp τ sig (Elt F))), op.fresh = ∅ := by
  intro _ h; (repeat (cases h with | head => rfl | tail _ h => ?_)); exact nomatch h

theorem opsPost_sub : (opsPost : List (HloOp τ sig (Elt F))).Forall fun op => op.bufs ⊆ tcRefs τ sig :=
  ⟨reshape_bufs_sub .., reshape_bufs_sub .., nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub .., unary_bufs_sub .., ternary_bufs_sub ..⟩

theorem opsPost_fresh : ∀ op ∈ (opsPost : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  simp only [ops, List.forall_append]
  exact ⟨opsPre_sub, stepOps_sub, stepOps_sub, stepOps_sub, stepOps_sub, stepOps_sub, stepOps_sub, stepOps_sub, stepOps_sub, stepOps_sub, stepOps_sub, stepOps_sub, stepOps_sub, stepOps_sub, stepOps_sub, stepOps_sub, stepOps_sub, opsPost_sub⟩

theorem ops_fresh : ∀ op ∈ (ops : List (HloOp τ sig (Elt F))), op.fresh = ∅ := by
  simp only [ops, List.forall_mem_append]
  exact ⟨opsPre_fresh, stepOps_fresh, stepOps_fresh, stepOps_fresh, stepOps_fresh, stepOps_fresh, stepOps_fresh, stepOps_fresh, stepOps_fresh, stepOps_fresh, stepOps_fresh, stepOps_fresh, stepOps_fresh, stepOps_fresh, stepOps_fresh, stepOps_fresh, stepOps_fresh, opsPost_fresh⟩

end Cert.ReferenceIdeal.Hand

end
-- ==== Proof.RRun.lean ====
import proofs.«105576_g23433341567538_cont_8to1_1409_2_alg».proof.Proof.RSub
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The operations of `l` from index `i` on, run as consecutive windows of the sizes `ns` and then the rest. -/
def cutRun {Λ : Labels} (l : List (HloOp τ sig (Elt F))) : ℕ → List ℕ → Prog (TpuEff nD τ sig (Elt F) Λ .tc) PUnit
  | i, [] => seq (l.drop i)
  | i, n :: ns => seq ((l.drop i).take n) >>= fun _ => cutRun l (i + n) ns

/-- A line is its windows one after the other, wherever it is cut. -/
theorem seq_drop_eq_cutRun {Λ : Labels} (l : List (HloOp τ sig (Elt F))) (i : ℕ) (ns : List ℕ) :
    (seq (l.drop i) : Prog (TpuEff nD τ sig (Elt F) Λ .tc) PUnit) = cutRun l i ns := by
  induction ns generalizing i with
  | nil => rfl
  | cons n ns ih => rw [cutRun, ← ih, ← seq_append, ← List.drop_drop, List.take_append_drop]

variable (c : Dev nD)

theorem part0_eq : main_part0 (F := F) c = seq ((ops.drop 0).take 124) := rfl
theorem part1_eq : main_part1 (F := F) c = seq ((ops.drop 124).take 60) := rfl
theorem part2_eq : main_part2 (F := F) c = seq ((ops.drop 184).take 60) := rfl
theorem part3_eq : main_part3 (F := F) c = seq ((ops.drop 244).take 60) := rfl
theorem part4_eq : main_part4 (F := F) c = seq ((ops.drop 304).take 60) := rfl
theorem part5_eq : main_part5 (F := F) c = seq ((ops.drop 364).take 60) := rfl
theorem part6_eq : main_part6 (F := F) c = seq ((ops.drop 424).take 60) := rfl
theorem part7_eq : main_part7 (F := F) c = seq ((ops.drop 484).take 60) := rfl
theorem part8_eq : main_part8 (F := F) c = seq ((ops.drop 544).take 60) := rfl
theorem part9_eq : main_part9 (F := F) c = seq ((ops.drop 604).take 60) := rfl
theorem part10_eq : main_part10 (F := F) c = seq ((ops.drop 664).take 60) := rfl
theorem part11_eq : main_part11 (F := F) c = seq ((ops.drop 724).take 60) := rfl
theorem part12_eq : main_part12 (F := F) c = seq (ops.drop 784) := rfl

/-- @main is stated in thirteen parts; each part is a slice of the one list of operations. -/
theorem main_eq : main (F := F) c = seq ops := by
  refine Eq.trans ?_ (seq_drop_eq_cutRun ops 0 [124, 60, 60, 60, 60, 60, 60, 60, 60, 60, 60, 60]).symm
  unfold main
  rw [part0_eq, part1_eq, part2_eq, part3_eq, part4_eq, part5_eq, part6_eq, part7_eq, part8_eq, part9_eq, part10_eq,
    part11_eq, part12_eq]
  rfl

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RValue.lean ====
import proofs.«105576_g23433341567538_cont_8to1_1409_2_alg».proof.Proof.Spec
import proofs.«105576_g23433341567538_cont_8to1_1409_2_alg».proof.Proof.Glue
import proofs.«105576_g23433341567538_cont_8to1_1409_2_alg».proof.Proof.RStep
import proofs.«105576_g23433341567538_cont_8to1_1409_2_alg».proof.Proof.RStepValue
import proofs.«105576_g23433341567538_cont_8to1_1409_2_alg».proof.Proof.RPrePost
import proofs.«105576_g23433341567538_cont_8to1_1409_2_alg».proof.Proof.RPre
import proofs.«105576_g23433341567538_cont_8to1_1409_2_alg».proof.Proof.RPost
import proofs.«105576_g23433341567538_cont_8to1_1409_2_alg».proof.Proof.RStepFacts
import proofs.«105576_g23433341567538_cont_8to1_1409_2_alg».proof.Proof.RRun

noncomputable section

namespace Cert.ReferenceIdeal.Hand

open Cert.ReferenceIdeal Idealize.ShloMosaic Idealize.SL.Sem Idealize.ShloMosaic.StableHlo
open Facts₀ Facts
open Idealize.ShloMosaic.ValueIdx (ix2 ix4 ix5)
open Cert.Ncn

theorem iter_succ_of_lt (W : Fin 2048 → E) (s : St × St) (n : Nat) (hn : n < 16) :
    iter W (n + 1) s
      = (Ncn.stepZ W ⟨n, hn⟩ (iter W n s).1 (iter W n s).2, Ncn.stepA W ⟨n, hn⟩ (iter W n s).1 (iter W n s).2) := by
  have e : (⟨n % 16, Nat.mod_lt _ (by decide)⟩ : Fin 16) = ⟨n, hn⟩ := Fin.ext (Nat.mod_eq_of_lt hn)
  show (Ncn.stepZ W ⟨n % 16, _⟩ (iter W n s).1 (iter W n s).2, Ncn.stepA W ⟨n % 16, _⟩ (iter W n s).1 (iter W n s).2) = _
  rw [e]

theorem step_inv (W : Fin 2048 → E) (s : St × St) (n : Nat) (hn : n < 16)
    (hs : S1x512x16x16x64.Slices ![0, 0, n, 0, 0] S1x512x1x16x64)
    (wiv wjv : FVec Ideal S16x64 .f32) (hwi : ∀ (h : Fin 16) (d : Fin 64), wiv (ix2 h d) = wi W (hcol h d))
    (hwj : ∀ (h : Fin 16) (d : Fin 64), wjv (ix2 h d) = wj W (hcol h d))
    (z a : FVec Ideal S1x512x16x16x64 .f32) (hz : st5 z = (iter W n s).1) (ha : st5 a = (iter W n s).2) :
    st5 (Hand.stepZ (F := Ideal) ![0, 0, n, 0, 0] hs wiv wjv z a) = (iter W (n + 1) s).1
      ∧ st5 (Hand.stepA (F := Ideal) ![0, 0, n, 0, 0] hs wiv wjv z a) = (iter W (n + 1) s).2 := by
  rw [iter_succ_of_lt W s n hn, ← hz, ← ha]
  exact ⟨stepZ_eq ⟨n, hn⟩ hs W wiv wjv hwi hwj z a, stepA_eq ⟨n, hn⟩ hs W wiv wjv hwi hwj z a⟩

/-- After n updates: z and a hold the specification's two states; weights, row table and arguments are where they were. -/
structure Walk (W : Fin 2048 → E) (s : St × St) (wiv wjv : FVec Ideal S16x64 .f32) (idx : IVec S8192 32)
    (a0 a1 : FVec Ideal S1x8192x1024 .f32) (a2 : FVec Ideal S2048 .f32)
    (n : Nat) (V : Valuation τ sig (Elt Ideal)) (z a : FVec Ideal S1x512x16x16x64 .f32) : Prop where
  hwi : ∀ (h : Fin 16) (d : Fin 64), wiv (ix2 h d) = wi W (hcol h d)
  hwj : ∀ (h : Fin 16) (d : Fin 64), wjv (ix2 h d) = wj W (hcol h d)
  hz : st5 z = (iter W n s).1
  ha : st5 a = (iter W n s).2
  h17 : V (dr main_v17) = wiv
  h19 : V (dr main_v19) = wjv
  h15 : V (dr main_v15) = idx
  h0 : V (dr main_arg0) = a0
  h1 : V (dr main_arg1) = a1
  h2 : V (dr main_arg2) = a2

theorem Walk.step {W : Fin 2048 → E} {s : St × St} {wiv wjv : FVec Ideal S16x64 .f32} {idx : IVec S8192 32}
    {a0 a1 : FVec Ideal S1x8192x1024 .f32} {a2 : FVec Ideal S2048 .f32}
    {n : Nat} {V : Valuation τ sig (Elt Ideal)} {z a : FVec Ideal S1x512x16x16x64 .f32}
    (I : Walk W s wiv wjv idx a0 a1 a2 n V z a) (hn : n < 16)
    (hs : S1x512x16x16x64.Slices ![0, 0, n, 0, 0] S1x512x1x16x64)
    {V' : Valuation τ sig (Elt Ideal)} {z' a' : FVec Ideal S1x512x16x16x64 .f32}
    (S : StepOf (F := Ideal) ![0, 0, n, 0, 0] hs V V' z a z' a') :
    Walk W s wiv wjv idx a0 a1 a2 (n + 1) V' z' a' := by
  obtain ⟨ez, ea, k17, k19, k15, k0, k1, k2⟩ := S
  rw [I.h17, I.h19] at ez ea
  obtain ⟨hz', ha'⟩ := step_inv W s n hn hs wiv wjv I.hwi I.hwj z a I.hz I.ha
  exact ⟨I.hwi, I.hwj, ez ▸ hz', ea ▸ ha', k17.trans I.h17, k19.trans I.h19, k15.trans I.h15,
    k0.trans I.h0, k1.trans I.h1, k2.trans I.h2⟩

theorem after_ops (V : Valuation τ sig (Elt Ideal)) :
    after ops V (dr main_v593) = resI (V (dr main_arg0)) (V (dr main_arg1)) (V (dr main_arg2))
      ∧ after ops V (dr main_v601) = resA (V (dr main_arg0)) (V (dr main_arg1)) (V (dr main_arg2))
      ∧ after ops V (dr main_arg0) = V (dr main_arg0)
      ∧ after ops V (dr main_arg1) = V (dr main_arg1)
      ∧ after ops V (dr main_arg2) = V (dr main_arg2) := by
  simp only [ops, Hand.after_append]
  have I0 : Walk (vec (V (dr main_arg2))) (gat (mat (V (dr main_arg0))), gat (mat (V (dr main_arg1))))
      (wiFn (V (dr main_arg2))) (wjFn (V (dr main_arg2))) idxFn (V (dr main_arg0)) (V (dr main_arg1)) (V (dr main_arg2)) 0
      (after opsPre V) (after opsPre V (dr main_v21)) (after opsPre V (dr main_v23)) :=
    ⟨wiFn_eq _, wjFn_eq _, by rw [pre_v21, gat5_eq]; rfl, by rw [pre_v23, gat5_eq]; rfl,
      pre_v17 V, pre_v19 V, pre_v15 V, pre_arg0 V, pre_arg1 V, pre_arg2 V⟩
  generalize after opsPre V = V1 at I0 ⊢
  have I1 := I0.step (by decide) _ (step0 V1)
  generalize after opsStep0 V1 = V2 at I1 ⊢
  have I2 := I1.step (by decide) _ (step1 V2)
  generalize after opsStep1 V2 = V3 at I2 ⊢
  have I3 := I2.step (by decide) _ (step2 V3)
  generalize after opsStep2 V3 = V4 at I3 ⊢
  have I4 := I3.step (by decide) _ (step3 V4)
  generalize after opsStep3 V4 = V5 at I4 ⊢
  have I5 := I4.step (by decide) _ (step4 V5)
  generalize after opsStep4 V5 = V6 at I5 ⊢
  have I6 := I5.step (by decide) _ (step5 V6)
  generalize after opsStep5 V6 = V7 at I6 ⊢
  have I7 := I6.step (by decide) _ (step6 V7)
  generalize after opsStep6 V7 = V8 at I7 ⊢
  have I8 := I7.step (by decide) _ (step7 V8)
  generalize after opsStep7 V8 = V9 at I8 ⊢
  have I9 := I8.step (by decide) _ (step8 V9)
  generalize after opsStep8 V9 = V10 at I9 ⊢
  have I10 := I9.step (by decide) _ (step9 V10)
  generalize after opsStep9 V10 = V11 at I10 ⊢
  have I11 := I10.step (by decide) _ (step10 V11)
  generalize after opsStep10 V11 = V12 at I11 ⊢
  have I12 := I11.step (by decide) _ (step11 V12)
  generalize after opsStep11 V12 = V13 at I12 ⊢
  have I13 := I12.step (by decide) _ (step12 V13)
  generalize after opsStep12 V13 = V14 at I13 ⊢
  have I14 := I13.step (by decide) _ (step13 V14)
  generalize after opsStep13 V14 = V15 at I14 ⊢
  have I15 := I14.step (by decide) _ (step14 V15)
  generalize after opsStep14 V15 = V16 at I15 ⊢
  have I16 := I15.step (by decide) _ (step15 V16)
  generalize after opsStep15 V16 = V17 at I16 ⊢
  refine ⟨?_, ?_, ?_, ?_, ?_⟩
  · rw [post_v593, I16.h15]
    funext i
    rw [scatFn_eq, I16.hz]
    rfl
  · rw [post_v601, I16.h15]
    funext i
    rw [scatFn_eq, I16.ha]
    rfl
  · rw [post_arg0]; exact I16.h0
  · rw [post_arg1]; exact I16.h1
  · rw [post_arg2]; exact I16.h2

theorem ref_value (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v593)
            = resI (m ((c.tc : Thread nD τ).loc main_arg0)) (m ((c.tc : Thread nD τ).loc main_arg1)) (m ((c.tc : Thread nD τ).loc main_arg2))
        ∧ r.2.mem ((c.tc : Thread nD τ).loc main_v601)
            = resA (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run (defs (F := Ideal)) _ _).mono (fun r h c => ?_) (run (F := Ideal) m ρ)
  obtain ⟨e1, e2, e3, e4, e5⟩ := after_ops (launchContents m c)
  exact ⟨(h c main_v593).trans e1, (h c main_v601).trans e2, (h c main_arg0).trans e3, (h c main_arg1).trans e4,
    (h c main_arg2).trans e5⟩

end Cert.ReferenceIdeal.Hand

end
-- ==== Proof.lean ====
/-
  Both programs read the 8192 rows as 512 groups of 16 slots (slot j of group g is row ((g + 2j) mod 512)·16 + j),
  update every group sixteen times, each entry from its own slot, slot k and their two dot products with the weight
  halves over the entry's head of 64 columns, and put every slot back in its row: the function of Proof/Spec.lean.
-/
import proofs.«105576_g23433341567538_cont_8to1_1409_2_alg».proof.Defs
import proofs.«105576_g23433341567538_cont_8to1_1409_2_alg».proof.Proof.Gen.Kernel
import proofs.«105576_g23433341567538_cont_8to1_1409_2_alg».proof.Proof.Gen.KernelIdeal
import proofs.«105576_g23433341567538_cont_8to1_1409_2_alg».proof.Proof.Gen.ReferenceIdeal
import proofs.«105576_g23433341567538_cont_8to1_1409_2_alg».proof.Proof.Gen.Pre_finite_inputs
import proofs.«105576_g23433341567538_cont_8to1_1409_2_alg».proof.Proof.KFrameBits
import proofs.«105576_g23433341567538_cont_8to1_1409_2_alg».proof.Proof.KFrameIdeal
import proofs.«105576_g23433341567538_cont_8to1_1409_2_alg».proof.Proof.KValue
import proofs.«105576_g23433341567538_cont_8to1_1409_2_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => ⟨(h c).2.2.1, (h c).2.2.2.1, (h c).2.2.2.2⟩)
    (Cert.ReferenceIdeal.Hand.ref_value m ρ)

theorem algebraic : Cert.algebraic_KernelIdeal_ReferenceIdeal := by
  intro m ρ m' ρ' _ hagree
  refine ⟨_, _, Cert.KernelIdeal.Hand.kernel_value m ρ, ?_⟩
  refine (θ_run Cert.ReferenceIdeal.defs _ _).mono (fun _ h c => ?_) (Cert.ReferenceIdeal.Hand.ref_value m' ρ')
  obtain ⟨h1, h2, h3, h4, h5⟩ := h c
  refine ⟨h1.trans ?_, h2.trans ?_, h3, h4, h5⟩
  · rw [(hagree c).1, (hagree c).2.1, (hagree c).2.2]
  · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
